-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S4096x64 : S_.BroadcastsInDim S4096x64 (![] : Fin 0 → Fin S4096x64.rank)
  reducesTo_S4096x64_S_d0_1 : S4096x64.ReducesTo [0, 1] S_
  bcast_S_S2x64x128 : S_.BroadcastsInDim S2x64x128 (![] : Fin 0 → Fin S2x64x128.rank)
  reducesTo_S2x64x128_S_d0_1_2 : S2x64x128.ReducesTo [0, 1, 2] S_
  bcast_S_S2x64 : S_.BroadcastsInDim S2x64 (![] : Fin 0 → Fin S2x64.rank)
  reducesTo_S2x64_S_d0_1 : S2x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x64 .f32) (main_arg12 : FVec F S1 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) (main_v33 : IVec S_ 1) : IVec S_ 1 :=
  let main_v34 : FVec F S2x64x128 .f32 := Host.absf main_arg7
  let main_cst_12 : FVec F S_ .f32 := constant S_ .f32 0x7F800000#32
  let main_v35 : FVec F S2x64x128 .f32 := broadcastInDim S2x64x128 ![] bcast_S_S2x64x128 main_cst_12
  let main_v36 : IVec S2x64x128 1 := cmpf .olt main_v34 main_v35
  let main_c_13 : IVec S_ 1 := constantI S_ 1 1#1
  let main_v37 : IVec S_ 1 := (fun x v => Host.reduce IntOp.andi x v reducesTo_S2x64x128_S_d0_1_2 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_v48 main_v49 main_v50

def fn_part1 {F : FTy → Type} [FloatOps F] (main_arg4 : FVec F S2x64 .f32) (main_arg5 : FVec F S2x64 .f32) (main_arg6 : FVec F S2x64 .f32) (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) (main_v13 : IVec S_ 1) (main_v16 : IVec S2x64x128 1) : IVec S_ 1 :=
  let main_c_5 : IVec S_ 1 := constantI S_ 1 1#1
  let main_v17 : IVec S_ 1 := (fun x v => Host.reduce IntOp.andi x v reducesTo_S2x64x128_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x4096 .f32) (main_arg1 : FVec F S8192x64 .f32) (main_arg2 : FVec F S4096x64 .f32) (main_arg3 : FVec F S2x64x128 .f32) (main_arg4 : FVec F S2x64 .f32) (main_arg5 : FVec F S2x64 .f32) (main_arg6 : FVec F S2x64 .f32) (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S2x64x128 .f32 := Host.absf main_arg3
  let main_cst_4 : FVec F S_ .f32 := constant S_ .f32 0x7F800000#32
  let main_v15 : FVec F S2x64x128 .f32 := broadcastInDim S2x64x128 ![] bcast_S_S2x64x128 main_cst_4
  let main_v16 : IVec S2x64x128 1 := cmpf .olt main_v14 main_v15
  fn_part1 (F := F) main_arg4 main_arg5 main_arg6 main_arg7 main_arg8 main_arg9 main_arg10 main_arg11 main_arg12 main_v13 main_v16
-- ==== Kernel.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S1x64x128 : Shape := ⟨3, ![1, 64, 128]⟩
abbrev S64x128 : Shape := ⟨2, ![64, 128]⟩
abbrev S128x64 : Shape := ⟨2, ![128, 64]⟩
abbrev S64 : Shape := ⟨1, ![64]⟩
abbrev S4096x65 : Shape := ⟨2, ![4096, 65]⟩
abbrev S512x2048 : Shape := ⟨2, ![512, 2048]⟩
abbrev S65x4096 : Shape := ⟨2, ![65, 4096]⟩
abbrev S512x64 : Shape := ⟨2, ![512, 64]⟩
abbrev S512x1 : Shape := ⟨2, ![512, 1]⟩
abbrev S512x65 : Shape := ⟨2, ![512, 65]⟩
abbrev S65x512 : Shape := ⟨2, ![65, 512]⟩
abbrev S65x2048 : Shape := ⟨2, ![65, 2048]⟩
abbrev S4096x1 : Shape := ⟨2, ![4096, 1]⟩
abbrev S4096x128 : Shape := ⟨2, ![4096, 128]⟩
abbrev S4096 : Shape := ⟨1, ![4096]⟩
abbrev S64x1 : Shape := ⟨2, ![64, 1]⟩
abbrev S1x1 : Shape := ⟨2, ![1, 1]⟩
abbrev S512x4096 : Shape := ⟨2, ![512, 4096]⟩
abbrev S512x128 : Shape := ⟨2, ![512, 128]⟩
abbrev S512 : Shape := ⟨1, ![512]⟩

abbrev nBuf : Space → Nat
  | .hbm => 55
  | .vmem => 31
  | .smem => 0
  | _ => 0

abbrev bufTy : (tb : Table) → Fin (tcTables nBuf tb) → BufTy
  | .hbm, ⟨0, _⟩ => ⟨S8192x4096, .f32⟩
  | .hbm, ⟨1, _⟩ => ⟨S8192x64, .f32⟩
  | .hbm, ⟨2, _⟩ => ⟨S4096x64, .f32⟩
  | .hbm, ⟨3, _⟩ => ⟨S2x64x128, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64x128, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S1x64, .f32⟩
  | .hbm, ⟨12, _⟩ => ⟨S1, .f32⟩
  | .hbm, ⟨13, _⟩ => ⟨S1x64x128, .f32⟩
  | .hbm, ⟨14, _⟩ => ⟨S64x128, .f32⟩
  | .hbm, ⟨15, _⟩ => ⟨S128x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S4096x65, .f32⟩
  | .hbm, ⟨26, _⟩ => ⟨S1x64x128, .f32⟩
  | .hbm, ⟨27, _⟩ => ⟨S64x128, .f32⟩
  | .hbm, ⟨28, _⟩ => ⟨S128x64, .f32⟩
  | .hbm, ⟨29, _⟩ => ⟨S128x64, .bf16⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S1x64x128, .f32⟩
  | .hbm, ⟨40, _⟩ => ⟨S64x128, .f32⟩
  | .hbm, ⟨41, _⟩ => ⟨S128x64, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S64x1, .f32⟩
  | .hbm, ⟨52, _⟩ => ⟨S1x1, .f32⟩
  | .hbm, ⟨53, _⟩ => ⟨S4096x1, .f32⟩
  | .hbm, ⟨54, _⟩ => ⟨S4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8192x64, .f32⟩
  | .local _ .vmem, ⟨5, _⟩ => ⟨S4096x64, .f32⟩
  | .local _ .vmem, ⟨6, _⟩ => ⟨S128x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S4096x65, .f32⟩
  | .local _ .vmem, ⟨11, _⟩ => ⟨S65x4096, .f32⟩
  | .local _ .vmem, ⟨12, _⟩ => ⟨S512x4096, .f32⟩
  | .local _ .vmem, ⟨13, _⟩ => ⟨S512x4096, .f32⟩
  | .local _ .vmem, ⟨14, _⟩ => ⟨S8192x64, .f32⟩
  | .local _ .vmem, ⟨15, _⟩ => ⟨S4096x65, .f32⟩
  | .local _ .vmem, ⟨16, _⟩ => ⟨S128x64, .bf16⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S128x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S4096x1, .f32⟩
  | .local _ .vmem, ⟨27, _⟩ => ⟨S65x4096, .f32⟩
  | .local _ .vmem, ⟨28, _⟩ => ⟨S4096x65, .bf16⟩
  | .local _ .vmem, ⟨29, _⟩ => ⟨S512x4096, .bf16⟩
  | .local _ .vmem, ⟨30, _⟩ => ⟨S65x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc1_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_4 : Index := 0#32
  ![v8.toNat, 0]
def k0_cond2 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x65 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def k1_off1 (i : grid1.Coords) : Fin 2 → Nat :=
  let arg0 : BitVec 32 := BitVec.ofNat 32 (i 0).val
  let c512_i32 : BitVec 32 := 512#32
  let v18 : BitVec 32 := Scalar.muli arg0 c512_i32
  let v19 : Index := Scalar.indexCast v18
  let c0_8 : Index := 0#32
  ![v19.toNat, 0]
def k1_cond3 (i : grid1.Coords) : BitVec 1 :=
  let arg0 : BitVec 32 := BitVec.ofNat 32 (i 0).val
  let c15_i32 : BitVec 32 := 15#32
  let v67 : BitVec 1 := Scalar.cmpi .eq arg0 c15_i32
  let v68 : BitVec 32 := Scalar.extui v67
  let c0_i32_29 : BitVec 32 := 0#32
  let v69 : BitVec 1 := Scalar.cmpi .ne v68 c0_i32_29
  v69

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x65 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4096x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  slices_S2x64x128_S1x64x128_0_0_0 : S2x64x128.Slices ![0, 0, 0] S1x64x128
  shapeCasts_S1x64x128_S64x128 : S1x64x128.ShapeCasts S64x128
  transposes_S64x128_S128x64_1_0 : S64x128.Transposes [1, 0] S128x64
  slices_S2x64_S1x64_0_0 : S2x64.Slices ![0, 0] S1x64
  shapeCasts_S1x64_S64 : S1x64.ShapeCasts S64
  shapeCasts_S64_S1x64 : S64.ShapeCasts S1x64
  inb_S65x4096_S65x4096_0_0 : ∀ a, (![0, 0] : Fin 2 → Nat) a + S65x4096.size a ≤ S65x4096.size a
  h_S65x4096 : 0 < S65x4096.numel
  shapeCasts_S65x4096_S65x4096 : S65x4096.ShapeCasts S65x4096
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  h_S512x64 : 0 < S512x64.numel
  concatenates_S512x64_S512x1_S512x65_d1 : Shape.Concatenates [S512x64, S512x1] S512x65 1
  transposes_S512x65_p1_0_S65x512 : S512x65.Transposes [1, 0] S65x512
  inb_S65x4096_S65x2048_0_0 : ∀ a, (![0, 0] : Fin 2 → Nat) a + S65x2048.size a ≤ S65x4096.size a
  h_S65x2048 : 0 < S65x2048.numel
  shapeCasts_S65x2048_S65x2048 : S65x2048.ShapeCasts S65x2048
  inb_S65x4096_S65x2048_0_2048 : ∀ a, (![0, 2048] : Fin 2 → Nat) a + S65x2048.size a ≤ S65x4096.size a
  transposes_S65x4096_p1_0_S4096x65 : S65x4096.Transposes [1, 0] S4096x65
  slices_S4096x65_o0_64_S4096x1 : S4096x65.Slices ![0, 64] S4096x1
  slices_S4096x65_o0_0_S4096x64 : S4096x65.Slices ![0, 0] S4096x64
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  concatenates_S4096x64_S4096x64_S4096x128_d1 : Shape.Concatenates [S4096x64, S4096x64] S4096x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  concatenates_S4096x64_S4096x1_S4096x65_d1 : Shape.Concatenates [S4096x64, S4096x1] S4096x65 1
  inb_S4096x65_S4096x65_0_0 : ∀ a, (![0, 0] : Fin 2 → Nat) a + S4096x65.size a ≤ S4096x65.size a
  h_S4096x65 : 0 < S4096x65.numel
  slices_S2x64x128_S1x64x128_1_0_0 : S2x64x128.Slices ![1, 0, 0] S1x64x128
  slices_S2x64_S1x64_1_0 : S2x64.Slices ![1, 0] S1x64
  shapeCasts_S1x64_S64x1 : S1x64.ShapeCasts S64x1
  shapeCasts_S1_S1x1 : S1.ShapeCasts S1x1
  shapeCasts_S4096x65_S4096x65 : S4096x65.ShapeCasts S4096x65
  packedbf16_S4096x65_S4096x65_0_0 : (Rect.unit (s := S4096x65) ![0, 0] S4096x65.size inb_S4096x65_S4096x65_0_0).PackedRows (EltTy.packing .bf16)
  inb_S512x4096_S512x4096_0_0 : ∀ a, (![0, 0] : Fin 2 → Nat) a + S512x4096.size a ≤ S512x4096.size a
  h_S512x4096 : 0 < S512x4096.numel
  inb_S65x512_S65x512_0_0 : ∀ a, (![0, 0] : Fin 2 → Nat) a + S65x512.size a ≤ S65x512.size a
  h_S65x512 : 0 < S65x512.numel
  slices_S512x65_o0_64_S512x1 : S512x65.Slices ![0, 64] S512x1
  slices_S512x65_o0_0_S512x64 : S512x65.Slices ![0, 0] S512x64
  broadcasts_S512x1_S512x64 : S512x1.Broadcasts S512x64
  concatenates_S512x64_S512x64_S512x128_d1 : Shape.Concatenates [S512x64, S512x64] S512x128 1
  broadcasts_S1x64_S512x64 : S1x64.Broadcasts S512x64
  reduces_S512x64_S512 : S512x64.Reduces [1] S512
  shapeCasts_S512_S512x1 : S512.ShapeCasts S512x1
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  shapeCasts_S65x512_S65x512 : S65x512.ShapeCasts S65x512
  packedbf16_S65x512_S65x512_0_0 : (Rect.unit (s := S65x512) ![0, 0] S65x512.size inb_S65x512_S65x512_0_0).PackedRows (EltTy.packing .bf16)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  dot_S65x512_S512x2048_S65x2048_1_0_0_1_n_n_wf : DotDims.WF S65x512 S512x2048 S65x2048 [1] [0] [0] [1] [] []
  dot_S4096x128_S128x64_S4096x64_1_0_0_1_n_n_wf : DotDims.WF S4096x128 S128x64 S4096x64 [1] [0] [0] [1] [] []
  dot_S512x4096_S4096x65_S512x65_1_0_0_1_n_n_wf : DotDims.WF S512x4096 S4096x65 S512x65 [1] [0] [0] [1] [] []
  dot_S65x512_S512x4096_S65x4096_1_0_0_1_n_n_wf : DotDims.WF S65x512 S512x4096 S65x4096 [1] [0] [0] [1] [] []
  dot_S512x128_S128x64_S512x64_1_0_0_1_n_n_wf : DotDims.WF S512x128 S128x64 S512x64 [1] [0] [0] [1] [] []
  dot_S4096x64_S64x1_S4096x1_1_0_0_1_n_n_wf : DotDims.WF S4096x64 S64x1 S4096x1 [1] [0] [0] [1] [] []
  hrank0 : 0 < grid0.rank
  k0_off1_inb : ∀ i : grid0.Coords, ∀ a, (k0_off1 i) a + S512x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x4096.size a
  hwx0_1 : ∀ i : grid0.Coords, EltTy.bits .f32 = 32 ∨ (Rect.block (s := S8192x4096) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x65.size a ≤ S4096x65.size a
  hwx0_8 : ∀ i : grid0.Coords, EltTy.bits .f32 = 32 ∨ (Rect.block (s := S4096x65) S4096x65.size (cc0_transform_8 i) (hinb0_8 i)).WholeWords (EltTy.packing .f32)
  hrank1 : 0 < grid1.rank
  k1_off1_inb : ∀ i : grid1.Coords, ∀ a, (k1_off1 i) a + S512x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x65.size a ≤ S4096x65.size a
  hwx1_2 : ∀ i : grid1.Coords, EltTy.bits .f32 = 32 ∨ (Rect.block (s := S4096x65) S4096x65.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S64x1.size a
  hwx1_11 : ∀ i : grid1.Coords, EltTy.bits .f32 = 32 ∨ (Rect.block (s := S64x1) S64x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S4096x1.size a ≤ S4096x1.size a
  hwx1_13 : ∀ i : grid1.Coords, EltTy.bits .f32 = 32 ∨ (Rect.block (s := S4096x1) S4096x1.size (cc1_transform_13 i) (hinb1_13 i)).WholeWords (EltTy.packing .f32)

variable [Facts₀]

def dot_S65x512_S512x2048_S65x2048_1_0_0_1_n_n : DotDims S65x512 S512x2048 S65x2048 where
  lhsContracting := [1]
  rhsContracting := [0]
  lhsNonContracting := [0]
  rhsNonContracting := [1]
  lhsBatch := []
  rhsBatch := []
  wf := dot_S65x512_S512x2048_S65x2048_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S512x4096_S4096x65_S512x65_1_0_0_1_n_n : DotDims S512x4096 S4096x65 S512x65 where
  lhsContracting := [1]
  rhsContracting := [0]
  lhsNonContracting := [0]
  rhsNonContracting := [1]
  lhsBatch := []
  rhsBatch := []
  wf := dot_S512x4096_S4096x65_S512x65_1_0_0_1_n_n_wf
def dot_S65x512_S512x4096_S65x4096_1_0_0_1_n_n : DotDims S65x512 S512x4096 S65x4096 where
  lhsContracting := [1]
  rhsContracting := [0]
  lhsNonContracting := [0]
  rhsNonContracting := [1]
  lhsBatch := []
  rhsBatch := []
  wf := dot_S65x512_S512x4096_S65x4096_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S4096x65.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4096x65.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v38) S64x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v39) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v40) S4096x1.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev idle1 : Fin 14 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k1_cond3 i == 1#1) | ⟨_ + 14, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S4096x128 : Shape := ⟨2, ![4096, 128]⟩
abbrev S1x64x128 : Shape := ⟨3, ![1, 64, 128]⟩
abbrev S64x128 : Shape := ⟨2, ![64, 128]⟩
abbrev S128x64 : Shape := ⟨2, ![128, 64]⟩
abbrev S64 : Shape := ⟨1, ![64]⟩
abbrev S8192x1 : Shape := ⟨2, ![8192, 1]⟩
abbrev S8192x128 : Shape := ⟨2, ![8192, 128]⟩
abbrev S64x1 : Shape := ⟨2, ![64, 1]⟩
abbrev S1x1 : Shape := ⟨2, ![1, 1]⟩

abbrev nBuf : Space → Nat
  | .hbm => 308
  | .vmem => 0
  | .smem => 0
  | _ => 0

abbrev hbmTy0_0 (i : Nat) : BufTy := match i % 128 with
  | 0 => ⟨S8192x4096, .f32⟩
  | 1 => ⟨S8192x64, .f32⟩
  | 2 => ⟨S4096x64, .f32⟩
  | 3 => ⟨S2x64x128, .f32⟩
  | 4 => ⟨S2x64, .f32⟩
  | 5 => ⟨S2x64, .f32⟩
  | 6 => ⟨S2x64, .f32⟩
  | 7 => ⟨S2x64x128, .f32⟩
  | 8 => ⟨S2x64, .f32⟩
  | 9 => ⟨S2x64, .f32⟩
  | 10 => ⟨S2x64, .f32⟩
  | 11 => ⟨S1x64, .f32⟩
  | 12 => ⟨S1, .f32⟩
  | 13 => ⟨S_, .f32⟩
  | 14 => ⟨S4096, .f32⟩
  | 15 => ⟨S_, .f32⟩
  | 16 => ⟨S_, .f32⟩
  | 17 => ⟨S4096, .f32⟩
  | 18 => ⟨S4096, .f32⟩
  | 19 => ⟨S_, .f32⟩
  | 20 => ⟨S8192, .f32⟩
  | 21 => ⟨S_, .f32⟩
  | 22 => ⟨S_, .f32⟩
  | 23 => ⟨S8192, .f32⟩
  | 24 => ⟨S8192, .f32⟩
  | 25 => ⟨S4096x8192, .f32⟩
  | 26 => ⟨S4096x64, .f32⟩
  | 27 => ⟨S4096x1, .f32⟩
  | 28 => ⟨S4096x64, .f32⟩
  | 29 => ⟨S4096x64, .f32⟩
  | 30 => ⟨S4096x128, .f32⟩
  | 31 => ⟨S1x64x128, .f32⟩
  | 32 => ⟨S64x128, .f32⟩
  | 33 => ⟨S128x64, .f32⟩
  | 34 => ⟨S4096x64, .f32⟩
  | 35 => ⟨S1x64, .f32⟩
  | 36 => ⟨S64, .f32⟩
  | 37 => ⟨S1x64, .f32⟩
  | 38 => ⟨S4096x64, .f32⟩
  | 39 => ⟨S4096x64, .f32⟩
  | 40 => ⟨S_, .f32⟩
  | 41 => ⟨S4096x64, .f32⟩
  | 42 => ⟨S4096x64, .f32⟩
  | 43 => ⟨S1x64, .f32⟩
  | 44 => ⟨S64, .f32⟩
  | 45 => ⟨S1x64, .f32⟩
  | 46 => ⟨S64, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .i32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S4096x64, .f32⟩
  | 61 => ⟨S4096x64, .f32⟩
  | 62 => ⟨S4096x64, .f32⟩
  | 63 => ⟨S_, .f32⟩
  | 64 => ⟨S_, .f32⟩
  | 65 => ⟨S_, .f32⟩
  | 66 => ⟨S_, .f32⟩
  | 67 => ⟨S4096, .f32⟩
  | 68 => ⟨S4096x1, .f32⟩
  | 69 => ⟨S4096x1, .f32⟩
  | 70 => ⟨S4096x1, .f32⟩
  | 71 => ⟨S_, .f32⟩
  | 72 => ⟨S_, .i1⟩
  | 73 => ⟨S_, .f32⟩
  | 74 => ⟨S_, .f32⟩
  | 75 => ⟨S4096x1, .f32⟩
  | 76 => ⟨S4096x1, .f32⟩
  | 77 => ⟨S4096x64, .f32⟩
  | 78 => ⟨S4096x64, .f32⟩
  | 79 => ⟨S_, .f32⟩
  | 80 => ⟨S4096x1, .f32⟩
  | 81 => ⟨S4096x1, .f32⟩
  | 82 => ⟨S4096x1, .f32⟩
  | 83 => ⟨S4096x64, .f32⟩
  | 84 => ⟨S4096x64, .f32⟩
  | 85 => ⟨S1x64, .f32⟩
  | 86 => ⟨S4096x64, .f32⟩
  | 87 => ⟨S4096x64, .f32⟩
  | 88 => ⟨S1x64, .f32⟩
  | 89 => ⟨S4096x64, .f32⟩
  | 90 => ⟨S4096x64, .f32⟩
  | 91 => ⟨S4096x64, .f32⟩
  | 92 => ⟨S8192x64, .f32⟩
  | 93 => ⟨S8192x1, .f32⟩
  | 94 => ⟨S8192x64, .f32⟩
  | 95 => ⟨S8192x64, .f32⟩
  | 96 => ⟨S8192x128, .f32⟩
  | 97 => ⟨S1x64x128, .f32⟩
  | 98 => ⟨S64x128, .f32⟩
  | 99 => ⟨S128x64, .f32⟩
  | 100 => ⟨S8192x64, .f32⟩
  | 101 => ⟨S1x64, .f32⟩
  | 102 => ⟨S64, .f32⟩
  | 103 => ⟨S1x64, .f32⟩
  | 104 => ⟨S8192x64, .f32⟩
  | 105 => ⟨S8192x64, .f32⟩
  | 106 => ⟨S_, .f32⟩
  | 107 => ⟨S8192x64, .f32⟩
  | 108 => ⟨S8192x64, .f32⟩
  | 109 => ⟨S1x64, .f32⟩
  | 110 => ⟨S64, .f32⟩
  | 111 => ⟨S1x64, .f32⟩
  | 112 => ⟨S64, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .i32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x64, .f32⟩
  | 127 => ⟨S8192x64, .f32⟩
  | _ => ⟨S8192x4096, .f32⟩

abbrev hbmTy0_1 (i : Nat) : BufTy := match i % 128 with
  | 0 => ⟨S8192x64, .f32⟩
  | 1 => ⟨S_, .f32⟩
  | 2 => ⟨S_, .f32⟩
  | 3 => ⟨S_, .f32⟩
  | 4 => ⟨S_, .f32⟩
  | 5 => ⟨S8192, .f32⟩
  | 6 => ⟨S8192x1, .f32⟩
  | 7 => ⟨S8192x1, .f32⟩
  | 8 => ⟨S8192x1, .f32⟩
  | 9 => ⟨S_, .f32⟩
  | 10 => ⟨S_, .i1⟩
  | 11 => ⟨S_, .f32⟩
  | 12 => ⟨S_, .f32⟩
  | 13 => ⟨S8192x1, .f32⟩
  | 14 => ⟨S8192x1, .f32⟩
  | 15 => ⟨S8192x64, .f32⟩
  | 16 => ⟨S8192x64, .f32⟩
  | 17 => ⟨S_, .f32⟩
  | 18 => ⟨S8192x1, .f32⟩
  | 19 => ⟨S8192x1, .f32⟩
  | 20 => ⟨S8192x1, .f32⟩
  | 21 => ⟨S8192x64, .f32⟩
  | 22 => ⟨S8192x64, .f32⟩
  | 23 => ⟨S1x64, .f32⟩
  | 24 => ⟨S8192x64, .f32⟩
  | 25 => ⟨S8192x64, .f32⟩
  | 26 => ⟨S1x64, .f32⟩
  | 27 => ⟨S8192x64, .f32⟩
  | 28 => ⟨S8192x64, .f32⟩
  | 29 => ⟨S8192x64, .f32⟩
  | 30 => ⟨S4096x8192, .f32⟩
  | 31 => ⟨S4096x64, .f32⟩
  | 32 => ⟨S4096x1, .f32⟩
  | 33 => ⟨S4096x64, .f32⟩
  | 34 => ⟨S4096x64, .f32⟩
  | 35 => ⟨S4096x128, .f32⟩
  | 36 => ⟨S1x64x128, .f32⟩
  | 37 => ⟨S64x128, .f32⟩
  | 38 => ⟨S128x64, .f32⟩
  | 39 => ⟨S4096x64, .f32⟩
  | 40 => ⟨S1x64, .f32⟩
  | 41 => ⟨S64, .f32⟩
  | 42 => ⟨S1x64, .f32⟩
  | 43 => ⟨S4096x64, .f32⟩
  | 44 => ⟨S4096x64, .f32⟩
  | 45 => ⟨S_, .f32⟩
  | 46 => ⟨S4096x64, .f32⟩
  | 47 => ⟨S4096x64, .f32⟩
  | 48 => ⟨S1x64, .f32⟩
  | 49 => ⟨S64, .f32⟩
  | 50 => ⟨S1x64, .f32⟩
  | 51 => ⟨S64, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .i32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x64, .f32⟩
  | 66 => ⟨S4096x64, .f32⟩
  | 67 => ⟨S4096x64, .f32⟩
  | 68 => ⟨S_, .f32⟩
  | 69 => ⟨S_, .f32⟩
  | 70 => ⟨S_, .f32⟩
  | 71 => ⟨S_, .f32⟩
  | 72 => ⟨S4096, .f32⟩
  | 73 => ⟨S4096x1, .f32⟩
  | 74 => ⟨S4096x1, .f32⟩
  | 75 => ⟨S4096x1, .f32⟩
  | 76 => ⟨S_, .f32⟩
  | 77 => ⟨S_, .i1⟩
  | 78 => ⟨S_, .f32⟩
  | 79 => ⟨S_, .f32⟩
  | 80 => ⟨S4096x1, .f32⟩
  | 81 => ⟨S4096x1, .f32⟩
  | 82 => ⟨S4096x64, .f32⟩
  | 83 => ⟨S4096x64, .f32⟩
  | 84 => ⟨S_, .f32⟩
  | 85 => ⟨S4096x1, .f32⟩
  | 86 => ⟨S4096x1, .f32⟩
  | 87 => ⟨S4096x1, .f32⟩
  | 88 => ⟨S4096x64, .f32⟩
  | 89 => ⟨S4096x64, .f32⟩
  | 90 => ⟨S1x64, .f32⟩
  | 91 => ⟨S4096x64, .f32⟩
  | 92 => ⟨S4096x64, .f32⟩
  | 93 => ⟨S1x64, .f32⟩
  | 94 => ⟨S4096x64, .f32⟩
  | 95 => ⟨S4096x64, .f32⟩
  | 96 => ⟨S4096x64, .f32⟩
  | 97 => ⟨S8192x64, .f32⟩
  | 98 => ⟨S8192x1, .f32⟩
  | 99 => ⟨S8192x64, .f32⟩
  | 100 => ⟨S8192x64, .f32⟩
  | 101 => ⟨S8192x128, .f32⟩
  | 102 => ⟨S1x64x128, .f32⟩
  | 103 => ⟨S64x128, .f32⟩
  | 104 => ⟨S128x64, .f32⟩
  | 105 => ⟨S8192x64, .f32⟩
  | 106 => ⟨S1x64, .f32⟩
  | 107 => ⟨S64, .f32⟩
  | 108 => ⟨S1x64, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S1x64, .f32⟩
  | 115 => ⟨S64, .f32⟩
  | 116 => ⟨S1x64, .f32⟩
  | 117 => ⟨S64, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S_, .i32⟩
  | 125 => ⟨S_, .f32⟩
  | 126 => ⟨S8192, .f32⟩
  | 127 => ⟨S8192x1, .f32⟩
  | _ => ⟨S8192x4096, .f32⟩

abbrev hbmTy0_2 (i : Nat) : BufTy := match i % 128 with
  | 0 => ⟨S_, .f32⟩
  | 1 => ⟨S8192x1, .f32⟩
  | 2 => ⟨S8192x1, .f32⟩
  | 3 => ⟨S8192x64, .f32⟩
  | 4 => ⟨S8192x64, .f32⟩
  | 5 => ⟨S8192x64, .f32⟩
  | 6 => ⟨S_, .f32⟩
  | 7 => ⟨S_, .f32⟩
  | 8 => ⟨S_, .f32⟩
  | 9 => ⟨S_, .f32⟩
  | 10 => ⟨S8192, .f32⟩
  | 11 => ⟨S8192x1, .f32⟩
  | 12 => ⟨S8192x1, .f32⟩
  | 13 => ⟨S8192x1, .f32⟩
  | 14 => ⟨S_, .f32⟩
  | 15 => ⟨S_, .i1⟩
  | 16 => ⟨S_, .f32⟩
  | 17 => ⟨S_, .f32⟩
  | 18 => ⟨S8192x1, .f32⟩
  | 19 => ⟨S8192x1, .f32⟩
  | 20 => ⟨S8192x64, .f32⟩
  | 21 => ⟨S8192x64, .f32⟩
  | 22 => ⟨S_, .f32⟩
  | 23 => ⟨S8192x1, .f32⟩
  | 24 => ⟨S8192x1, .f32⟩
  | 25 => ⟨S8192x1, .f32⟩
  | 26 => ⟨S8192x64, .f32⟩
  | 27 => ⟨S8192x64, .f32⟩
  | 28 => ⟨S1x64, .f32⟩
  | 29 => ⟨S8192x64, .f32⟩
  | 30 => ⟨S8192x64, .f32⟩
  | 31 => ⟨S1x64, .f32⟩
  | 32 => ⟨S8192x64, .f32⟩
  | 33 => ⟨S8192x64, .f32⟩
  | 34 => ⟨S8192x64, .f32⟩
  | 35 => ⟨S64x1, .f32⟩
  | 36 => ⟨S4096x1, .f32⟩
  | 37 => ⟨S1x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_cst_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_cst_1 : Ref sig .tc := ⟨.hbm, 64, rfl⟩
abbrev main_call3_v8 : Ref sig .tc := ⟨.hbm, 65, rfl⟩
abbrev main_call3_cst_2 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_cst_3 : Ref sig .tc := ⟨.hbm, 71, rfl⟩
abbrev main_call3_v13 : Ref sig .tc := ⟨.hbm, 72, rfl⟩
abbrev main_call3_cst_4 : Ref sig .tc := ⟨.hbm, 73, rfl⟩
abbrev main_call3_call0_v0 : Ref sig .tc := ⟨.hbm, 74, rfl⟩
abbrev main_call3_call0_v1 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_5 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_call4_cst : Ref sig .tc := ⟨.hbm, 106, rfl⟩
abbrev main_call4_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_6 : Ref sig .tc := ⟨.hbm, 113, rfl⟩
abbrev main_v62 : Ref sig .tc := ⟨.hbm, 114, rfl⟩
abbrev main_v63 : Ref sig .tc := ⟨.hbm, 115, rfl⟩
abbrev main_cst_7 : Ref sig .tc := ⟨.hbm, 116, rfl⟩
abbrev main_v64 : Ref sig .tc := ⟨.hbm, 117, rfl⟩
abbrev main_v65 : Ref sig .tc := ⟨.hbm, 118, rfl⟩
abbrev main_c_8 : Ref sig .tc := ⟨.hbm, 119, rfl⟩
abbrev main_call5_cst : Ref sig .tc := ⟨.hbm, 120, rfl⟩
abbrev main_call5_v0 : Ref sig .tc := ⟨.hbm, 121, rfl⟩
abbrev main_call5_v1 : Ref sig .tc := ⟨.hbm, 122, rfl⟩
abbrev main_call5_cst_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_cst_1 : Ref sig .tc := ⟨.hbm, 130, rfl⟩
abbrev main_call5_v8 : Ref sig .tc := ⟨.hbm, 131, rfl⟩
abbrev main_call5_cst_2 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_v12 : Ref sig .tc := ⟨.hbm, 136, rfl⟩
abbrev main_call5_cst_3 : Ref sig .tc := ⟨.hbm, 137, rfl⟩
abbrev main_call5_v13 : Ref sig .tc := ⟨.hbm, 138, rfl⟩
abbrev main_call5_cst_4 : Ref sig .tc := ⟨.hbm, 139, rfl⟩
abbrev main_call5_call0_v0 : Ref sig .tc := ⟨.hbm, 140, rfl⟩
abbrev main_call5_call0_v1 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_9 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_call6_cst : Ref sig .tc := ⟨.hbm, 173, rfl⟩
abbrev main_call6_v0 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_cst_10 : Ref sig .tc := ⟨.hbm, 180, rfl⟩
abbrev main_v101 : Ref sig .tc := ⟨.hbm, 181, rfl⟩
abbrev main_v102 : Ref sig .tc := ⟨.hbm, 182, rfl⟩
abbrev main_cst_11 : Ref sig .tc := ⟨.hbm, 183, rfl⟩
abbrev main_v103 : Ref sig .tc := ⟨.hbm, 184, rfl⟩
abbrev main_v104 : Ref sig .tc := ⟨.hbm, 185, rfl⟩
abbrev main_c_12 : Ref sig .tc := ⟨.hbm, 186, rfl⟩
abbrev main_call7_cst : Ref sig .tc := ⟨.hbm, 187, rfl⟩
abbrev main_call7_v0 : Ref sig .tc := ⟨.hbm, 188, rfl⟩
abbrev main_call7_v1 : Ref sig .tc := ⟨.hbm, 189, rfl⟩
abbrev main_call7_cst_0 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_v6 : Ref sig .tc := ⟨.hbm, 195, rfl⟩
abbrev main_call7_v7 : Ref sig .tc := ⟨.hbm, 196, rfl⟩
abbrev main_call7_cst_1 : Ref sig .tc := ⟨.hbm, 197, rfl⟩
abbrev main_call7_v8 : Ref sig .tc := ⟨.hbm, 198, rfl⟩
abbrev main_call7_cst_2 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_v12 : Ref sig .tc := ⟨.hbm, 203, rfl⟩
abbrev main_call7_cst_3 : Ref sig .tc := ⟨.hbm, 204, rfl⟩
abbrev main_call7_v13 : Ref sig .tc := ⟨.hbm, 205, rfl⟩
abbrev main_call7_cst_4 : Ref sig .tc := ⟨.hbm, 206, rfl⟩
abbrev main_call7_call0_v0 : Ref sig .tc := ⟨.hbm, 207, rfl⟩
abbrev main_call7_call0_v1 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_cst_13 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_call8_cst : Ref sig .tc := ⟨.hbm, 239, rfl⟩
abbrev main_call8_v0 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_cst_14 : Ref sig .tc := ⟨.hbm, 246, rfl⟩
abbrev main_v139 : Ref sig .tc := ⟨.hbm, 247, rfl⟩
abbrev main_v140 : Ref sig .tc := ⟨.hbm, 248, rfl⟩
abbrev main_cst_15 : Ref sig .tc := ⟨.hbm, 249, rfl⟩
abbrev main_v141 : Ref sig .tc := ⟨.hbm, 250, rfl⟩
abbrev main_v142 : Ref sig .tc := ⟨.hbm, 251, rfl⟩
abbrev main_c_16 : Ref sig .tc := ⟨.hbm, 252, rfl⟩
abbrev main_call9_cst : Ref sig .tc := ⟨.hbm, 253, rfl⟩
abbrev main_call9_v0 : Ref sig .tc := ⟨.hbm, 254, rfl⟩
abbrev main_call9_v1 : Ref sig .tc := ⟨.hbm, 255, rfl⟩
abbrev main_call9_cst_0 : Ref sig .tc := ⟨.hbm, 256, rfl⟩
abbrev main_call9_v2 : Ref sig .tc := ⟨.hbm, 257, rfl⟩
abbrev main_call9_v3 : Ref sig .tc := ⟨.hbm, 258, rfl⟩
abbrev main_call9_v4 : Ref sig .tc := ⟨.hbm, 259, rfl⟩
abbrev main_call9_v5 : Ref sig .tc := ⟨.hbm, 260, rfl⟩
abbrev main_call9_v6 : Ref sig .tc := ⟨.hbm, 261, rfl⟩
abbrev main_call9_v7 : Ref sig .tc := ⟨.hbm, 262, rfl⟩
abbrev main_call9_cst_1 : Ref sig .tc := ⟨.hbm, 263, rfl⟩
abbrev main_call9_v8 : Ref sig .tc := ⟨.hbm, 264, rfl⟩
abbrev main_call9_cst_2 : Ref sig .tc := ⟨.hbm, 265, rfl⟩
abbrev main_call9_v9 : Ref sig .tc := ⟨.hbm, 266, rfl⟩
abbrev main_call9_v10 : Ref sig .tc := ⟨.hbm, 267, rfl⟩
abbrev main_call9_v11 : Ref sig .tc := ⟨.hbm, 268, rfl⟩
abbrev main_call9_v12 : Ref sig .tc := ⟨.hbm, 269, rfl⟩
abbrev main_call9_cst_3 : Ref sig .tc := ⟨.hbm, 270, rfl⟩
abbrev main_call9_v13 : Ref sig .tc := ⟨.hbm, 271, rfl⟩
abbrev main_call9_cst_4 : Ref sig .tc := ⟨.hbm, 272, rfl⟩
abbrev main_call9_call0_v0 : Ref sig .tc := ⟨.hbm, 273, rfl⟩
abbrev main_call9_call0_v1 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_cst_17 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_18 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_cst_19 : Ref sig .tc := ⟨.hbm, 301, rfl⟩
abbrev main_v167 : Ref sig .tc := ⟨.hbm, 302, rfl⟩
abbrev main_v168 : Ref sig .tc := ⟨.hbm, 303, rfl⟩
abbrev main_cst_20 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  bcast_S_S4096 : S_.BroadcastsInDim S4096 (![] : Fin 0 → Fin S4096.rank)
  reducesTo_S8192x4096_S8192_d1 : S8192x4096.ReducesTo [1] S8192
  bcast_S_S8192 : S_.BroadcastsInDim S8192 (![] : Fin 0 → Fin S8192.rank)
  transposes_S8192x4096_S4096x8192_1_0 : S8192x4096.Transposes [1, 0] S4096x8192
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  concatenates_S4096x64_S4096x64_S4096x128_d1 : Shape.Concatenates [S4096x64, S4096x64] S4096x128 1
  slices_S2x64x128_S1x64x128_0_0_0 : S2x64x128.Slices ![0, 0, 0] S1x64x128
  shapeCasts_S1x64x128_S64x128 : S1x64x128.ShapeCasts S64x128
  transposes_S64x128_S128x64_1_0 : S64x128.Transposes [1, 0] S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  bcast_S_S4096x1 : S_.BroadcastsInDim S4096x1 (![] : Fin 0 → Fin S4096x1.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  concatenates_S8192x64_S8192x64_S8192x128_d1 : Shape.Concatenates [S8192x64, S8192x64] S8192x128 1
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  bcast_S_S8192x1 : S_.BroadcastsInDim S8192x1 (![] : Fin 0 → Fin S8192x1.rank)
  slices_S2x64x128_S1x64x128_1_0_0 : S2x64x128.Slices ![1, 0, 0] S1x64x128
  slices_S2x64_S1x64_1_0 : S2x64.Slices ![1, 0] S1x64
  transposes_S1x64_S64x1_1_0 : S1x64.Transposes [1, 0] S64x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S4096x8192_S8192x64_S4096x64_1_0_0_1_n_n_wf : DotDims.WF S4096x8192 S8192x64 S4096x64 [1] [0] [0] [1] [] []
  dot_S4096x128_S128x64_S4096x64_1_0_0_1_n_n_wf : DotDims.WF S4096x128 S128x64 S4096x64 [1] [0] [0] [1] [] []
  dot_S8192x4096_S4096x64_S8192x64_1_0_0_1_n_n_wf : DotDims.WF S8192x4096 S4096x64 S8192x64 [1] [0] [0] [1] [] []
  dot_S8192x128_S128x64_S8192x64_1_0_0_1_n_n_wf : DotDims.WF S8192x128 S128x64 S8192x64 [1] [0] [0] [1] [] []
  dot_S4096x64_S64x1_S4096x1_1_0_0_1_n_n_wf : DotDims.WF S4096x64 S64x1 S4096x1 [1] [0] [0] [1] [] []

variable [Facts₀]

def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.LibSharedArrays.lean ====
import Idealize.ShloMosaic.Lib.Pipeline.Launch

noncomputable section

namespace Cert.Lib.SharedArrays

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg arrRef arrBufs unscopedRest)

variable {nD : Nat} {τ : Topo} {sig : RefSig} {Val : EltTy → Type} {Λ₀ : Idealize.SL.Sem.Labels}
variable {Ix : Type} [DecidableEq Ix] {Name : Type} [DecidableEq Name] {U : Type} [URA U] {Lvl : Type}

local notation "𝕄" => MT nD τ sig Ix Val Name U Lvl

theorem bigSep_image_of_injOn {M : Type} [URA M] {I J : Type} [DecidableEq J] {s : Finset I} {g : I → J}
    (H : Set.InjOn g (↑s : Set I)) (Φ : J → sProp M) :
    bigSep (s.image g) Φ = bigSep s fun i => Φ (g i) :=
  Finset.fold_image H

theorem pointsTo_full_halves (ℓ : Loc nD τ sig) (f : Buf Val ℓ) :
    (ℓ ↦{fullShare} f : sProp 𝕄) = iprop((ℓ ↦{fullShare.left} f) ∗ ℓ ↦{fullShare.right} f) :=
  Idealize.SL.BI.Entails.antisymm (pointsTo_share (PosShare.mem_left_op_right fullShare)).1
    (pointsTo_share (PosShare.mem_left_op_right fullShare)).2

theorem sep_assoc_eq {M : Type} [URA M] (A B R : sProp M) : iprop((A ∗ B) ∗ R) = iprop(A ∗ B ∗ R) :=
  Idealize.SL.BI.Entails.antisymm Idealize.SL.BI.sep_assoc Idealize.SL.BI.sep_assoc'

variable {cfg : Cfg sig Λ₀} {c : Dev nD} (dat : Dat τ Val Ix Name U Lvl cfg c)

theorem arrBufs_eq_arrays (w₀ w₁ : Fin cfg.W) (hne : w₀ ≠ w₁)
    (hsame : arrRef cfg.spec w₀ = arrRef cfg.spec w₁)
    (hinj : ∀ w w', w ≠ w₀ → w' ≠ w₀ → arrRef cfg.spec w = arrRef cfg.spec w' → w = w')
    (harr : ∀ w, (cfg.spec w).arr.IsWhole)
    (hs₀ : dat.share w₀ = fullShare.left) (hs₁ : dat.share w₁ = fullShare.right)
    (hs : ∀ w, w ≠ w₀ → w ≠ w₁ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (arrBufs cfg.spec c V : sProp 𝕄) = dat.arrays F := by
  classical

  let Ψ : Ref sig .tc → PosShare TreeShare → sProp 𝕄 := fun b q => ((c.tc : Thread nD τ).loc b) ↦{q} V b

  have hΘ : ∀ w, ((cfg.win w).arr.view.loc (c.tc : Thread nD τ) ↦[(cfg.win w).arr.view.set]{dat.share w} F w : sProp 𝕄)
      = Ψ (arrRef cfg.spec w) (dat.share w) := fun w => by
    rw [(harr w).set_eq_univ, hF]

  have himg : Finset.univ.image (arrRef cfg.spec) = (Finset.univ.erase w₀).image (arrRef cfg.spec) := by
    apply Finset.Subset.antisymm
    · intro b hb
      obtain ⟨w, -, rfl⟩ := Finset.mem_image.mp hb
      by_cases h : w = w₀
      · exact Finset.mem_image.mpr ⟨w₁, Finset.mem_erase.mpr ⟨hne.symm, Finset.mem_univ _⟩, by rw [h]; exact hsame.symm⟩
      · exact Finset.mem_image.mpr ⟨w, Finset.mem_erase.mpr ⟨h, Finset.mem_univ _⟩, rfl⟩
    · exact Finset.image_subset_image (Finset.erase_subset _ _)
  have hinjOn : Set.InjOn (arrRef cfg.spec) (↑(Finset.univ.erase w₀) : Set (Fin cfg.W)) := fun w hw w' hw' h =>
    hinj w w' (Finset.ne_of_mem_erase (Finset.mem_coe.mp hw)) (Finset.ne_of_mem_erase (Finset.mem_coe.mp hw')) h
  have h₁ : w₁ ∈ Finset.univ.erase w₀ := Finset.mem_erase.mpr ⟨hne.symm, Finset.mem_univ _⟩

  have hrest : bigSep ((Finset.univ.erase w₀).erase w₁) (fun w => Ψ (arrRef cfg.spec w) fullShare)
      = bigSep ((Finset.univ.erase w₀).erase w₁)
          (fun w => ((cfg.win w).arr.view.loc (c.tc : Thread nD τ) ↦[(cfg.win w).arr.view.set]{dat.share w} F w : sProp 𝕄)) :=
    bigSep_congr fun w hw => by
      have hw₁ : w ≠ w₁ := Finset.ne_of_mem_erase hw
      have hw₀ : w ≠ w₀ := Finset.ne_of_mem_erase (Finset.mem_of_mem_erase hw)
      rw [hΘ w, hs w hw₀ hw₁]
  unfold arrBufs Dat.arrays
  rw [himg, bigSep_image_of_injOn hinjOn, bigSep_erase h₁,
    bigSep_erase (Finset.mem_univ w₀) (Φ := fun w => ((cfg.win w).arr.view.loc (c.tc : Thread nD τ) ↦[(cfg.win w).arr.view.set]{dat.share w} F w : sProp 𝕄)),
    bigSep_erase h₁ (Φ := fun w => ((cfg.win w).arr.view.loc (c.tc : Thread nD τ) ↦[(cfg.win w).arr.view.set]{dat.share w} F w : sProp 𝕄)),
    ← hrest, hΘ w₀, hΘ w₁, hs₀, hs₁, hsame]

  show iprop(Ψ (arrRef cfg.spec w₁) fullShare ∗ bigSep ((Finset.univ.erase w₀).erase w₁) fun w => Ψ (arrRef cfg.spec w) fullShare)
    = iprop(Ψ (arrRef cfg.spec w₁) fullShare.left ∗ Ψ (arrRef cfg.spec w₁) fullShare.right
        ∗ bigSep ((Finset.univ.erase w₀).erase w₁) fun w => Ψ (arrRef cfg.spec w) fullShare)
  rw [show Ψ (arrRef cfg.spec w₁) fullShare = iprop(Ψ (arrRef cfg.spec w₁) fullShare.left ∗ Ψ (arrRef cfg.spec w₁) fullShare.right) from
    pointsTo_full_halves _ _]
  exact sep_assoc_eq _ _ _

theorem unscopedBufs_eq_arrays (w₀ w₁ : Fin cfg.W) (hne : w₀ ≠ w₁)
    (hsame : arrRef cfg.spec w₀ = arrRef cfg.spec w₁)
    (hinj : ∀ w w', w ≠ w₀ → w' ≠ w₀ → arrRef cfg.spec w = arrRef cfg.spec w' → w = w')
    (hunscoped : ∀ w, (arrRef cfg.spec w).isScoped = false)
    (harr : ∀ w, (cfg.spec w).arr.IsWhole)
    (hs₀ : dat.share w₀ = fullShare.left) (hs₁ : dat.share w₁ = fullShare.right)
    (hs : ∀ w, w ≠ w₀ → w ≠ w₁ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (unscopedBufs c V : sProp 𝕄) = iprop(dat.arrays F ∗ unscopedRest cfg.spec c V) := by
  rw [Pipeline.unscopedBufs_split₀ (fun _ : Unit => cfg) () hunscoped c V,
    arrBufs_eq_arrays dat w₀ w₁ hne hsame hinj harr hs₀ hs₁ hs V F hF]

theorem unscopedRest_congr {gr W : Nat} (win : Fin W → Pipeline.WinSpec sig gr) (c : Dev nD)
    (V V' : (b : Ref sig .tc) → Buf Val ((c.tc : Thread nD τ).loc b))
    (hrest : ∀ b, b ∉ Finset.univ.image (arrRef win) → V' b = V b) :
    (unscopedRest win c V' : sProp 𝕄) = unscopedRest win c V := by
  unfold unscopedRest
  exact bigSep_congr fun b hb => by rw [hrest b (Finset.mem_sdiff.mp hb).2]

theorem share_in (w : Fin cfg.W) (h : (cfg.win w).isOut = false) : dat.share w = dat.q w := by
  unfold Dat.share; rw [h]; exact if_neg Bool.false_ne_true

theorem share_out (w : Fin cfg.W) (h : (cfg.win w).isOut = true) : dat.share w = fullShare := by
  unfold Dat.share; rw [h]; exact if_pos rfl

end Cert.Lib.SharedArrays
-- ==== Proof.K0Defs.lean ====
import proofs.«153954_g5892695130345_cont_sun_m_578_38_alg».proof.Proof.Gen.KernelIdeal.Launch
import proofs.«153954_g5892695130345_cont_sun_m_578_38_alg».proof.Proof.Gen.KernelIdeal.Skeleton
import proofs.«153954_g5892695130345_cont_sun_m_578_38_alg».proof.Proof.Gen.KernelIdeal.Points
import Idealize.ShloMosaic.Lib.Pipeline.FrameBody
import Idealize.ShloMosaic.Lib.Pipeline.Value

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev panL (c : Dev nD) (t : Fin cfg0.N) : Vec F S512x2048 .f32 := iblk0 V c 0 t
abbrev panR (c : Dev nD) (t : Fin cfg0.N) : Vec F S512x2048 .f32 := iblk0 V c 1 t

abbrev nodes (c : Dev nD) (t : Fin cfg0.N) : Vec F S8192x64 .f32 := iblk0 V c 2 t

abbrev edges (c : Dev nD) (t : Fin cfg0.N) : Vec F S4096x64 .f32 := iblk0 V c 3 t
abbrev wgt (c : Dev nD) (t : Fin cfg0.N) : Vec F S128x64 .f32 := iblk0 V c 4 t
abbrev bias (c : Dev nD) (t : Fin cfg0.N) : Vec F S1x64 .f32 := iblk0 V c 5 t
abbrev gain (c : Dev nD) (t : Fin cfg0.N) : Vec F S1x64 .f32 := iblk0 V c 6 t
abbrev shift (c : Dev nD) (t : Fin cfg0.N) : Vec F S1x64 .f32 := iblk0 V c 7 t

abbrev rW : Rect S65x4096 := Rect.unit (s := S65x4096) ![0, 0] S65x4096.size inb_S65x4096_S65x4096_0_0
abbrev rL : Rect S65x4096 := Rect.unit (s := S65x4096) ![0, 0] S65x2048.size inb_S65x4096_S65x2048_0_0
abbrev rR : Rect S65x4096 := Rect.unit (s := S65x4096) ![0, 2048] S65x2048.size inb_S65x4096_S65x2048_0_2048

abbrev rows0 (i : grid0.Coords) : Rect S8192x64 := Rect.unit (s := S8192x64) (k0_off1 i) S512x64.size (k0_off1_inb i)

abbrev tLast : Fin cfg0.N := t0_15

def step0 (c : Dev nD) (t : Fin cfg0.N) (base : Vec F S65x4096 .f32) : Vec F S65x4096 .f32 :=
  View.canon [⟨rR, k0_pay4 (panR V c t) (View.ld (nodes V c t) (rows0 (grid0.coords t))) (View.ld base rR)⟩,
              ⟨rL, k0_pay3 (panL V c t) (View.ld (nodes V c t) (rows0 (grid0.coords t))) (View.ld base rL)⟩]

def acc0 (c : Dev nD) : ℕ → Vec F S65x4096 .f32
  | 0 => k0_pay1
  | n + 1 => if h : n < cfg0.N then step0 V c ⟨n, h⟩ (acc0 c n) else acc0 c n

theorem acc0_zero (c : Dev nD) : acc0 V c 0 = k0_pay1 := rfl

theorem acc0_succ (c : Dev nD) (t : Fin cfg0.N) : acc0 V c (t.val + 1) = step0 V c t (acc0 V c t.val) := by
  show (if h : t.val < cfg0.N then step0 V c ⟨t.val, h⟩ (acc0 V c t.val) else acc0 V c t.val) = _
  rw [dif_pos t.isLt]

def out0 (c : Dev nD) : Vec F S4096x65 .f32 :=
  k0_pay5 (edges V c tLast) (k0_pay6 (gain V c tLast)) (k0_pay7 (shift V c tLast))
    (k0_pay8 (acc0 V c 16) (edges V c tLast) (wgt V c tLast) (bias V c tLast))
    (k0_pay9 (acc0 V c 16) (edges V c tLast) (wgt V c tLast) (bias V c tLast))

abbrev scM0 : Memref sig .tc .vmem S65x4096 .f32 := Memref.whole cc0_scratch0

def rest0 (c : Dev nD) : sProp 𝕄 :=
  Pipeline.scopedRestBut (Ix := Unit) (Name := ℕ) (U := UR sig nD τ) (Lvl := ℕ) (Val := Elt F) spec0 c [cc0_scratch0]

def Phi0 (c : Dev nD) : ℕ → sProp 𝕄
  | 0 => Pipeline.ΦA spec0 c
  | n + 1 => iprop(owns (c : Thread nD τ) scM0 fullShare (acc0 V c (n + 1)) ∗ rest0 c ∗ ∃ r, prngReg c r)

theorem Phi0_succ (c : Dev nD) (n : ℕ) :
    Phi0 V c (n + 1) = iprop(owns (c : Thread nD τ) scM0 fullShare (acc0 V c (n + 1)) ∗ rest0 c ∗ ∃ r, prngReg c r) := rfl

theorem Phi0_pos (c : Dev nD) (n : ℕ) (hn : n ≠ 0) :
    Phi0 V c n = iprop(owns (c : Thread nD τ) scM0 fullShare (acc0 V c n) ∗ rest0 c ∗ ∃ r, prngReg c r) := by
  cases n with
  | zero => exact absurd rfl hn
  | succ n => rfl

theorem PhiA0_eq (c : Dev nD) :
    (Pipeline.ΦA spec0 c : sProp 𝕄)
      = iprop(((∃ d, owns (c : Thread nD τ) scM0 fullShare d) ∗ rest0 c) ∗ ∃ r, prngReg c r) := by
  unfold Pipeline.ΦA; rw [Pipeline.scopedRest_split_of_list spec0 c [cc0_scratch0] (by decide) (by decide)]
  simp only [scM0, owns_whole]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0 V c
  Φ t := Phi0 V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := rfl

theorem after0_8 (c : Dev nD) (t : Fin cfg0.N) : (dat0 V c).after 8 t = out0 V c := rfl

theorem q0_0 (c : Dev nD) : (dat0 V c).q 0 = fullShare.left := rfl
theorem q0_1 (c : Dev nD) : (dat0 V c).q 1 = fullShare.right := rfl
theorem q0_rest (c : Dev nD) (w : Fin cfg0.W) (h0 : w ≠ 0) (h1 : w ≠ 1) : (dat0 V c).q w = fullShare := by
  fin_cases w <;> first | exact absurd rfl h0 | exact absurd rfl h1 | (dsimp only [dat0])

theorem Phi_eq0 (c : Dev nD) (t : Fin (cfg0.N + 1)) : (dat0 V c).Φ t = Phi0 V c t.val := rfl
theorem owed_eq0 (c : Dev nD) (t : Fin (cfg0.N + 1)) : (dat0 V c).owed t = 0 := rfl

theorem Phi_in0 (c : Dev nD) : (Pipeline.ΦA spec0 c : sProp 𝕄) ⊢ (dat0 V c).Φ 0 := by
  rw [Phi_eq0]; exact Idealize.SL.BI.Entails.refl _

theorem Phi_out0 (c : Dev nD) : (dat0 V c).Φ (Fin.last cfg0.N) ⊢ (Pipeline.ΦA spec0 c : sProp 𝕄) := by
  rw [Phi_eq0, Fin.val_last, Phi0_pos V c _ (by decide), PhiA0_eq]
  iintro ⟨HS, Hr, Hg⟩
  iframe Hr Hg
  iexists _; iexact HS

end Cert.KernelIdeal.Hand

end
-- ==== Proof.K0Runs.lean ====
import proofs.«153954_g5892695130345_cont_sun_m_578_38_alg».proof.Proof.K0Defs
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

abbrev cond0_1 (i : grid0.Coords) : Prop := k0_cond2 i = 1#1

theorem zero2 : (![0, 0] : Fin 2 → ℕ) = fun _ => 0 := by funext a; fin_cases a <;> rfl

def stepG (x1 x2 : Vec F S512x2048 .f32) (rows : Vec F S512x64 .f32) (base : Vec F S65x4096 .f32) : Vec F S65x4096 .f32 :=
  View.canon [⟨rR, k0_pay4 x2 rows (View.ld base rR)⟩, ⟨rL, k0_pay3 x1 rows (View.ld base rL)⟩]

theorem cover_LR (pR : rR.shape.Idx → Elt F .f32) (pL : rL.shape.Idx → Elt F .f32) (y : S65x4096.Idx) :
    ∃ pc ∈ ([⟨rR, pR⟩, ⟨rL, pL⟩] : List (View.Piece (Elt F) S65x4096 .f32)), y ∈ pc.1.set :=
  View.cover_of_tiled [⟨rR, pR⟩, ⟨rL, pL⟩] S65x2048.size (by rfl) y

theorem canon_append_of_cover {Val : EltTy → Type} [∀ e, Nonempty (Val e)] {s : Shape} {e : EltTy} :
    ∀ (L L' : List (View.Piece Val s e)) (y : s.Idx), (∃ p ∈ L, y ∈ p.1.set) → View.canon (L ++ L') y = View.canon L y
  | [], _, _, h => by obtain ⟨_, hm, _⟩ := h; exact absurd hm List.not_mem_nil
  | p :: L, L', y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p _ hy]
      exact canon_append_of_cover L L' y hL

variable (c : Dev nD) (i : grid0.Coords)
  (arg1 : Memref sig .tc .vmem S512x2048 .f32) (harg1 : arg1.IsWhole) (arg2 : Memref sig .tc .vmem S512x2048 .f32) (harg2 : arg2.IsWhole)
  (arg3 : Memref sig .tc .vmem S8192x64 .f32) (harg3 : arg3.IsWhole) (arg4 : Memref sig .tc .vmem S4096x64 .f32) (harg4 : arg4.IsWhole)
  (arg5 : Memref sig .tc .vmem S128x64 .f32) (harg5 : arg5.IsWhole) (arg6 : Memref sig .tc .vmem S1x64 .f32) (harg6 : arg6.IsWhole)
  (arg7 : Memref sig .tc .vmem S1x64 .f32) (harg7 : arg7.IsWhole) (arg8 : Memref sig .tc .vmem S1x64 .f32) (harg8 : arg8.IsWhole)
  (arg9 : Memref sig .tc .vmem S4096x65 .f32) (harg9 : arg9.IsWhole) (arg10 : Memref sig .tc .vmem S65x4096 .f32) (harg10 : arg10.IsWhole)

set_option maxHeartbeats 1000000 in
theorem run0_M (hc0 : ¬cond0_0 i) (hc1 : ¬cond0_1 i)
    (x1 x2 : Vec F S512x2048 .f32) (x3 : Vec F S8192x64 .f32) (xs : Vec F S65x4096 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg10 fullShare xs
        ∗ (iprop(owns (c : Thread nD τ) arg1 fullShare x1 ∗ owns (c : Thread nD τ) arg2 fullShare x2 ∗ owns (c : Thread nD τ) arg3 fullShare x3
            ∗ owns (c : Thread nD τ) arg10 fullShare (stepG x1 x2 (View.ld x3 (rows0 i)) xs)) -∗ K ⟨⟩))
      ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K := by
  simp only [cc0__p1_body_eq_skeleton]; unfold cc0__p1_body_skel
  unfold owns
  iintro ⟨⟨%f1, %hf1, H1⟩, ⟨%f2, %hf2, H2⟩, ⟨%f3, %hf3, H3⟩, ⟨%fs, %hfs, HS⟩, Hk⟩
  obtain rfl := harg1.eq_unread hf1; obtain rfl := harg2.eq_unread hf2; obtain rfl := harg3.eq_unread hf3; obtain rfl := harg10.eq_unread hfs
  sl_exec (disch := first | exact hc0 | exact hc1)
  sl_step
  iapply Hk
  isplitl [H1]; · iexists _; iframe %hf1 H1
  isplitl [H2]; · iexists _; iframe %hf2 H2
  isplitl [H3]; · iexists _; iframe %hf3 H3
  iexists _; isplitr
  swap; · iexact HS
  ipureintro
  rw [View.read_writes_eq_canon _ _ _ (cover_LR _ _)]
  sl_unfold_run_names
  simp only [View.readAt_eq_ld, harg1.read_unread, harg2.read_unread, harg3.read_unread, harg10.read_unread,
    View.ld_unit_zero (S := S512x2048) zero2]
  rfl

theorem disjLR : Disjoint rL.set rR.toLoadRect.set :=
  Rect.unit_disjoint (1 : Fin 2) (Or.inl (by decide))

theorem coverW (w : rW.shape.Idx → Elt F .f32) (y : S65x4096.Idx) :
    ∃ pc ∈ ([⟨rW, w⟩] : List (View.Piece (Elt F) S65x4096 .f32)), y ∈ pc.1.set :=
  ⟨_, List.mem_singleton_self _, View.mem_set_unit_zero zero2 inb_S65x4096_S65x4096_0_0 y⟩

theorem cover3 (pR : rR.shape.Idx → Elt F .f32) (pL : rL.shape.Idx → Elt F .f32) (w : rW.shape.Idx → Elt F .f32) (y : S65x4096.Idx) :
    ∃ pc ∈ ([⟨rR, pR⟩, ⟨rL, pL⟩, ⟨rW, w⟩] : List (View.Piece (Elt F) S65x4096 .f32)), y ∈ pc.1.set := by
  obtain ⟨p, hp, hy⟩ := cover_LR pR pL y
  exact ⟨p, by simp only [List.mem_cons, List.mem_nil_iff, or_false] at hp ⊢; rcases hp with h | h <;> simp [h], hy⟩

theorem canon3 (pR : rR.shape.Idx → Elt F .f32) (pL : rL.shape.Idx → Elt F .f32) (w : rW.shape.Idx → Elt F .f32) :
    View.canon ([⟨rR, pR⟩, ⟨rL, pL⟩, ⟨rW, w⟩] : List (View.Piece (Elt F) S65x4096 .f32)) = View.canon [⟨rR, pR⟩, ⟨rL, pL⟩] :=
  funext fun y => canon_append_of_cover [⟨rR, pR⟩, ⟨rL, pL⟩] [⟨rW, w⟩] y (cover_LR pR pL y)

theorem readCovW {κ : Kind} {sp : Space} (v : View sig κ sp S65x4096 .f32) (w : Vec F S65x4096 .f32) (r : Rect S65x4096) :
    v.readCov [⟨rW, w⟩] r.toLoadRect = View.ld w r := by
  rw [View.readCov_eq_canon_ld _ _ _ (coverW w), View.canon_unit_zero zero2]

theorem readCovLW {κ : Kind} {sp : Space} (v : View sig κ sp S65x4096 .f32) (pL : rL.shape.Idx → Elt F .f32) (w : Vec F S65x4096 .f32) :
    v.readCov [⟨rL, pL⟩, ⟨rW, w⟩] rR.toLoadRect = View.ld w rR := by
  rw [View.readCov_cons_of_disjoint v ⟨rL, pL⟩ [⟨rW, w⟩] rR.toLoadRect disjLR, readCovW]

theorem readCovLR {κ : Kind} {sp : Space} (v : View sig κ sp S65x4096 .f32) (pR : rR.shape.Idx → Elt F .f32) (pL : rL.shape.Idx → Elt F .f32)
    (r : Rect S65x4096) :
    v.readCov [⟨rR, pR⟩, ⟨rL, pL⟩] r.toLoadRect = View.ld (View.canon [⟨rR, pR⟩, ⟨rL, pL⟩]) r :=
  View.readCov_eq_canon_ld v _ r (cover_LR pR pL)

set_option maxHeartbeats 1000000 in
theorem run0_F (hc0 : cond0_0 i) (hc1 : ¬cond0_1 i)
    (x1 x2 : Vec F S512x2048 .f32) (x3 : Vec F S8192x64 .f32) (E : Set ℕ) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg10 fullShare (stepG x1 x2 (View.ld x3 (rows0 i)) k0_pay1)) -∗ K ⟨⟩))
      ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K := by
  simp only [cc0__p1_body_eq_skeleton]; unfold cc0__p1_body_skel
  unfold owns
  iintro ⟨⟨%f1, %hf1, H1⟩, ⟨%f2, %hf2, H2⟩, ⟨%f3, %hf3, H3⟩, ⟨%ds, %fs, -, HS⟩, Hk⟩
  obtain rfl := harg1.eq_unread hf1; obtain rfl := harg2.eq_unread hf2; obtain rfl := harg3.eq_unread hf3
  sl_exec (disch := first | exact hc0 | exact hc1)
  sl_step
  iapply Hk
  isplitl [H1]; · iexists _; iframe %hf1 H1
  isplitl [H2]; · iexists _; iframe %hf2 H2
  isplitl [H3]; · iexists _; iframe %hf3 H3
  iexists _; isplitr
  swap; · iexact HS
  ipureintro
  sl_unfold_run_names
  rw [View.read_writes_eq_canon _ _ _ (cover3 _ _ _), canon3]
  rw [readCovLW, readCovW]
  simp only [View.readAt_eq_ld, harg1.read_unread, harg2.read_unread, harg3.read_unread,
    View.ld_unit_zero (S := S512x2048) zero2]
  rfl

def outG (x4 : Vec F S4096x64 .f32) (x5 : Vec F S128x64 .f32) (x6 x7 x8 : Vec F S1x64 .f32) (acc : Vec F S65x4096 .f32) : Vec F S4096x65 .f32 :=
  k0_pay5 x4 (k0_pay6 x7) (k0_pay7 x8) (k0_pay8 acc x4 x5 x6) (k0_pay9 acc x4 x5 x6)

set_option maxHeartbeats 2000000 in
theorem run0_L (hc0 : ¬cond0_0 i) (hc1 : cond0_1 i)
    (x1 x2 : Vec F S512x2048 .f32) (x3 : Vec F S8192x64 .f32) (x4 : Vec F S4096x64 .f32) (x5 : Vec F S128x64 .f32) (x6 x7 x8 : Vec F S1x64 .f32)
    (xs : Vec F S65x4096 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d)
        ∗ owns (c : Thread nD τ) arg10 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (outG x4 x5 x6 x7 x8 (stepG x1 x2 (View.ld x3 (rows0 i)) xs))
            ∗ owns (c : Thread nD τ) arg10 fullShare (stepG x1 x2 (View.ld x3 (rows0 i)) xs)) -∗ K ⟨⟩))
      ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K := by
  simp only [cc0__p1_body_eq_skeleton, k0_part1_eq_skeleton]; unfold cc0__p1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%fs, %hfs, HS⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg10.eq_unread hfs
  sl_exec (disch := first | exact hc0 | exact hc1)
  sl_step
  iapply Hk
  isplitl [H1]; · iexists _; iframe %hf1 H1
  isplitl [H2]; · iexists _; iframe %hf2 H2
  isplitl [H3]; · iexists _; iframe %hf3 H3
  isplitl [H4]; · iexists _; iframe %hf4 H4
  isplitl [H5]; · iexists _; iframe %hf5 H5
  isplitl [H6]; · iexists _; iframe %hf6 H6
  isplitl [H7]; · iexists _; iframe %hf7 H7
  isplitl [H8]; · iexists _; iframe %hf8 H8
  isplitl [H9]
  · iexists _; isplitr
    swap; · iexact H9
    ipureintro
    rw [View.read_writes_eq_canon _ _ _ (fun y => ⟨_, List.mem_singleton_self _, View.mem_set_unit_zero zero2 inb_S4096x65_S4096x65_0_0 y⟩),
      View.canon_unit_zero zero2]
    sl_unfold_run_names
    rw [readCovLR]
    simp only [View.readAt_eq_ld, harg1.read_unread, harg2.read_unread, harg3.read_unread, harg4.read_unread, harg5.read_unread,
      harg6.read_unread, harg7.read_unread, harg8.read_unread, harg10.read_unread,
      View.ld_unit_zero (S := S512x2048) zero2, View.ld_unit_zero (S := S4096x64) zero2, View.ld_unit_zero (S := S128x64) zero2,
      View.ld_unit_zero (S := S1x64) zero2, View.ld_unit_zero (S := S65x4096) zero2]
    rfl
  iexists _; isplitr
  swap; · iexact HS
  ipureintro
  sl_unfold_run_names
  rw [View.read_writes_eq_canon _ _ _ (cover_LR _ _)]
  simp only [View.readAt_eq_ld, harg1.read_unread, harg2.read_unread, harg3.read_unread, harg10.read_unread,
    View.ld_unit_zero (S := S512x2048) zero2]
  rfl

end Cert.KernelIdeal.Hand

end
-- ==== Proof.K0Body.lean ====
import proofs.«153954_g5892695130345_cont_sun_m_578_38_alg».proof.Proof.K0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcond0_0 : ∀ t : Fin cfg0.N, cond0_0 (grid0.coords t) ↔ t.val = 0 := by decide +kernel
theorem hcond0_1 : ∀ t : Fin cfg0.N, cond0_1 (grid0.coords t) ↔ t.val = 15 := by decide +kernel

theorem liveAt0 : ∀ (w : Fin cfg0.W) (t : Fin cfg0.N), w ≠ 8 → cfg0.idle w (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

theorem before0 (c : Dev nD) (w : Fin cfg0.W) (hw : w ≠ 8) (t : Fin cfg0.N) (d) : (dat0 V c).before w t d = (dat0 V c).after w t := by
  fin_cases w <;> first
    | exact absurd rfl hw
    | exact ((dat0 V c).before_in_eq_fetched _ rfl (fun _ => rfl) (fun _ _ _ => rfl) (fun _ => rfl) t d).trans rfl

theorem live0 (c : Dev nD) (w : Fin cfg0.W) (hw : w ≠ 8) (t : Fin cfg0.N) :
    (dat0 V c).leavesExact w t = owns (c : Thread nD τ) ((cfg0.win w).stage (cfg0.slots t w)) fullShare ((dat0 V c).after w t) := by
  unfold Dat.leavesExact; rw [liveAt0 w t hw]

theorem step0_eq (c : Dev nD) (t : Fin cfg0.N) (base : Vec F S65x4096 .f32) :
    step0 V c t base = stepG ((dat0 V c).after 0 t) ((dat0 V c).after 1 t) (View.ld ((dat0 V c).after 2 t) (rows0 (grid0.coords t))) base := rfl

theorem acc0_of_zero (c : Dev nD) (n : ℕ) (h : n = 0) : acc0 V c n = k0_pay1 := by subst h; rfl

theorem Phi0_of_zero (c : Dev nD) (n : ℕ) (h : n = 0) : Phi0 V c n = Pipeline.ΦA spec0 c := by subst h; rfl

-- `out0` is one step of `acc0` past the fifteenth point
theorem out0_at (c : Dev nD) (t : Fin cfg0.N) (h : t.val = 15) :
    out0 V c = outG ((dat0 V c).after 3 t) ((dat0 V c).after 4 t) ((dat0 V c).after 5 t) ((dat0 V c).after 6 t) ((dat0 V c).after 7 t)
      (stepG ((dat0 V c).after 0 t) ((dat0 V c).after 1 t) (View.ld ((dat0 V c).after 2 t) (rows0 (grid0.coords t))) (acc0 V c t.val)) := by
  obtain rfl : t = tLast := Fin.ext h
  unfold out0
  rw [show acc0 V c 16 = step0 V c tLast (acc0 V c 15) from acc0_succ V c tLast]
  rfl

def finds0 (c : Dev nD) (t : Fin cfg0.N) (w : Fin cfg0.W) : sProp 𝕄 :=
  iprop(∃ d, owns (c : Thread nD τ) ((cfg0.win w).stage (cfg0.slots t w)) fullShare ((dat0 V c).before w t d))

theorem sound_body (c : Dev nD) (t : Fin cfg0.N) :
    iprop((dat0 V c).Φ t.castSucc ∗ (dat0 V c).owesAt () t.castSucc
        ∗ finds0 V c t 0 ∗ finds0 V c t 1 ∗ finds0 V c t 2 ∗ finds0 V c t 3 ∗ finds0 V c t 4 ∗ finds0 V c t 5 ∗ finds0 V c t 6 ∗ finds0 V c t 7 ∗ finds0 V c t 8)
      ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t)) := by
  unfold finds0 bodyAt0
  simp (disch := decide) only [before0 V c]
  rw [live0 V c 0 (by decide), live0 V c 1 (by decide), live0 V c 2 (by decide), live0 V c 3 (by decide), live0 V c 4 (by decide), live0 V c 5 (by decide), live0 V c 6 (by decide), live0 V c 7 (by decide),
    show (dat0 V c).owesAt () t.succ = (dat0 V c).owesAt () t.castSucc from rfl,
    Phi_eq0, Phi_eq0, Fin.coe_castSucc, Fin.val_succ, Phi0_succ, acc0_succ V c t, step0_eq]
  by_cases h1 : t.val = 15
  · have h0 : t.val ≠ 0 := by omega
    have hc1 : cond0_1 (grid0.coords t) := (hcond0_1 t).mpr h1
    rw [show (dat0 V c).leavesExact 8 t = owns (c : Thread nD τ) (st0_8 t) fullShare ((dat0 V c).after 8 t) from by
      unfold Dat.leavesExact; rw [liveAt0_8 t hc1], after0_8, out0_at V c t h1, Phi0_pos V c _ h0]
    iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_L c (grid0.coords t) (st0_0 t) _ (st0_1 t) _ (st0_2 t) _ (st0_3 t) _ (st0_4 t) _ (st0_5 t) _ (st0_6 t) _ (st0_7 t) _ (st0_8 t) _ scM0 _
      (fun h => h0 ((hcond0_0 t).mp h)) hc1 ((dat0 V c).after 0 t) ((dat0 V c).after 1 t) ((dat0 V c).after 2 t) ((dat0 V c).after 3 t) ((dat0 V c).after 4 t) ((dat0 V c).after 5 t) ((dat0 V c).after 6 t) ((dat0 V c).after 7 t) (acc0 V c t.val) Set.univ _)
    iframe H0 H1 H2 H3 H4 H5 H6 H7 HS
    isplitl [H8]; · iexists _; iexact H8
    iintro ⟨H0, H1, H2, H3, H4, H5, H6, H7, H8, HS⟩
    iframe
  · have hc1 : ¬cond0_1 (grid0.coords t) := fun h => h1 ((hcond0_1 t).mp h)
    rw [Dat.leavesExact_idle (dat0 V c) 8 t (idleAt0_8 t hc1) (noFlush0_8 t hc1)]
    by_cases h0 : t.val = 0
    · rw [Phi0_of_zero V c _ h0, PhiA0_eq, acc0_of_zero V c _ h0]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_F c (grid0.coords t) (st0_0 t) _ (st0_1 t) _ (st0_2 t) _ (st0_3 t) _ (st0_4 t) _ (st0_5 t) _ (st0_6 t) _ (st0_7 t) _ (st0_8 t) _ scM0 _
        ((hcond0_0 t).mpr h0) hc1 ((dat0 V c).after 0 t) ((dat0 V c).after 1 t) ((dat0 V c).after 2 t) Set.univ _)
      iframe H0 H1 H2 HS
      iintro ⟨H0, H1, H2, HS⟩
      iframe
      iexists _; iexact H8
    · rw [Phi0_pos V c _ h0]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_M c (grid0.coords t) (st0_0 t) _ (st0_1 t) _ (st0_2 t) _ (st0_3 t) _ (st0_4 t) _ (st0_5 t) _ (st0_6 t) _ (st0_7 t) _ (st0_8 t) _ scM0 _
        (fun h => h0 ((hcond0_0 t).mp h)) hc1 ((dat0 V c).after 0 t) ((dat0 V c).after 1 t) ((dat0 V c).after 2 t) (acc0 V c t.val) Set.univ _)
      iframe H0 H1 H2 HS
      iintro ⟨H0, H1, H2, HS⟩
      iframe
      iexists _; iexact H8

theorem body_obligation0 (c : Dev nD) : BodyObligation (dat0 V c) (defs₀ (F := F)) Variants.none () Set.univ := fun t => by
  rw [bigSep_W0, bigSep_W0]
  exact sound_body V c t

end Cert.KernelIdeal.Hand

end
-- ==== Proof.K1Defs.lean ====
import proofs.«153954_g5892695130345_cont_sun_m_578_38_alg».proof.Proof.Gen.KernelIdeal.Launch
import proofs.«153954_g5892695130345_cont_sun_m_578_38_alg».proof.Proof.Gen.KernelIdeal.Skeleton
import proofs.«153954_g5892695130345_cont_sun_m_578_38_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev bA (c : Dev nD) (t : Fin cfg1.N) : Vec F S512x4096 .f32 := iblk1 V c 0 t
abbrev bX (c : Dev nD) (t : Fin cfg1.N) : Vec F S8192x64 .f32 := iblk1 V c 1 t
abbrev bE (c : Dev nD) (t : Fin cfg1.N) : Vec F S4096x65 .f32 := iblk1 V c 2 t
abbrev bNW (c : Dev nD) (t : Fin cfg1.N) : Vec F S128x64 .bf16 := iblk1 V c 3 t
abbrev bNb (c : Dev nD) (t : Fin cfg1.N) : Vec F S1x64 .f32 := iblk1 V c 4 t
abbrev bNg (c : Dev nD) (t : Fin cfg1.N) : Vec F S1x64 .f32 := iblk1 V c 5 t
abbrev bNbe (c : Dev nD) (t : Fin cfg1.N) : Vec F S1x64 .f32 := iblk1 V c 6 t
abbrev bEW (c : Dev nD) (t : Fin cfg1.N) : Vec F S128x64 .f32 := iblk1 V c 7 t
abbrev bEb (c : Dev nD) (t : Fin cfg1.N) : Vec F S1x64 .f32 := iblk1 V c 8 t
abbrev bEg (c : Dev nD) (t : Fin cfg1.N) : Vec F S1x64 .f32 := iblk1 V c 9 t
abbrev bEbe (c : Dev nD) (t : Fin cfg1.N) : Vec F S1x64 .f32 := iblk1 V c 10 t
abbrev bDw (c : Dev nD) (t : Fin cfg1.N) : Vec F S64x1 .f32 := iblk1 V c 11 t
abbrev bDb (c : Dev nD) (t : Fin cfg1.N) : Vec F S1x1 .f32 := iblk1 V c 12 t

abbrev rowsR (t : Fin cfg1.N) : Rect S8192x64 := Rect.unit (s := S8192x64) (k1_off1 (grid1.coords t)) S512x64.size (k1_off1_inb (grid1.coords t))
abbrev xrows (c : Dev nD) (t : Fin cfg1.N) : Vec F S512x64 .f32 := View.ld (bX V c t) (rowsR t)

structure St1 (F : FTy → Type) [FloatOps F] where
    acct : Vec F S65x4096 .f32
    e1b : Vec F S4096x65 .bf16
    panp : Vec F S512x4096 .bf16
    augp : Vec F S65x512 .bf16

abbrev panN (xA : Vec F S512x4096 .f32) : Vec F S512x4096 .bf16 := k1_pay13 xA
abbrev hidN (xA : Vec F S512x4096 .f32) (xr : Vec F S512x64 .f32) (xNW : Vec F S128x64 .bf16) (xNb : Vec F S1x64 .f32)
    (e1b : Vec F S4096x65 .bf16) : Vec F S512x64 .f32 :=
  k1_pay15 xA e1b xr xNW xNb
abbrev augN (xA : Vec F S512x4096 .f32) (xr : Vec F S512x64 .f32) (xNW : Vec F S128x64 .bf16) (xNb xNg xNbe : Vec F S1x64 .f32)
    (e1b : Vec F S4096x65 .bf16) : Vec F S65x512 .bf16 :=
  k1_pay1 xr (hidN xA xr xNW xNb e1b) (k1_pay16 xNg) xNbe

def stepZp (xA : Vec F S512x4096 .f32) (xr : Vec F S512x64 .f32) (xE : Vec F S4096x65 .f32) (xNW : Vec F S128x64 .bf16)
    (xNb xNg xNbe : Vec F S1x64 .f32) : St1 F where
  acct := k1_pay11
  e1b := k1_pay12 xE
  panp := k1_pay2 (panN xA)
  augp := k1_pay3 xr (hidN xA xr xNW xNb (k1_pay12 xE)) (k1_pay16 xNg) xNbe

def stepSp (xA : Vec F S512x4096 .f32) (xr : Vec F S512x64 .f32) (xNW : Vec F S128x64 .bf16)
    (xNb xNg xNbe : Vec F S1x64 .f32) (s : St1 F) : St1 F where
  acct := k1_pay14 s.acct s.augp s.panp
  e1b := s.e1b
  panp := k1_pay2 (panN xA)
  augp := k1_pay3 xr (hidN xA xr xNW xNb s.e1b) (k1_pay16 xNg) xNbe

def out1p (xA : Vec F S512x4096 .f32) (xr : Vec F S512x64 .f32) (xE : Vec F S4096x65 .f32) (xNW : Vec F S128x64 .bf16)
    (xNb xNg xNbe : Vec F S1x64 .f32) (xEW : Vec F S128x64 .f32) (xEb xEg xEbe : Vec F S1x64 .f32)
    (xDw : Vec F S64x1 .f32) (xDb : Vec F S1x1 .f32) (s : St1 F) : Vec F S4096x1 .f32 :=
  k1_pay4 (k1_pay5 xE) (k1_pay6 xEg) (k1_pay7 xEbe)
    (k1_pay8 (panN xA) (augN xA xr xNW xNb xNg xNbe s.e1b) s.acct xE xEW xEb)
    (k1_pay9 (panN xA) (augN xA xr xNW xNb xNg xNbe s.e1b) s.acct xE xEW xEb)
    k1_pay10 xDw xDb

def stepZ (c : Dev nD) (t : Fin cfg1.N) : St1 F :=
  stepZp (bA V c t) (xrows V c t) (bE V c t) (bNW V c t) (bNb V c t) (bNg V c t) (bNbe V c t)

def stepS (c : Dev nD) (t : Fin cfg1.N) (s : St1 F) : St1 F :=
  stepSp (bA V c t) (xrows V c t) (bNW V c t) (bNb V c t) (bNg V c t) (bNbe V c t) s

def St1.junk : St1 F :=
  ⟨(fun _ => Scalar.ofBits .f32 0#32 : FVec F S65x4096 .f32), (fun _ => Scalar.ofBits .bf16 0#16 : FVec F S4096x65 .bf16),
    (fun _ => Scalar.ofBits .bf16 0#16 : FVec F S512x4096 .bf16), (fun _ => Scalar.ofBits .bf16 0#16 : FVec F S65x512 .bf16)⟩

def st1 (c : Dev nD) : ℕ → St1 F
  | 0 => St1.junk
  | n + 1 => if h : n < cfg1.N then (if n = 0 then stepZ V c ⟨n, h⟩ else stepS V c ⟨n, h⟩ (st1 c n)) else st1 c n

theorem st1_first (c : Dev nD) (t : Fin cfg1.N) (ht : t.val = 0) : st1 V c (t.val + 1) = stepZ V c t := by
  obtain ⟨n, hn⟩ := t
  rw [st1, dif_pos hn, if_pos ht]

theorem st1_succ (c : Dev nD) (t : Fin cfg1.N) (ht : t.val ≠ 0) : st1 V c (t.val + 1) = stepS V c t (st1 V c t.val) := by
  obtain ⟨n, hn⟩ := t
  rw [st1, dif_pos hn, if_neg ht]

abbrev tL : Fin cfg1.N := t1_15

def out1 (c : Dev nD) : Vec F S4096x1 .f32 :=
  out1p (bA V c tL) (xrows V c tL) (bE V c tL) (bNW V c tL) (bNb V c tL) (bNg V c tL) (bNbe V c tL)
    (bEW V c tL) (bEb V c tL) (bEg V c tL) (bEbe V c tL) (bDw V c tL) (bDb V c tL) (st1 V c 16)

abbrev scM1_0 : Memref sig .tc .vmem S65x4096 .f32 := Memref.whole cc1_scratch0
abbrev scM1_1 : Memref sig .tc .vmem S4096x65 .bf16 := Memref.whole cc1_scratch1
abbrev scM1_2 : Memref sig .tc .vmem S512x4096 .bf16 := Memref.whole cc1_scratch2
abbrev scM1_3 : Memref sig .tc .vmem S65x512 .bf16 := Memref.whole cc1_scratch3

def others1 (c : Dev nD) (R : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ R)

def PhiS1 (c : Dev nD) : ℕ → sProp 𝕄
  | 0 => Pipeline.ΦA spec1 c
  | n + 1 => iprop(others1 c iprop(owns (c : Thread nD τ) scM1_0 fullShare (st1 V c (n + 1)).acct
      ∗ owns (c : Thread nD τ) scM1_1 fullShare (st1 V c (n + 1)).e1b
      ∗ owns (c : Thread nD τ) scM1_2 fullShare (st1 V c (n + 1)).panp
      ∗ owns (c : Thread nD τ) scM1_3 fullShare (st1 V c (n + 1)).augp) ∗ (∃ r, prngReg c r))

theorem PhiS1_succ (c : Dev nD) (n : ℕ) :
    PhiS1 V c (n + 1) = iprop(others1 c iprop(owns (c : Thread nD τ) scM1_0 fullShare (st1 V c (n + 1)).acct
      ∗ owns (c : Thread nD τ) scM1_1 fullShare (st1 V c (n + 1)).e1b
      ∗ owns (c : Thread nD τ) scM1_2 fullShare (st1 V c (n + 1)).panp
      ∗ owns (c : Thread nD τ) scM1_3 fullShare (st1 V c (n + 1)).augp) ∗ (∃ r, prngReg c r)) := rfl

theorem PhiS1_pos (c : Dev nD) (n : ℕ) (hn : n ≠ 0) :
    PhiS1 V c n = iprop(others1 c iprop(owns (c : Thread nD τ) scM1_0 fullShare (st1 V c n).acct
      ∗ owns (c : Thread nD τ) scM1_1 fullShare (st1 V c n).e1b
      ∗ owns (c : Thread nD τ) scM1_2 fullShare (st1 V c n).panp
      ∗ owns (c : Thread nD τ) scM1_3 fullShare (st1 V c n).augp) ∗ (∃ r, prngReg c r)) := by
  cases n with
  | zero => exact absurd rfl hn
  | succ n => rfl

theorem PhiA1_eq (c : Dev nD) :
    (Pipeline.ΦA spec1 c : sProp 𝕄)
      = iprop(others1 c iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA others1; rw [scopedRest1_eq]; simp only [scM1_0, scM1_1, scM1_2, scM1_3, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1 V c
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1 V c := by dsimp only [dat1]

theorem Phi1_eq (c : Dev nD) (t : Fin (cfg1.N + 1)) : (dat1 V c).Φ t = PhiS1 V c t.val := by dsimp only [dat1]
theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := by
  dsimp only [dat1]; simp only [Fin.val_succ]
theorem q1_eq (c : Dev nD) (w : Fin cfg1.W) : (dat1 V c).q w = fullShare := rfl
theorem owed1_eq (c : Dev nD) (t : Fin (cfg1.N + 1)) : (dat1 V c).owed t = 0 := rfl

theorem hin1 (c : Dev nD) : Pipeline.ΦA spec1 c ⊢ (dat1 V c).Φ 0 := by
  rw [Phi1_eq]; exact Idealize.SL.BI.Entails.refl _

theorem hout1 (c : Dev nD) : (dat1 V c).Φ (Fin.last cfg1.N) ⊢ Pipeline.ΦA spec1 c := by
  rw [Phi1_eq, PhiS1_pos V c _ (by rw [Fin.val_last]; have : cfg1.N = 16 := N_1; omega), PhiA1_eq]
  unfold others1
  iintro ⟨⟨A1, A2, A3, A4, A5, A6, A7, A8, A9, A10, A11, A12, H0, H1, H2, H3⟩, Hg⟩
  iframe
  isplitl [H0]; · iexists _; iexact H0
  isplitl [H1]; · iexists _; iexact H1
  isplitl [H2]; · iexists _; iexact H2
  iexists _; iexact H3

end Cert.KernelIdeal.Hand

end
-- ==== Proof.K1Cond.lean ====
import proofs.«153954_g5892695130345_cont_sun_m_578_38_alg».proof.Proof.Gen.KernelIdeal.Launch
import proofs.«153954_g5892695130345_cont_sun_m_578_38_alg».proof.Proof.Gen.KernelIdeal.Skeleton
import proofs.«153954_g5892695130345_cont_sun_m_578_38_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel

abbrev cond1_1 (i : grid1.Coords) : Prop := (Scalar.cmpi .ne (Scalar.extui (Scalar.cmpi .sgt (BitVec.ofNat 32 (i 0).val) 0#32)) 0#32) = 1#1
theorem hcond1_1 : ∀ t : Fin cfg1.N, cond1_1 (grid1.coords t) ↔ t.val ≠ 0 := by decide +kernel

abbrev cond1_2 (i : grid1.Coords) : Prop := k1_cond3 i = 1#1
theorem hcond1_2 : ∀ t : Fin cfg1.N, cond1_2 (grid1.coords t) ↔ t.val = 15 := by decide +kernel

theorem idleAt1_13 : ∀ t : Fin cfg1.N, ¬cond1_2 (grid1.coords t) → cfg1.idle 13 (grid1.coords t) = true := by decide +kernel
theorem noFlush1_13 : ∀ t : Fin cfg1.N, ¬cond1_2 (grid1.coords t) → (cfg1.win 13).flush t = false := by decide +kernel
theorem liveAt1_13 : ∀ t : Fin cfg1.N, cond1_2 (grid1.coords t) → cfg1.idle 13 (grid1.coords t) = false := by decide +kernel

end Cert.KernelIdeal.Hand

end
-- ==== Proof.K1BodyA.lean ====
import proofs.«153954_g5892695130345_cont_sun_m_578_38_alg».proof.Proof.Gen.KernelIdeal.Launch
import proofs.«153954_g5892695130345_cont_sun_m_578_38_alg».proof.Proof.Gen.KernelIdeal.Skeleton
import proofs.«153954_g5892695130345_cont_sun_m_578_38_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«153954_g5892695130345_cont_sun_m_578_38_alg».proof.Proof.K1Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The one piece covers every index, so what is read is the canon of that piece: the payload. -/
theorem read_writes_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

theorem hz2 : (![0, 0] : Fin 2 → Nat) = fun _ => 0 := funext fun a => by fin_cases a <;> rfl

set_option maxHeartbeats 4000000 in
/-- The run takes the first branch only; a buffer stored to once through its whole rectangle reads back the payload. -/
theorem run1_A (c : Dev nD) (E : Set ℕ) (i : grid1.Coords) (arg1 : Memref sig .tc .vmem S512x4096 .f32) (harg1 : arg1.IsWhole) (arg2 : Memref sig .tc .vmem S8192x64 .f32) (harg2 : arg2.IsWhole) (arg3 : Memref sig .tc .vmem S4096x65 .f32) (harg3 : arg3.IsWhole) (arg4 : Memref sig .tc .vmem S128x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S4096x1 .f32) (harg14 : arg14.IsWhole) (arg15 : Memref sig .tc .vmem S65x4096 .f32) (harg15 : arg15.IsWhole) (arg16 : Memref sig .tc .vmem S4096x65 .bf16) (harg16 : arg16.IsWhole) (arg17 : Memref sig .tc .vmem S512x4096 .bf16) (harg17 : arg17.IsWhole) (arg18 : Memref sig .tc .vmem S65x512 .bf16) (harg18 : arg18.IsWhole)
    (hc0 : cond1_0 i) (hc1 : ¬cond1_1 i) (hc2 : ¬cond1_2 i)
    (x0 : Vec F S512x4096 .f32) (x1 : Vec F S8192x64 .f32) (x2 : Vec F S4096x65 .f32) (x3 : Vec F S128x64 .bf16) (x4 : Vec F S1x64 .f32) (x5 : Vec F S1x64 .f32) (x6 : Vec F S1x64 .f32) (x7 : Vec F S128x64 .f32) (x8 : Vec F S1x64 .f32) (x9 : Vec F S1x64 .f32) (x10 : Vec F S1x64 .f32) (x11 : Vec F S64x1 .f32) (x12 : Vec F S1x1 .f32) (xo : Vec F S4096x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo
        ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo
            ∗ owns (c : Thread nD τ) arg15 fullShare (k1_pay11 (F := F))
            ∗ owns (c : Thread nD τ) arg16 fullShare (k1_pay12 x2)
            ∗ owns (c : Thread nD τ) arg17 fullShare (k1_pay2 (k1_pay13 x0))
            ∗ owns (c : Thread nD τ) arg18 fullShare (k1_pay3 (View.ld x1 (Rect.unit (s := S8192x64) (k1_off1 i) S512x64.size (k1_off1_inb i))) (k1_pay15 x0 (k1_pay12 x2) (View.ld x1 (Rect.unit (s := S8192x64) (k1_off1 i) S512x64.size (k1_off1_inb i))) x3 x4) (k1_pay16 x5) x6)) -∗ K ⟨⟩))
      ⊢ wp frame (wpE (defs₀ (F := F)) Variants.none c none) E (cc1__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__p2_body_eq_skeleton]; unfold cc1__p2_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fo, %hfo, Ho⟩, ⟨%d15, %f15, -, HS0⟩, ⟨%d16, %f16, -, HS1⟩, ⟨%d17, %f17, -, HS2⟩, ⟨%d18, %f18, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  obtain rfl := harg14.eq_unread hfo
  sl_exec (disch := first | exact hc0 | exact hc1 | exact hc2)
  sl_step
  iapply Hk
  isplitl [H0]; iexists _; isplitr; swap; iexact H0; ipureintro; swap
  isplitl [H1]; iexists _; isplitr; swap; iexact H1; ipureintro; swap
  isplitl [H2]; iexists _; isplitr; swap; iexact H2; ipureintro; swap
  isplitl [H3]; iexists _; isplitr; swap; iexact H3; ipureintro; swap
  isplitl [H4]; iexists _; isplitr; swap; iexact H4; ipureintro; swap
  isplitl [H5]; iexists _; isplitr; swap; iexact H5; ipureintro; swap
  isplitl [H6]; iexists _; isplitr; swap; iexact H6; ipureintro; swap
  isplitl [H7]; iexists _; isplitr; swap; iexact H7; ipureintro; swap
  isplitl [H8]; iexists _; isplitr; swap; iexact H8; ipureintro; swap
  isplitl [H9]; iexists _; isplitr; swap; iexact H9; ipureintro; swap
  isplitl [H10]; iexists _; isplitr; swap; iexact H10; ipureintro; swap
  isplitl [H11]; iexists _; isplitr; swap; iexact H11; ipureintro; swap
  isplitl [H12]; iexists _; isplitr; swap; iexact H12; ipureintro; swap
  isplitl [Ho]; iexists _; isplitr; swap; iexact Ho; ipureintro; swap
  isplitl [HS0]; iexists _; isplitr; swap; iexact HS0; ipureintro; exact read_writes_unit_zero (S := S65x4096) _ _ hz2 _ _
  isplitl [HS1]; iexists _; isplitr; swap; iexact HS1; ipureintro; sl_unfold_run_names; rw [read_writes_unit_zero (S := S4096x65) _ _ hz2]; swap
  isplitl [HS2]; iexists _; isplitr; swap; iexact HS2; ipureintro; sl_unfold_run_names; rw [read_writes_unit_zero (S := S512x4096) _ _ hz2]; swap
  iexists _; isplitr; swap; iexact HS3; ipureintro; sl_unfold_run_names; rw [read_writes_unit_zero (S := S65x512) _ _ hz2]
  all_goals simp only [View.readAt_eq_ld, Memref.IsWhole.read_unread,
    View.ld_unit_zero (S := S512x4096) hz2, View.ld_unit_zero (S := S4096x65) hz2, View.ld_unit_zero (S := S128x64) hz2,
    View.ld_unit_zero (S := S1x64) hz2, View.ld_unit_zero (S := S65x4096) hz2, View.ld_unit_zero (S := S65x512) hz2,
    View.ld_unit_zero (S := S64x1) hz2, View.ld_unit_zero (S := S1x1) hz2,
    View.readCov_unit_zero (S := S4096x65) _ hz2, View.readCov_unit_zero (S := S65x4096) _ hz2]

end Cert.KernelIdeal.Hand

end
-- ==== Proof.K1BodyB.lean ====
import proofs.«153954_g5892695130345_cont_sun_m_578_38_alg».proof.Proof.K1BodyA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The run skips the first and the last branch; a buffer stored to once through its whole rectangle reads back the payload. -/
theorem run1_B (c : Dev nD) (E : Set ℕ) (i : grid1.Coords) (arg1 : Memref sig .tc .vmem S512x4096 .f32) (harg1 : arg1.IsWhole) (arg2 : Memref sig .tc .vmem S8192x64 .f32) (harg2 : arg2.IsWhole) (arg3 : Memref sig .tc .vmem S4096x65 .f32) (harg3 : arg3.IsWhole) (arg4 : Memref sig .tc .vmem S128x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S4096x1 .f32) (harg14 : arg14.IsWhole) (arg15 : Memref sig .tc .vmem S65x4096 .f32) (harg15 : arg15.IsWhole) (arg16 : Memref sig .tc .vmem S4096x65 .bf16) (harg16 : arg16.IsWhole) (arg17 : Memref sig .tc .vmem S512x4096 .bf16) (harg17 : arg17.IsWhole) (arg18 : Memref sig .tc .vmem S65x512 .bf16) (harg18 : arg18.IsWhole)
    (hc0 : ¬cond1_0 i) (hc1 : cond1_1 i) (hc2 : ¬cond1_2 i)
    (x0 : Vec F S512x4096 .f32) (x1 : Vec F S8192x64 .f32) (x2 : Vec F S4096x65 .f32) (x3 : Vec F S128x64 .bf16) (x4 : Vec F S1x64 .f32) (x5 : Vec F S1x64 .f32) (x6 : Vec F S1x64 .f32) (x7 : Vec F S128x64 .f32) (x8 : Vec F S1x64 .f32) (x9 : Vec F S1x64 .f32) (x10 : Vec F S1x64 .f32) (x11 : Vec F S64x1 .f32) (x12 : Vec F S1x1 .f32) (xo : Vec F S4096x1 .f32) (s0 : Vec F S65x4096 .f32) (s1 : Vec F S4096x65 .bf16) (s2 : Vec F S512x4096 .bf16) (s3 : Vec F S65x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo
        ∗ owns (c : Thread nD τ) arg15 fullShare s0 ∗ owns (c : Thread nD τ) arg16 fullShare s1
        ∗ owns (c : Thread nD τ) arg17 fullShare s2 ∗ owns (c : Thread nD τ) arg18 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo
            ∗ owns (c : Thread nD τ) arg15 fullShare (k1_pay14 s0 s3 s2)
            ∗ owns (c : Thread nD τ) arg16 fullShare s1
            ∗ owns (c : Thread nD τ) arg17 fullShare (k1_pay2 (k1_pay13 x0))
            ∗ owns (c : Thread nD τ) arg18 fullShare (k1_pay3 (View.ld x1 (Rect.unit (s := S8192x64) (k1_off1 i) S512x64.size (k1_off1_inb i))) (k1_pay15 x0 s1 (View.ld x1 (Rect.unit (s := S8192x64) (k1_off1 i) S512x64.size (k1_off1_inb i))) x3 x4) (k1_pay16 x5) x6)) -∗ K ⟨⟩))
      ⊢ wp frame (wpE (defs₀ (F := F)) Variants.none c none) E (cc1__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__p2_body_eq_skeleton]; unfold cc1__p2_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fo, %hfo, Ho⟩, ⟨%f15, %hf15, HS0⟩, ⟨%f16, %hf16, HS1⟩, ⟨%f17, %hf17, HS2⟩, ⟨%f18, %hf18, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  obtain rfl := harg14.eq_unread hfo
  obtain rfl := harg15.eq_unread hf15; obtain rfl := harg16.eq_unread hf16; obtain rfl := harg17.eq_unread hf17; obtain rfl := harg18.eq_unread hf18
  sl_exec (disch := first | exact hc0 | exact hc1 | exact hc2)
  sl_step
  iapply Hk
  isplitl [H0]; iexists _; isplitr; swap; iexact H0; ipureintro; swap
  isplitl [H1]; iexists _; isplitr; swap; iexact H1; ipureintro; swap
  isplitl [H2]; iexists _; isplitr; swap; iexact H2; ipureintro; swap
  isplitl [H3]; iexists _; isplitr; swap; iexact H3; ipureintro; swap
  isplitl [H4]; iexists _; isplitr; swap; iexact H4; ipureintro; swap
  isplitl [H5]; iexists _; isplitr; swap; iexact H5; ipureintro; swap
  isplitl [H6]; iexists _; isplitr; swap; iexact H6; ipureintro; swap
  isplitl [H7]; iexists _; isplitr; swap; iexact H7; ipureintro; swap
  isplitl [H8]; iexists _; isplitr; swap; iexact H8; ipureintro; swap
  isplitl [H9]; iexists _; isplitr; swap; iexact H9; ipureintro; swap
  isplitl [H10]; iexists _; isplitr; swap; iexact H10; ipureintro; swap
  isplitl [H11]; iexists _; isplitr; swap; iexact H11; ipureintro; swap
  isplitl [H12]; iexists _; isplitr; swap; iexact H12; ipureintro; swap
  isplitl [Ho]; iexists _; isplitr; swap; iexact Ho; ipureintro; swap
  isplitl [HS0]; iexists _; isplitr; swap; iexact HS0; ipureintro; sl_unfold_run_names; rw [read_writes_unit_zero (S := S65x4096) _ _ hz2]; swap
  isplitl [HS1]; iexists _; isplitr; swap; iexact HS1; ipureintro; swap
  isplitl [HS2]; iexists _; isplitr; swap; iexact HS2; ipureintro; sl_unfold_run_names; rw [read_writes_unit_zero (S := S512x4096) _ _ hz2]; swap
  iexists _; isplitr; swap; iexact HS3; ipureintro; sl_unfold_run_names; rw [read_writes_unit_zero (S := S65x512) _ _ hz2]
  all_goals simp only [View.readAt_eq_ld, Memref.IsWhole.read_unread,
    View.ld_unit_zero (S := S512x4096) hz2, View.ld_unit_zero (S := S4096x65) hz2, View.ld_unit_zero (S := S128x64) hz2,
    View.ld_unit_zero (S := S1x64) hz2, View.ld_unit_zero (S := S65x4096) hz2, View.ld_unit_zero (S := S65x512) hz2,
    View.ld_unit_zero (S := S64x1) hz2, View.ld_unit_zero (S := S1x1) hz2,
    View.readCov_unit_zero (S := S4096x65) _ hz2, View.readCov_unit_zero (S := S65x4096) _ hz2]

end Cert.KernelIdeal.Hand

end
-- ==== Proof.K1BodyC.lean ====
import proofs.«153954_g5892695130345_cont_sun_m_578_38_alg».proof.Proof.K1BodyB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The run skips the first branch and takes the last; a buffer stored to once through its whole rectangle reads back the payload. -/
theorem run1_C (c : Dev nD) (E : Set ℕ) (i : grid1.Coords) (arg1 : Memref sig .tc .vmem S512x4096 .f32) (harg1 : arg1.IsWhole) (arg2 : Memref sig .tc .vmem S8192x64 .f32) (harg2 : arg2.IsWhole) (arg3 : Memref sig .tc .vmem S4096x65 .f32) (harg3 : arg3.IsWhole) (arg4 : Memref sig .tc .vmem S128x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S4096x1 .f32) (harg14 : arg14.IsWhole) (arg15 : Memref sig .tc .vmem S65x4096 .f32) (harg15 : arg15.IsWhole) (arg16 : Memref sig .tc .vmem S4096x65 .bf16) (harg16 : arg16.IsWhole) (arg17 : Memref sig .tc .vmem S512x4096 .bf16) (harg17 : arg17.IsWhole) (arg18 : Memref sig .tc .vmem S65x512 .bf16) (harg18 : arg18.IsWhole)
    (hc0 : ¬cond1_0 i) (hc1 : cond1_1 i) (hc2 : cond1_2 i)
    (x0 : Vec F S512x4096 .f32) (x1 : Vec F S8192x64 .f32) (x2 : Vec F S4096x65 .f32) (x3 : Vec F S128x64 .bf16) (x4 : Vec F S1x64 .f32) (x5 : Vec F S1x64 .f32) (x6 : Vec F S1x64 .f32) (x7 : Vec F S128x64 .f32) (x8 : Vec F S1x64 .f32) (x9 : Vec F S1x64 .f32) (x10 : Vec F S1x64 .f32) (x11 : Vec F S64x1 .f32) (x12 : Vec F S1x1 .f32) (s0 : Vec F S65x4096 .f32) (s1 : Vec F S4096x65 .bf16) (s2 : Vec F S512x4096 .bf16) (s3 : Vec F S65x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ owns (c : Thread nD τ) arg15 fullShare s0 ∗ owns (c : Thread nD τ) arg16 fullShare s1
        ∗ owns (c : Thread nD τ) arg17 fullShare s2 ∗ owns (c : Thread nD τ) arg18 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (k1_pay4 (k1_pay5 x2) (k1_pay6 x9) (k1_pay7 x10)
              (k1_pay8 (k1_pay13 x0) (k1_pay1 (View.ld x1 (Rect.unit (s := S8192x64) (k1_off1 i) S512x64.size (k1_off1_inb i))) (k1_pay15 x0 s1 (View.ld x1 (Rect.unit (s := S8192x64) (k1_off1 i) S512x64.size (k1_off1_inb i))) x3 x4) (k1_pay16 x5) x6) (k1_pay14 s0 s3 s2) x2 x7 x8)
              (k1_pay9 (k1_pay13 x0) (k1_pay1 (View.ld x1 (Rect.unit (s := S8192x64) (k1_off1 i) S512x64.size (k1_off1_inb i))) (k1_pay15 x0 s1 (View.ld x1 (Rect.unit (s := S8192x64) (k1_off1 i) S512x64.size (k1_off1_inb i))) x3 x4) (k1_pay16 x5) x6) (k1_pay14 s0 s3 s2) x2 x7 x8)
              (k1_pay10 (F := F)) x11 x12)
            ∗ owns (c : Thread nD τ) arg15 fullShare (k1_pay14 s0 s3 s2)
            ∗ owns (c : Thread nD τ) arg16 fullShare s1
            ∗ owns (c : Thread nD τ) arg17 fullShare (k1_pay2 (k1_pay13 x0))
            ∗ owns (c : Thread nD τ) arg18 fullShare (k1_pay3 (View.ld x1 (Rect.unit (s := S8192x64) (k1_off1 i) S512x64.size (k1_off1_inb i))) (k1_pay15 x0 s1 (View.ld x1 (Rect.unit (s := S8192x64) (k1_off1 i) S512x64.size (k1_off1_inb i))) x3 x4) (k1_pay16 x5) x6)) -∗ K ⟨⟩))
      ⊢ wp frame (wpE (defs₀ (F := F)) Variants.none c none) E (cc1__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__p2_body_eq_skeleton]; unfold cc1__p2_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d14, %f14, -, Ho⟩, ⟨%f15, %hf15, HS0⟩, ⟨%f16, %hf16, HS1⟩, ⟨%f17, %hf17, HS2⟩, ⟨%f18, %hf18, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  obtain rfl := harg15.eq_unread hf15; obtain rfl := harg16.eq_unread hf16; obtain rfl := harg17.eq_unread hf17; obtain rfl := harg18.eq_unread hf18
  sl_exec (disch := first | exact hc0 | exact hc1 | exact hc2)
  sl_step
  iapply Hk
  isplitl [H0]; iexists _; isplitr; swap; iexact H0; ipureintro; swap
  isplitl [H1]; iexists _; isplitr; swap; iexact H1; ipureintro; swap
  isplitl [H2]; iexists _; isplitr; swap; iexact H2; ipureintro; swap
  isplitl [H3]; iexists _; isplitr; swap; iexact H3; ipureintro; swap
  isplitl [H4]; iexists _; isplitr; swap; iexact H4; ipureintro; swap
  isplitl [H5]; iexists _; isplitr; swap; iexact H5; ipureintro; swap
  isplitl [H6]; iexists _; isplitr; swap; iexact H6; ipureintro; swap
  isplitl [H7]; iexists _; isplitr; swap; iexact H7; ipureintro; swap
  isplitl [H8]; iexists _; isplitr; swap; iexact H8; ipureintro; swap
  isplitl [H9]; iexists _; isplitr; swap; iexact H9; ipureintro; swap
  isplitl [H10]; iexists _; isplitr; swap; iexact H10; ipureintro; swap
  isplitl [H11]; iexists _; isplitr; swap; iexact H11; ipureintro; swap
  isplitl [H12]; iexists _; isplitr; swap; iexact H12; ipureintro; swap
  isplitl [Ho]; iexists _; isplitr; swap; iexact Ho; ipureintro; sl_unfold_run_names; rw [read_writes_unit_zero (S := S4096x1) _ _ hz2]; swap
  isplitl [HS0]; iexists _; isplitr; swap; iexact HS0; ipureintro; sl_unfold_run_names; rw [read_writes_unit_zero (S := S65x4096) _ _ hz2]; swap
  isplitl [HS1]; iexists _; isplitr; swap; iexact HS1; ipureintro; swap
  isplitl [HS2]; iexists _; isplitr; swap; iexact HS2; ipureintro; sl_unfold_run_names; rw [read_writes_unit_zero (S := S512x4096) _ _ hz2]; swap
  iexists _; isplitr; swap; iexact HS3; ipureintro; sl_unfold_run_names; rw [read_writes_unit_zero (S := S65x512) _ _ hz2]
  all_goals simp only [View.readAt_eq_ld, Memref.IsWhole.read_unread,
    View.ld_unit_zero (S := S512x4096) hz2, View.ld_unit_zero (S := S4096x65) hz2, View.ld_unit_zero (S := S128x64) hz2,
    View.ld_unit_zero (S := S1x64) hz2, View.ld_unit_zero (S := S65x4096) hz2, View.ld_unit_zero (S := S65x512) hz2,
    View.ld_unit_zero (S := S64x1) hz2, View.ld_unit_zero (S := S1x1) hz2,
    View.readCov_unit_zero (S := S4096x65) _ hz2, View.readCov_unit_zero (S := S65x4096) _ hz2]

end Cert.KernelIdeal.Hand

end
-- ==== Proof.K1Body.lean ====
import proofs.«153954_g5892695130345_cont_sun_m_578_38_alg».proof.Proof.K1Defs
import proofs.«153954_g5892695130345_cont_sun_m_578_38_alg».proof.Proof.K1BodyC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The same statement for every window but the output's, by one case split over the window. -/
theorem in1 (c : Dev nD) (t : Fin cfg1.N) : ∀ w : Fin cfg1.W, w ≠ 13 →
    (∀ d, (dat1 V c).before w t d = (dat1 V c).after w t) ∧
      (dat1 V c).leavesExact w t
        = owns (c : Thread nD τ) ((cfg1.win w).stage (cfg1.slots t w)) fullShare ((dat1 V c).after w t) := by
  intro w; fin_cases w <;> intro hw
  all_goals first
    | exact absurd rfl hw
    | exact ⟨fun d => ((dat1 V c).before_in_eq_fetched _ rfl (fun _ => rfl) (fun _ _ _ => rfl)
          (fun t => by dsimp only [dat1]; unfold Dat.blockOf iblk1; try rfl) t d).trans
          (by dsimp only [dat1]; unfold Dat.fetched Dat.blockOf iblk1; try rfl), rfl⟩

abbrev found1 (c : Dev nD) (t : Fin cfg1.N) (w : Fin cfg1.W) : sProp 𝕄 :=
  iprop(∃ d, owns (c : Thread nD τ) ((cfg1.win w).stage (cfg1.slots t w)) fullShare ((dat1 V c).before w t d))

def bodyPre1 (c : Dev nD) (t : Fin cfg1.N) : sProp 𝕄 :=
  iprop((dat1 V c).Φ t.castSucc ∗ (dat1 V c).owesAt () t.castSucc
    ∗ found1 V c t 0 ∗ found1 V c t 1 ∗ found1 V c t 2 ∗ found1 V c t 3 ∗ found1 V c t 4 ∗ found1 V c t 5 ∗ found1 V c t 6 ∗ found1 V c t 7 ∗ found1 V c t 8 ∗ found1 V c t 9 ∗ found1 V c t 10 ∗ found1 V c t 11 ∗ found1 V c t 12 ∗ found1 V c t 13)

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t ∗ (dat1 V c).leavesExact 10 t ∗ (dat1 V c).leavesExact 11 t ∗ (dat1 V c).leavesExact 12 t ∗ (dat1 V c).leavesExact 13 t)

set_option maxHeartbeats 4800000 in
/-- By the point's position one of the three runs applies; what it leaves in the carried buffers is the recursion's next step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1 found1
  simp (disch := decide) only [in1 V c t, after1_0, after1_1, after1_2, after1_3, after1_4, after1_5, after1_6, after1_7, after1_8, after1_9, after1_10, after1_11, after1_12]
  rw [show (dat1 V c).owesAt () t.succ = (dat1 V c).owesAt () t.castSucc from rfl, Phi1_succ, Phi1_castSucc, PhiS1_succ]
  by_cases h0 : t.val = 0
  · have hc2 : ¬cond1_2 (grid1.coords t) := fun h => by have := (hcond1_2 t).mp h; omega
    rw [Dat.leavesExact_idle (dat1 V c) 13 t (idleAt1_13 t hc2) (noFlush1_13 t hc2), st1_first V c t h0,
      show PhiS1 V c t.val = Pipeline.ΦA spec1 c from by rw [h0]; rfl, PhiA1_eq]
    unfold others1 stepZ stepZp; dsimp only
    iintro ⟨⟨⟨A1, A2, A3, A4, A5, A6, A7, A8, A9, A10, A11, A12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run1_A c Set.univ (grid1.coords t) _ _ _ _ _ _ _ _ _ _ _ _ _ _ _ _ _ _ _ _ _ _ _ _ _ _ _ _ _ _ _ _ _ _ _ _ ((hcond1_0 t).mpr h0) (fun h => (hcond1_1 t).mp h h0) hc2 _ _ _ _ _ _ _ _ _ _ _ _ _ _ _)
    iframe
    iintro ⟨H0, H1, H2, H3, H4, H5, H6, H7, H8, H9, H10, H11, H12, H13, HS0, HS1, HS2, HS3⟩
    iframe
    iexists _; iexact H13
  · have hc0 : ¬cond1_0 (grid1.coords t) := fun h => h0 ((hcond1_0 t).mp h)
    have hc1 : cond1_1 (grid1.coords t) := (hcond1_1 t).mpr h0
    rw [PhiS1_pos V c t.val h0]
    by_cases h15 : t.val = 15
    · have hc2 : cond1_2 (grid1.coords t) := (hcond1_2 t).mpr h15
      rw [show (dat1 V c).leavesExact 13 t = owns (c : Thread nD τ) (st1_13 t) fullShare ((dat1 V c).after 13 t) from by
        unfold Dat.leavesExact; rw [liveAt1_13 t hc2], after1_13]
      obtain rfl : t = tL := Fin.ext h15
      unfold out1 out1p
      rw [show st1 V c 16 = stepS V c tL (st1 V c tL.val) from st1_succ V c tL h0, st1_succ V c tL h0]
      unfold others1 stepS stepSp; dsimp only
      iintro ⟨⟨⟨A1, A2, A3, A4, A5, A6, A7, A8, A9, A10, A11, A12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_C c Set.univ (grid1.coords tL) _ _ _ _ _ _ _ _ _ _ _ _ _ _ _ _ _ _ _ _ _ _ _ _ _ _ _ _ _ _ _ _ _ _ _ _ hc0 hc1 hc2 _ _ _ _ _ _ _ _ _ _ _ _ _ _ _ _ _ _)
      iframe
      isplitl [H13]; · iexists _; iexact H13
      iintro ⟨H0, H1, H2, H3, H4, H5, H6, H7, H8, H9, H10, H11, H12, H13, HS0, HS1, HS2, HS3⟩
      iframe
    · have hc2 : ¬cond1_2 (grid1.coords t) := fun h => h15 ((hcond1_2 t).mp h)
      rw [Dat.leavesExact_idle (dat1 V c) 13 t (idleAt1_13 t hc2) (noFlush1_13 t hc2), st1_succ V c t h0]
      unfold others1 stepS stepSp; dsimp only
      iintro ⟨⟨⟨A1, A2, A3, A4, A5, A6, A7, A8, A9, A10, A11, A12, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_B c Set.univ (grid1.coords t) _ _ _ _ _ _ _ _ _ _ _ _ _ _ _ _ _ _ _ _ _ _ _ _ _ _ _ _ _ _ _ _ _ _ _ _ hc0 hc1 hc2 _ _ _ _ _ _ _ _ _ _ _ _ _ _ _ _ _ _ _)
      iframe
      iintro ⟨H0, H1, H2, H3, H4, H5, H6, H7, H8, H9, H10, H11, H12, H13, HS0, HS1, HS2, HS3⟩
      iframe
      iexists _; iexact H13

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
import proofs.«153954_g5892695130345_cont_sun_m_578_38_alg».proof.Proof.Gen.KernelIdeal.Launch
import proofs.«153954_g5892695130345_cont_sun_m_578_38_alg».proof.Proof.Gen.KernelIdeal.Regions
import proofs.«153954_g5892695130345_cont_sun_m_578_38_alg».proof.Proof.LibSharedArrays
import proofs.«153954_g5892695130345_cont_sun_m_578_38_alg».proof.Proof.K0Defs
import proofs.«153954_g5892695130345_cont_sun_m_578_38_alg».proof.Proof.K1Defs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (hb0 : ∀ (V : (c : Dev nD) → (b : Ref sig .tc) → Buf (Elt F) ((c : Thread nD τ).loc b)) (c : Dev nD),
    BodyObligation (dat0 (F := F) V c) (defs₀ (F := F)) Variants.none () Set.univ)
  (hb1 : ∀ (V : (c : Dev nD) → (b : Ref sig .tc) → Buf (Elt F) ((c : Thread nD τ).loc b)) (c : Dev nD),
    BodyObligation (dat1 (F := F) V c) (defs₀ (F := F)) Variants.none () Set.univ)
variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Function.update (W1 m ρ c) (Proc.devRef .tc main_v12) ((dat0 (V1 m ρ) c).arrAt 8 cfg0.N)
theorem W2_main_v12 (c : Dev nD) :
    W2 m ρ c (Proc.devRef .tc main_v12) = (dat0 (V1 m ρ) c).arrAt 8 cfg0.N := by
  unfold W2; exact Function.update_self ..
theorem W2_of_ne (c : Dev nD) (b : Ref sig .tc) (hb : b ≠ main_v12) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W3_arg (c : Dev nD) (r : Ref sig .tc) (h : r ∉ hostOps0_W ∧ r ∉ hostOps1_W ∧ r ≠ main_v12) :
    W3 m ρ c (Proc.devRef .tc r) = m ((c : Thread nD τ).loc r) :=
  (W3_of m ρ c r h.2.1).trans <| (W2_of_ne m ρ c r h.2.2).trans (W1_of m ρ c r h.1)
theorem W5_arg (c : Dev nD) (r : Ref sig .tc) (h : (r ∉ hostOps0_W ∧ r ∉ hostOps1_W ∧ r ≠ main_v12) ∧ r ∉ hostOps2_W)
    (h4 : W4 m ρ c (Proc.devRef .tc r) = W3 m ρ c (Proc.devRef .tc r)) :
    W5 m ρ c (Proc.devRef .tc r) = m ((c : Thread nD τ).loc r) :=
  (W5_of m ρ c r h.2).trans <| h4.trans (W3_arg m ρ c r h.1)
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem W4_main_v40 (c : Dev nD) :
    W4 m ρ c (Proc.devRef .tc main_v40) = (dat1 (V3 m ρ) c).arrAt 13 cfg1.N := W4_arr m ρ c 13
theorem W5_main_v41 (c : Dev nD) :
    W5 m ρ c (Proc.devRef .tc main_v41)
      = fun i => shapeCast S4096 ((dat1 (V3 m ρ) c).arrAt 13 cfg1.N) shapeCasts_S4096x1_S4096 i := by
  have h : W5 m ρ c (Proc.devRef .tc main_v41)
      = (StableHlo.reshape (τ := τ) (Val := Elt F) main_v40 main_v41 rfl shapeCasts_S4096x1_S4096).result (W4 m ρ c) (Proc.devRef .tc main_v41) := rfl
  rw [h, StableHlo.reshape_result, W4_main_v40]
  rfl
theorem W3_main_v12 (c : Dev nD) :
    W3 m ρ c (Proc.devRef .tc main_v12) = (dat0 (V1 m ρ) c).arrAt 8 cfg0.N :=
  (W3_of m ρ c main_v12 (by decide)).trans (W2_main_v12 m ρ c)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

theorem share0_0 (c : Dev nD) : (dat0 (V1 m ρ) c).share 0 = fullShare.left :=
  (Cert.Lib.SharedArrays.share_in (dat0 (V1 m ρ) c) 0 rfl).trans (q0_0 (V1 m ρ) c)
theorem share0_1 (c : Dev nD) : (dat0 (V1 m ρ) c).share 1 = fullShare.right :=
  (Cert.Lib.SharedArrays.share_in (dat0 (V1 m ρ) c) 1 rfl).trans (q0_1 (V1 m ρ) c)
theorem share0_rest (c : Dev nD) (w : Fin cfg0.W) (h0 : w ≠ 0) (h1 : w ≠ 1) : (dat0 (V1 m ρ) c).share w = fullShare := by
  unfold Dat.share; split
  · rfl
  · exact q0_rest (V1 m ρ) c w h0 h1

theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c main_arg0 (by decide)).symm)
  | ⟨1, _⟩ => ((dat0 (V1 m ρ) c).arrAt_in 1 rfl _).trans ((A_eq0 (V1 m ρ) c 1).trans (W2_of_ne m ρ c main_arg0 (by decide)).symm)
  | ⟨2, _⟩ => ((dat0 (V1 m ρ) c).arrAt_in 2 rfl _).trans ((A_eq0 (V1 m ρ) c 2).trans (W2_of_ne m ρ c main_arg1 (by decide)).symm)
  | ⟨3, _⟩ => ((dat0 (V1 m ρ) c).arrAt_in 3 rfl _).trans ((A_eq0 (V1 m ρ) c 3).trans (W2_of_ne m ρ c main_arg2 (by decide)).symm)
  | ⟨4, _⟩ => ((dat0 (V1 m ρ) c).arrAt_in 4 rfl _).trans ((A_eq0 (V1 m ρ) c 4).trans (W2_of_ne m ρ c main_v2 (by decide)).symm)
  | ⟨5, _⟩ => ((dat0 (V1 m ρ) c).arrAt_in 5 rfl _).trans ((A_eq0 (V1 m ρ) c 5).trans (W2_of_ne m ρ c main_v5 (by decide)).symm)
  | ⟨6, _⟩ => ((dat0 (V1 m ρ) c).arrAt_in 6 rfl _).trans ((A_eq0 (V1 m ρ) c 6).trans (W2_of_ne m ρ c main_v8 (by decide)).symm)
  | ⟨7, _⟩ => ((dat0 (V1 m ρ) c).arrAt_in 7 rfl _).trans ((A_eq0 (V1 m ρ) c 7).trans (W2_of_ne m ρ c main_v11 (by decide)).symm)
  | ⟨8, _⟩ => (W2_main_v12 m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨8, Finset.mem_univ _, e.symm⟩)

theorem entry0 (c : Dev nD) :
    (unscopedBufs c (V1 m ρ c) : sProp 𝕄)
      = iprop((dat0 (V1 m ρ) c).arrays ((dat0 (V1 m ρ) c).arrAt · 0) ∗ Pipeline.unscopedRest spec0 c (V1 m ρ c)) :=
  Cert.Lib.SharedArrays.unscopedBufs_eq_arrays (dat0 (V1 m ρ) c) 0 1 (by decide) rfl (by decide) winFacts₀0.arr_unscoped arr_whole0
    (share0_0 m ρ c) (share0_1 m ρ c) (share0_rest m ρ c) (V1 m ρ c) _ (fun w => A_eq0 (V1 m ρ) c w)
theorem exit0 (c : Dev nD) :
    (unscopedBufs c (V2 m ρ c) : sProp 𝕄)
      = iprop((dat0 (V1 m ρ) c).arrays ((dat0 (V1 m ρ) c).arrAt · cfg0.N) ∗ Pipeline.unscopedRest spec0 c (V1 m ρ c)) := by
  rw [Cert.Lib.SharedArrays.unscopedBufs_eq_arrays (dat0 (V1 m ρ) c) 0 1 (by decide) rfl (by decide) winFacts₀0.arr_unscoped arr_whole0
    (share0_0 m ρ c) (share0_1 m ρ c) (share0_rest m ρ c) (V2 m ρ c) _ (hF0 m ρ c),
    Cert.Lib.SharedArrays.unscopedRest_congr spec0 c (V1 m ρ c) (V2 m ρ c) (hrest0 m ρ c)]

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (hb0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0) ∗ Pipeline.unscopedRest spec0 c (V1 m ρ c)) :=
      (Entails.of_eq (Pipeline.unscopedBufs_held c (W1 m ρ c)).symm).trans (Entails.of_eq (entry0 m ρ c))
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in0 (V1 m ρ) c)
    unfold Pipeline.ΦA
    iintro ⟨Hp, -, Hr⟩
    isplitl [Hr]; · iexact Hr
    iexact Hp
  hout c := by
    rw [Pipeline.ownSems0_none]
    refine BIBase.Entails.trans (Phi_out0 (V1 m ρ) c) ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (StableHlo.held (c : Thread nD τ) (Pipeline.ucRefs τ sig) (W2 m ρ c) : sProp 𝕄) :=
      (Entails.of_eq (exit0 m ρ c).symm).trans (Entails.of_eq (Pipeline.unscopedBufs_held c (W2 m ρ c)))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun c t => owed1_eq (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1_eq (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1_eq (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 hb0 m ρ),
    .host (hseg hostOps1 hostOps1_sub hostOps1_fresh (W2 m ρ)),
    .region (reg1 hb1 m ρ),
    .host (hseg hostOps2 hostOps2_sub hostOps2_fresh (W4 m ρ)) ]
theorem main_run (c : Dev nD) : main (F := F) c = Pipeline.Seg.run (segs hb0 hb1 m ρ) := (main_chain c).trans (by chain_rfl)

include hb0 hb1 in
set_option backward.isDefEq.respectTransparency.types false in
theorem run_main : θ_run defs (onTc (τ := τ) (main (F := F))) ⟨m, fun _ => 0, ρ⟩
    (fun r => ∀ (c : Dev nD) (b : DevRef τ sig), b ∈ Pipeline.ucRefs τ sig → r.2.mem ((c : Thread nD τ).1, b) = W5 m ρ c b) :=
  Pipeline.θ_run_regions_kit (pcfgs (F := F)) adm (pdats m ρ) () cellOf_inj emb₁ defs₀ 𝒱₀ L lv m ρ main (segs hb0 hb1 m ρ)
    (fun c Q => by rw [main_run hb0 hb1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c b hb)

include hb0 hb1 in
theorem run_v41 : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ?_) (run_main hb0 hb1 m ρ)
  have h := h c
  exact ⟨h _ (mem_uc main_v41 (by decide)),
    (h _ (mem_uc main_arg0 (by decide))).trans (W5_arg m ρ c main_arg0 (by decide) (W4_in m ρ c 0 rfl)),
    (h _ (mem_uc main_arg1 (by decide))).trans (W5_arg m ρ c main_arg1 (by decide) (W4_in m ρ c 1 rfl)),
    (h _ (mem_uc main_arg2 (by decide))).trans (W5_arg m ρ c main_arg2 (by decide) (W4_of_ne m ρ c main_arg2 (by decide))),
    (h _ (mem_uc main_arg3 (by decide))).trans (W5_arg m ρ c main_arg3 (by decide) (W4_of_ne m ρ c main_arg3 (by decide))),
    (h _ (mem_uc main_arg4 (by decide))).trans (W5_arg m ρ c main_arg4 (by decide) (W4_of_ne m ρ c main_arg4 (by decide))),
    (h _ (mem_uc main_arg5 (by decide))).trans (W5_arg m ρ c main_arg5 (by decide) (W4_of_ne m ρ c main_arg5 (by decide))),
    (h _ (mem_uc main_arg6 (by decide))).trans (W5_arg m ρ c main_arg6 (by decide) (W4_of_ne m ρ c main_arg6 (by decide))),
    (h _ (mem_uc main_arg7 (by decide))).trans (W5_arg m ρ c main_arg7 (by decide) (W4_of_ne m ρ c main_arg7 (by decide))),
    (h _ (mem_uc main_arg8 (by decide))).trans (W5_arg m ρ c main_arg8 (by decide) (W4_of_ne m ρ c main_arg8 (by decide))),
    (h _ (mem_uc main_arg9 (by decide))).trans (W5_arg m ρ c main_arg9 (by decide) (W4_of_ne m ρ c main_arg9 (by decide))),
    (h _ (mem_uc main_arg10 (by decide))).trans (W5_arg m ρ c main_arg10 (by decide) (W4_of_ne m ρ c main_arg10 (by decide))),
    (h _ (mem_uc main_arg11 (by decide))).trans (W5_arg m ρ c main_arg11 (by decide) (W4_of_ne m ρ c main_arg11 (by decide))),
    (h _ (mem_uc main_arg12 (by decide))).trans (W5_arg m ρ c main_arg12 (by decide) (W4_of_ne m ρ c main_arg12 (by decide)))⟩

end Cert.KernelIdeal.Hand

end
-- ==== Proof.Spec.lean ====
import Idealize.ShloMosaic.PureOps.Ideal

noncomputable section

namespace Cert.Spec

open Idealize.ShloMosaic
open scoped BigOperators

abbrev eps6 : EReal := Ideal.ofBits .f32 0x358637BD#32
abbrev eps5 : EReal := Ideal.ofBits .f32 0x3727C5AC#32
abbrev c64 : EReal := Ideal.ofBits .f32 0x42800000#32
abbrev c07 : EReal := Ideal.ofBits .f32 0x3F333333#32

-- Features 0..63 from u, 64..127 from v.
def cat (u v : Fin 64 → EReal) (k : Fin 128) : EReal :=
  if h : k.val < 64 then u ⟨k.val, h⟩ else v ⟨k.val - 64, by omega⟩

-- One linear layer with a relu on the joined rows.
def mlp (u v : Fin 64 → EReal) (wt : Fin 128 → Fin 64 → EReal) (b : Fin 64 → EReal) (j : Fin 64) : EReal :=
  max ((∑ k : Fin 128, cat u v k * wt k j) + b j) 0

def mean (h : Fin 64 → EReal) : EReal := Ideal.div (∑ j : Fin 64, h j) c64

def var (h : Fin 64 → EReal) : EReal := Ideal.div (∑ j : Fin 64, (h j - mean h) * (h j - mean h)) c64

-- Layer norm of a row of 64 features.
def ln (g be : Fin 64 → EReal) (h : Fin 64 → EReal) (j : Fin 64) : EReal :=
  Ideal.div (h j - mean h) (Ideal.sqrt (var h + eps5)) * g j + be j

-- What the nodes send edge m: the incidence-weighted sum of their embeddings over the edge's clipped degree.
def emsg (A : Fin 8192 → Fin 4096 → EReal) (x : Fin 8192 → Fin 64 → EReal) (m : Fin 4096) (d : Fin 64) : EReal :=
  Ideal.div (∑ n : Fin 8192, A n m * x n d) (max eps6 (∑ n : Fin 8192, A n m))

-- What the edges send node n.
def nmsg (A : Fin 8192 → Fin 4096 → EReal) (e : Fin 4096 → Fin 64 → EReal) (n : Fin 8192) (d : Fin 64) : EReal :=
  Ideal.div (∑ m : Fin 4096, A n m * e m d) (max eps6 (∑ m : Fin 4096, A n m))

def layerE (A : Fin 8192 → Fin 4096 → EReal) (x : Fin 8192 → Fin 64 → EReal) (e : Fin 4096 → Fin 64 → EReal)
    (wt : Fin 128 → Fin 64 → EReal) (b g be : Fin 64 → EReal) (m : Fin 4096) (j : Fin 64) : EReal :=
  e m j + ln g be (mlp (e m) (emsg A x m) wt b) j

def layerN (A : Fin 8192 → Fin 4096 → EReal) (e : Fin 4096 → Fin 64 → EReal) (x : Fin 8192 → Fin 64 → EReal)
    (wt : Fin 128 → Fin 64 → EReal) (b g be : Fin 64 → EReal) (n : Fin 8192) (j : Fin 64) : EReal :=
  x n j + ln g be (mlp (x n) (nmsg A e n) wt b) j

def dec (e : Fin 4096 → Fin 64 → EReal) (dw : Fin 64 → EReal) (db : EReal) (m : Fin 4096) : EReal :=
  Ideal.logistic (c07 * ((∑ k : Fin 64, e m k * dw k) + db))

-- Edge update, node update, second edge update, logistic read-out of each edge.
def probs (A : Fin 8192 → Fin 4096 → EReal) (x0 : Fin 8192 → Fin 64 → EReal) (e0 : Fin 4096 → Fin 64 → EReal)
    (eW : Fin 2 → Fin 64 → Fin 128 → EReal) (eb eg ebe : Fin 2 → Fin 64 → EReal)
    (nW : Fin 2 → Fin 64 → Fin 128 → EReal) (nb ng nbe : Fin 2 → Fin 64 → EReal)
    (dW : Fin 1 → Fin 64 → EReal) (db : Fin 1 → EReal) (m : Fin 4096) : EReal :=
  let e1 := layerE A x0 e0 (fun k j => eW 0 j k) (eb 0) (eg 0) (ebe 0)
  let x1 := layerN A e1 x0 (fun k j => nW 0 j k) (nb 0) (ng 0) (nbe 0)
  let e2 := layerE A x1 e1 (fun k j => eW 1 j k) (eb 1) (eg 1) (ebe 1)
  dec e2 (dW 0) (db 0) m

end Cert.Spec

end
-- ==== Proof.LibVecRows.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

-- The sum over the second axis, read at row p, is the sum of the row.
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h _ _ (by
    have hz : z.val = 0 := by omega
    rw [Shape.rowMajor_val_one, Shape.rowMajor_val_two]
    show p.val = p.val * 1 + z.val
    rw [hz, Nat.mul_one, Nat.add_zero])

theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.Alg.lean ====
import proofs.«153954_g5892695130345_cont_sun_m_578_38_alg».proof.Proof.Spec
import Idealize.ShloMosaic.PureOps.Ideal.Laws
import Mathlib.Algebra.BigOperators.Fin
import Mathlib.Logic.Equiv.Fin.Basic

noncomputable section

namespace Cert.Alg

open Idealize.ShloMosaic
open scoped BigOperators

theorem ofBits_one : Ideal.ofBits .f32 0x3F800000#32 = 1 := by
  simp [Ideal.ofBits, Ideal.ieee, -EReal.coe_mul]; norm_num

theorem c64_eq : Cert.Spec.c64 = ((64 : ℝ) : EReal) := by
  simp [Cert.Spec.c64, Ideal.ofBits, Ideal.ieee, -EReal.coe_mul]; norm_num

theorem eps5_eq : Cert.Spec.eps5 = ((10995116 * (2 : ℝ) ^ (-40 : ℤ) : ℝ) : EReal) := by
  simp [Cert.Spec.eps5, Ideal.ofBits, Ideal.ieee, -EReal.coe_mul]

theorem eps6_eq : Cert.Spec.eps6 = ((8796093 * (2 : ℝ) ^ (-43 : ℤ) : ℝ) : EReal) := by
  simp [Cert.Spec.eps6, Ideal.ofBits, Ideal.ieee, -EReal.coe_mul]

theorem eps5_pos : (0 : EReal) < Cert.Spec.eps5 := by
  rw [eps5_eq]; exact EReal.coe_pos.2 (by positivity)

theorem eps6_pos : (0 : EReal) < Cert.Spec.eps6 := by
  rw [eps6_eq]; exact EReal.coe_pos.2 (by positivity)

theorem mul_div_one {c : EReal} (hc : c ≠ 0) (x : EReal) : x * Ideal.div 1 c = Ideal.div x c := by
  rw [Ideal.div, Ideal.div, if_neg hc, if_neg hc, one_mul]

theorem max_eps6_ne_zero (d : EReal) : max Cert.Spec.eps6 d ≠ 0 := (lt_max_of_lt_left eps6_pos).ne'

theorem mul_recip_max (x d : EReal) :
    x * Ideal.div (Ideal.ofBits .f32 0x3F800000#32) (max Cert.Spec.eps6 d) = Ideal.div x (max Cert.Spec.eps6 d) := by
  rw [ofBits_one, mul_div_one (max_eps6_ne_zero d)]

-- For a positive radicand the reciprocal root is the inverse of the root.
theorem mul_rsqrt {v : EReal} (hv : 0 < v) (x : EReal) : x * Ideal.rsqrt v = Ideal.div x (Ideal.sqrt v) := by
  induction v using EReal.rec with
  | bot => exact absurd hv (by simp)
  | top => simp [Ideal.div]
  | coe r =>
    have hr : 0 < r := by exact_mod_cast hv
    have hs : 0 < Real.sqrt r := Real.sqrt_pos.2 hr
    rw [Ideal.rsqrt_coe, Ideal.sqrt_coe, if_neg (not_lt.2 hr.le), if_neg hr.ne', if_neg (not_lt.2 hr.le), Ideal.div,
      if_neg (by exact_mod_cast hs.ne'), EReal.coe_inv]

theorem mul_self_nonneg (y : EReal) : 0 ≤ y * y := by
  rw [EReal.mul_nonneg_iff]
  rcases le_total 0 y with h | h
  · exact Or.inl ⟨h, h⟩
  · exact Or.inr ⟨h, h⟩

-- A sum of squares over a positive real is nonnegative.
theorem var_nonneg (h : Fin 64 → EReal) : 0 ≤ Cert.Spec.var h := by
  rw [Cert.Spec.var, c64_eq, Ideal.div, if_neg (by exact_mod_cast (by norm_num : (64 : ℝ) ≠ 0))]
  exact EReal.mul_nonneg (Finset.sum_nonneg fun j _ => mul_self_nonneg _)
    (EReal.inv_nonneg_of_nonneg (by exact_mod_cast (by norm_num : (0 : ℝ) ≤ 64)))

theorem var_add_eps5_pos (h : Fin 64 → EReal) : 0 < Cert.Spec.var h + Cert.Spec.eps5 :=
  eps5_pos.trans_le (le_add_of_nonneg_left (var_nonneg h))

theorem ln_eq (g be h : Fin 64 → EReal) (j : Fin 64) :
    (h j - Cert.Spec.mean h) * Ideal.rsqrt (Cert.Spec.var h + Cert.Spec.eps5) * g j + be j
      = Cert.Spec.ln g be h j := by
  rw [Cert.Spec.ln, mul_rsqrt (var_add_eps5_pos h)]

theorem sum_blocks {M : Type*} [AddCommMonoid M] (a b : ℕ) (f : Fin (a * b) → M) :
    ∑ n, f n = ∑ i : Fin a, ∑ k : Fin b, f (finProdFinEquiv (i, k)) := by
  rw [← Fintype.sum_prod_type' (f := fun i k => f (finProdFinEquiv (i, k)))]
  exact (Equiv.sum_comp finProdFinEquiv f).symm

-- An index below 8192 is 512 t + r with t < 16 and r < 512.
theorem sum_8192 {M : Type*} [AddCommMonoid M] (f : Fin 8192 → M) :
    ∑ n, f n = ∑ i : Fin 16, ∑ k : Fin 512, f ⟨512 * i.val + k.val, by omega⟩ := by
  rw [sum_blocks 16 512 f]
  refine Finset.sum_congr rfl fun i _ => Finset.sum_congr rfl fun k _ => ?_
  congr 1
  apply Fin.ext
  simp [finProdFinEquiv]
  omega

theorem acc_eq_sum {M : Type*} [AddCommMonoid M] (a g : ℕ → M) (n : ℕ) (h0 : a 0 = 0)
    (hs : ∀ t, t < n → a (t + 1) = a t + (0 + g t)) : a n = ∑ i ∈ Finset.range n, g i := by
  induction n with
  | zero => simpa using h0
  | succ n ih =>
    rw [hs n (Nat.lt_succ_self n), ih (fun t ht => hs t (Nat.lt_succ_of_lt ht)), Finset.sum_range_succ, zero_add]

theorem acc_eq_sum_fin {M : Type*} [AddCommMonoid M] (a g : ℕ → M) (n : ℕ) (h0 : a 0 = 0)
    (hs : ∀ t, t < n → a (t + 1) = a t + (0 + g t)) : a n = ∑ i : Fin n, g i.val := by
  rw [acc_eq_sum a g n h0 hs, Finset.sum_range]

-- An accumulator that adds block t one step late, and the last block at the end.
theorem late_acc_eq_sum {M : Type*} [AddCommMonoid M] (b g : ℕ → M) (n : ℕ) (h1 : b 1 = 0)
    (hs : ∀ t, t + 1 < n + 1 → b (t + 2) = b (t + 1) + (0 + g t)) :
    b (n + 1) + (0 + g n) = ∑ i ∈ Finset.range (n + 1), g i := by
  have key : b (n + 1) = ∑ i ∈ Finset.range n, g i :=
    acc_eq_sum (fun t => b (t + 1)) g n h1 (fun t ht => hs t (by omega))
  rw [key, Finset.sum_range_succ, zero_add]

end Cert.Alg

end
-- ==== Proof.K1PayMat.lean ====
import proofs.«153954_g5892695130345_cont_sun_m_578_38_alg».proof.Proof.Gen.KernelIdeal.Skeleton
import proofs.«153954_g5892695130345_cont_sun_m_578_38_alg».proof.Proof.Alg
import proofs.«153954_g5892695130345_cont_sun_m_578_38_alg».proof.Proof.LibVecRows
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand.V1

open Idealize.ShloMosaic Idealize.ShloMosaic.ValueIdx
open scoped BigOperators

theorem coord_congr {n : Fin 2 → ℕ} (i : (a : Fin 2) → Fin (n a)) (p q : ℕ) (hp : p < 2) (hq : q < 2) (h : p = q) :
    (i ⟨p, hp⟩).val = (i ⟨q, hq⟩).val := by subst h; rfl

section Plain
variable {a k b : ℕ} (D : DotDims ⟨2, ![a, k]⟩ ⟨2, ![k, b]⟩ ⟨2, ![a, b]⟩)

theorem lhsIdx_plain_0 (hlb : D.lhsBatch = []) (hln : D.lhsNonContracting = [0])
    (i : (⟨2, ![a, b]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

theorem rhsIdx_plain_1 (hlb : D.lhsBatch = []) (hln : D.lhsNonContracting = [0]) (hrb : D.rhsBatch = [])
    (hrn : D.rhsNonContracting = [1])
    (i : (⟨2, ![a, b]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

-- A plain product into the zero block at (p, q): the sum over r of lhs (p, r) * rhs (r, q).
theorem matmul_zero_ix2 {φ₁ φ₂ : FTy} (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = k)
    (prec : Option ContractPrecision) (lhs : FVec Ideal ⟨2, ![a, k]⟩ φ₁) (rhs : FVec Ideal ⟨2, ![k, b]⟩ φ₂)
    (p : Fin a) (q : Fin b) :
    FloatOps.matmul D prec lhs rhs (constant ⟨2, ![a, b]⟩ .f32 0x00000000#32) (ix2 p q)
      = ∑ r : Fin k, lhs (ix2 p r) * rhs (ix2 r q) := by
  rw [Ideal.matmul_constant_zero_apply, ← Equiv.sum_comp (contrEquiv1 D k hr hs).symm]
  refine Finset.sum_congr rfl fun r _ => ?_
  have hk := contrEquiv1_symm_val D k hr hs r
  have el : D.lhsIdx (ix2 p q) ((contrEquiv1 D k hr hs).symm r) = ix2 p r := funext fun c => Fin.ext (by
    match c with
    | ⟨0, _⟩ => exact lhsIdx_plain_0 D hlb hln _ _
    | ⟨1, _⟩ => exact (D.lhsIdx_val_of_single hlc _ _).trans hk)
  have er : D.rhsIdx (ix2 p q) ((contrEquiv1 D k hr hs).symm r) = ix2 r q := funext fun c => Fin.ext (by
    match c with
    | ⟨0, _⟩ => exact (D.rhsIdx_val_of_single hrc _ _).trans hk
    | ⟨1, _⟩ => exact rhsIdx_plain_1 D hlb hln hrb hrn _ _)
  rw [el, er]

end Plain

end Cert.KernelIdeal.Hand.V1

end
-- ==== Proof.K1PayA.lean ====
import proofs.«153954_g5892695130345_cont_sun_m_578_38_alg».proof.Proof.Gen.KernelIdeal.Skeleton
import proofs.«153954_g5892695130345_cont_sun_m_578_38_alg».proof.Proof.Alg
import proofs.«153954_g5892695130345_cont_sun_m_578_38_alg».proof.Proof.LibVecRows
import proofs.«153954_g5892695130345_cont_sun_m_578_38_alg».proof.Proof.K1PayMat
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand.V1

open Idealize.ShloMosaic Idealize.ShloMosaic.ValueIdx
open Cert.KernelIdeal Cert.KernelIdeal.Gen
open scoped BigOperators

abbrev c65 (d : Fin 64) : Fin 65 := ⟨d.val, by omega⟩
abbrev last65 : Fin 65 := ⟨64, by omega⟩

-- Two blocks side by side read, in the first block's columns, the first block,
theorem concat_cols_left {a n1 n2 n : ℕ} {α : Type} (x1 : (⟨2, ![a, n1]⟩ : Shape).Idx → α) (x2 : (⟨2, ![a, n2]⟩ : Shape).Idx → α)
    (h : Shape.Concatenates [⟨2, ![a, n1]⟩, ⟨2, ![a, n2]⟩] ⟨2, ![a, n]⟩ 1) (p : Fin a) (k : Fin n) (k' : Fin n1) (hk : k'.val = k.val) :
    concatenate ⟨2, ![a, n]⟩ 1 [⟨⟨2, ![a, n1]⟩, x1⟩, ⟨⟨2, ![a, n2]⟩, x2⟩] h (ix2 p k) = x1 (ix2 p k') :=
  concatenate_pair_apply_left 1 x1 x2 h (ix2 p k) rfl (ix2 p k') fun c => by
    match c with
    | ⟨0, _⟩ => rfl
    | ⟨1, _⟩ => exact hk

-- and in the later columns the second block, shifted left by the first block's width.
theorem concat_cols_right {a n1 n2 n : ℕ} {α : Type} (x1 : (⟨2, ![a, n1]⟩ : Shape).Idx → α) (x2 : (⟨2, ![a, n2]⟩ : Shape).Idx → α)
    (h : Shape.Concatenates [⟨2, ![a, n1]⟩, ⟨2, ![a, n2]⟩] ⟨2, ![a, n]⟩ 1) (p : Fin a) (k : Fin n) (k' : Fin n2) (hk : k'.val + n1 = k.val) :
    concatenate ⟨2, ![a, n]⟩ 1 [⟨⟨2, ![a, n1]⟩, x1⟩, ⟨⟨2, ![a, n2]⟩, x2⟩] h (ix2 p k) = x2 (ix2 p k') :=
  concatenate_pair_apply_right 1 x1 x2 h (ix2 p k) rfl rfl (ix2 p k') (fun c hc => by
    match c with
    | ⟨0, _⟩ => rfl
    | ⟨1, _⟩ => exact absurd rfl hc) hk

theorem pay13_eq (v3 : FVec Ideal S512x4096 .f32) : (k1_pay13 (F := Ideal) v3 : S512x4096.Idx → EReal) = v3 := rfl

theorem pay2_eq (v4 : FVec Ideal S512x4096 .bf16) : (k1_pay2 (F := Ideal) v4 : S512x4096.Idx → EReal) = v4 :=
  shapeCast_self _ _

theorem pay12_eq (v74 : FVec Ideal S4096x65 .f32) : (k1_pay12 (F := Ideal) v74 : S4096x65.Idx → EReal) = v74 := by
  unfold k1_pay12
  simp only [shapeCast_self]
  rfl

theorem pay11_apply (i : S65x4096.Idx) : (k1_pay11 (F := Ideal) i : EReal) = 0 := by
  unfold k1_pay11
  simp only [shapeCast_self]
  exact Ideal.ofBits_zero_f32

theorem pay14_apply (v70 : FVec Ideal S65x4096 .f32) (v71 : FVec Ideal S65x512 .bf16) (v72 : FVec Ideal S512x4096 .bf16)
    (d : Fin 65) (m : Fin 4096) :
    (k1_pay14 (F := Ideal) v70 v71 v72 (ix2 d m) : EReal) = v70 (ix2 d m) + ∑ k : Fin 512, v71 (ix2 d k) * v72 (ix2 k m) := by
  unfold k1_pay14
  simp only [shapeCast_self]
  exact congrArg (v70 (ix2 d m) + ·)
    (matmul_zero_ix2 dot_S65x512_S512x4096_S65x4096_1_0_0_1_n_n rfl rfl rfl rfl rfl rfl rfl rfl none v71 v72 d m)

theorem tmp_apply (v3 : FVec Ideal S512x4096 .f32) (v5 : FVec Ideal S4096x65 .bf16) (r : Fin 512) (c : Fin 65) :
    (FloatOps.matmul dot_S512x4096_S4096x65_S512x65_1_0_0_1_n_n none (k1_pay13 (F := Ideal) v3) v5 (constant S512x65 .f32 0x00000000#32) (ix2 r c) : EReal)
      = ∑ m : Fin 4096, v3 (ix2 r m) * v5 (ix2 m c) :=
  matmul_zero_ix2 dot_S512x4096_S4096x65_S512x65_1_0_0_1_n_n rfl rfl rfl rfl rfl rfl rfl rfl none (k1_pay13 (F := Ideal) v3) v5 r c

end Cert.KernelIdeal.Hand.V1

end
-- ==== Proof.K0Pay.lean ====
import proofs.«153954_g5892695130345_cont_sun_m_578_38_alg».proof.Proof.Gen.KernelIdeal.Skeleton
import proofs.«153954_g5892695130345_cont_sun_m_578_38_alg».proof.Proof.Spec
import proofs.«153954_g5892695130345_cont_sun_m_578_38_alg».proof.Proof.LibVecRows
import proofs.«153954_g5892695130345_cont_sun_m_578_38_alg».proof.Proof.Alg
import proofs.«153954_g5892695130345_cont_sun_m_578_38_alg».proof.Proof.K1PayA
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen
open scoped BigOperators

theorem k0_pay1_apply (d : Fin 65) (m : Fin 4096) : (k0_pay1 (F := Ideal)) (ix2 d m) = 0 := by
  unfold k0_pay1
  refine (congrFun (shapeCast_self _ _) _).trans ?_
  exact Ideal.ofBits_zero_f32

-- Rows joined to a column of ones, transposed: entry (d, k) is feature d of row k, and one on row 64.
theorem k0_pay2_apply (x : Vec Ideal S512x64 .f32) (d : Fin 65) (k : Fin 512) :
    k0_pay2 x (ix2 d k) = if h : d.val < 64 then x (ix2 k ⟨d.val, h⟩) else 1 := by
  unfold k0_pay2
  refine (truncf_apply _ bitsLt_bf16_f32 (ix2 d k)).trans ?_
  refine (transpose_ix2_apply _ transposes_S512x65_p1_0_S65x512 d k).trans ?_
  by_cases h : d.val < 64
  · rw [dif_pos h]
    exact V1.concat_cols_left x _ concatenates_S512x64_S512x1_S512x65_d1 k d ⟨d.val, h⟩ rfl
  · rw [dif_neg h]
    refine (V1.concat_cols_right x _ concatenates_S512x64_S512x1_S512x65_d1 k d (0 : Fin 1) ?_).trans Cert.Alg.ofBits_one
    show 0 + 64 = d.val
    have := d.isLt
    omega

-- What was there plus the transposed rows times the half panel.
theorem k0_pay3_apply (a : Vec Ideal S512x2048 .f32) (x : Vec Ideal S512x64 .f32) (s : Vec Ideal S65x2048 .f32)
    (d : Fin 65) (m : Fin 2048) :
    k0_pay3 a x s (ix2 d m) = s (ix2 d m) + ∑ k : Fin 512, k0_pay2 x (ix2 d k) * a (ix2 k m) := by
  unfold k0_pay3
  refine (congrFun (shapeCast_self _ _) _).trans ?_
  show s (ix2 d m) + matmul dot_S65x512_S512x2048_S65x2048_1_0_0_1_n_n none (k0_pay2 x) (truncf .bf16 a bitsLt_bf16_f32)
    (constant (F := Ideal) S65x2048 .f32 0x00000000#32) (ix2 d m) = _
  refine congrArg (s (ix2 d m) + ·) ?_
  exact V1.matmul_zero_ix2 dot_S65x512_S512x2048_S65x2048_1_0_0_1_n_n rfl rfl rfl rfl rfl rfl rfl rfl none (k0_pay2 x)
    (truncf .bf16 a bitsLt_bf16_f32) d m

-- The right half's payload is the same term.
theorem k0_pay4_apply (a : Vec Ideal S512x2048 .f32) (x : Vec Ideal S512x64 .f32) (s : Vec Ideal S65x2048 .f32)
    (d : Fin 65) (m : Fin 2048) :
    k0_pay4 a x s (ix2 d m) = s (ix2 d m) + ∑ k : Fin 512, k0_pay2 x (ix2 d k) * a (ix2 k m) :=
  k0_pay3_apply a x s d m

theorem accT_apply (acc : Vec Ideal S65x4096 .f32) (m : Fin 4096) (d : Fin 65) :
    transpose S4096x65 [1, 0] acc transposes_S65x4096_p1_0_S4096x65 (ix2 m d) = acc (ix2 d m) :=
  transpose_ix2_apply acc transposes_S65x4096_p1_0_S4096x65 m d

end Cert.KernelIdeal.Hand

end
-- ==== Proof.PayCommon.lean ====
import proofs.«153954_g5892695130345_cont_sun_m_578_38_alg».proof.Proof.Spec
import proofs.«153954_g5892695130345_cont_sun_m_578_38_alg».proof.Proof.Alg
import proofs.«153954_g5892695130345_cont_sun_m_578_38_alg».proof.Proof.LibVecRows
import proofs.«153954_g5892695130345_cont_sun_m_578_38_alg».proof.Proof.K1PayA
import Idealize.ShloMosaic.PureOps.Ideal.Laws
import Idealize.ShloMosaic.Lib.ValueIdx
import Idealize.ShloMosaic.Lib.Pipeline.Value
import Idealize.ShloMosaic.Lib.ValueLayout

noncomputable section

namespace Cert.Pay

open Idealize.ShloMosaic Idealize.ShloMosaic.ValueIdx
open scoped BigOperators

variable {a : ℕ}

-- Multiplying by the reciprocal of the clipped column 64 is dividing by it.
theorem msg_apply (T : FVec Ideal ⟨2, ![a, 65]⟩ .f32)
    (h0 : (⟨2, ![a, 65]⟩ : Shape).Slices ![0, 0] ⟨2, ![a, 64]⟩)
    (h64 : (⟨2, ![a, 65]⟩ : Shape).Slices ![0, 64] ⟨2, ![a, 1]⟩)
    (hb : (⟨2, ![a, 1]⟩ : Shape).Broadcasts ⟨2, ![a, 64]⟩) (r : Fin a) (d : Fin 64) :
    mulf (F := Ideal) (extractStridedSlice ⟨2, ![a, 64]⟩ ![0, 0] T h0)
        (broadcastTo ⟨2, ![a, 64]⟩
          (divf (F := Ideal) (φ := .f32) (broadcast ⟨2, ![a, 1]⟩ (Scalar.ofBits (F := Ideal) .f32 0x3F800000#32))
            (maximumf (F := Ideal) (broadcast ⟨2, ![a, 1]⟩ (Scalar.ofBits (F := Ideal) .f32 0x358637BD#32))
              (extractStridedSlice ⟨2, ![a, 1]⟩ ![0, 64] T h64))) hb) (ix2 r d)
      = Ideal.div (T (ix2 r (⟨d.val, by omega⟩ : Fin 65))) (max Cert.Spec.eps6 (T (ix2 r (64 : Fin 65)))) := by
  rw [mulf_apply, Cert.LibVecRows.broadcastTo_col_apply, divf_apply, broadcast_apply, maximumf_apply, broadcast_apply,
    slice2_axis1_apply 0 T h0 r d ⟨d.val, by omega⟩ (Nat.zero_add _).symm,
    slice2_axis1_apply 64 T h64 r (0 : Fin 1) (64 : Fin 65) rfl]
  exact Cert.Alg.mul_recip_max _ _

-- Two blocks of 64 columns side by side, read at a row, are the joined row.
theorem cat_apply (u v : FVec Ideal ⟨2, ![a, 64]⟩ .f32)
    (hc : Shape.Concatenates [(⟨2, ![a, 64]⟩ : Shape), ⟨2, ![a, 64]⟩] ⟨2, ![a, 128]⟩ 1) (r : Fin a) (k : Fin 128) :
    concatenate ⟨2, ![a, 128]⟩ 1 [⟨⟨2, ![a, 64]⟩, u⟩, ⟨⟨2, ![a, 64]⟩, v⟩] hc (ix2 r k)
      = Cert.Spec.cat (fun k => u (ix2 r k)) (fun k => v (ix2 r k)) k := by
  unfold Cert.Spec.cat
  split
  · next hk => exact Cert.KernelIdeal.Hand.V1.concat_cols_left u v hc r k ⟨k.val, hk⟩ rfl
  · next hk => exact Cert.KernelIdeal.Hand.V1.concat_cols_right u v hc r k ⟨k.val - 64, by omega⟩ (by show (k.val - 64) + 64 = k.val; omega)

section Lin
variable {φ₁ φ₂ : FTy} (D : DotDims ⟨2, ![a, 128]⟩ ⟨2, ![128, 64]⟩ ⟨2, ![a, 64]⟩)
  (hlb : D.lhsBatch = []) (hln : D.lhsNonContracting = [0]) (hlc : D.lhsContracting = [1])
  (hrb : D.rhsBatch = []) (hrn : D.rhsNonContracting = [1]) (hrc : D.rhsContracting = [0])
  (hr : D.contr.rank = 1) (hs : D.contr.size ⟨0, by omega⟩ = 128)
include hlb hln hlc hrb hrn hrc hr hs

-- A product with the weight block into zero, plus the bias row, clipped below at zero: the maximum of the row's affine form and zero.
theorem linrelu_apply
    (x : FVec Ideal ⟨2, ![a, 128]⟩ φ₁) (w : FVec Ideal ⟨2, ![128, 64]⟩ φ₂) (b : FVec Ideal ⟨2, ![1, 64]⟩ .f32)
    (hbb : (⟨2, ![1, 64]⟩ : Shape).Broadcasts ⟨2, ![a, 64]⟩) (r : Fin a) (j : Fin 64) :
    maximumf (F := Ideal)
        (addf (F := Ideal) (matmul (F := Ideal) D none x w (constant (F := Ideal) ⟨2, ![a, 64]⟩ .f32 0x00000000#32))
          (broadcastTo ⟨2, ![a, 64]⟩ b hbb))
        (broadcast ⟨2, ![a, 64]⟩ (Scalar.ofBits (F := Ideal) .f32 0x00000000#32)) (ix2 r j)
      = max ((∑ k : Fin 128, x (ix2 r k) * w (ix2 k j)) + b (ix2 (0 : Fin 1) j)) 0 := by
  rw [maximumf_apply, addf_apply, broadcast_apply, broadcastTo_1b_ab_apply]
  simp only [matmul]
  rw [Cert.KernelIdeal.Hand.V1.matmul_zero_ix2 D hlb hln hlc hrb hrn hrc hr hs none x w r j]
  show max _ (Ideal.ofBits .f32 0x00000000#32) = _
  rw [Ideal.ofBits_zero_f32]

theorem mlp_apply
    (u v : FVec Ideal ⟨2, ![a, 64]⟩ .f32) (w : FVec Ideal ⟨2, ![128, 64]⟩ .f32) (b : FVec Ideal ⟨2, ![1, 64]⟩ .f32)
    (hc : Shape.Concatenates [(⟨2, ![a, 64]⟩ : Shape), ⟨2, ![a, 64]⟩] ⟨2, ![a, 128]⟩ 1)
    (hbb : (⟨2, ![1, 64]⟩ : Shape).Broadcasts ⟨2, ![a, 64]⟩) (r : Fin a) (j : Fin 64) :
    maximumf (F := Ideal)
        (addf (F := Ideal)
          (matmul (F := Ideal) D none (concatenate ⟨2, ![a, 128]⟩ 1 [⟨⟨2, ![a, 64]⟩, u⟩, ⟨⟨2, ![a, 64]⟩, v⟩] hc) w
            (constant (F := Ideal) ⟨2, ![a, 64]⟩ .f32 0x00000000#32))
          (broadcastTo ⟨2, ![a, 64]⟩ b hbb))
        (broadcast ⟨2, ![a, 64]⟩ (Scalar.ofBits (F := Ideal) .f32 0x00000000#32)) (ix2 r j)
      = Cert.Spec.mlp (fun k => u (ix2 r k)) (fun k => v (ix2 r k)) (fun k j => w (ix2 k j))
          (fun j => b (ix2 (0 : Fin 1) j)) j := by
  rw [linrelu_apply D hlb hln hlc hrb hrn hrc hr hs _ w b hbb r j]
  unfold Cert.Spec.mlp
  simp only [cat_apply u v hc r]

-- On the extended reals a change of format is the identity.
theorem mlp_narrow_apply
    (u v : FVec Ideal ⟨2, ![a, 64]⟩ .f32) (w : FVec Ideal ⟨2, ![128, 64]⟩ .bf16) (b : FVec Ideal ⟨2, ![1, 64]⟩ .f32)
    (hc : Shape.Concatenates [(⟨2, ![a, 64]⟩ : Shape), ⟨2, ![a, 64]⟩] ⟨2, ![a, 128]⟩ 1)
    (hlt : FTy.bf16.bits < FTy.f32.bits)
    (hbb : (⟨2, ![1, 64]⟩ : Shape).Broadcasts ⟨2, ![a, 64]⟩) (r : Fin a) (j : Fin 64) :
    maximumf (F := Ideal)
        (addf (F := Ideal)
          (matmul (F := Ideal) D none
            (truncf (F := Ideal) .bf16 (concatenate ⟨2, ![a, 128]⟩ 1 [⟨⟨2, ![a, 64]⟩, u⟩, ⟨⟨2, ![a, 64]⟩, v⟩] hc) hlt) w
            (constant (F := Ideal) ⟨2, ![a, 64]⟩ .f32 0x00000000#32))
          (broadcastTo ⟨2, ![a, 64]⟩ b hbb))
        (broadcast ⟨2, ![a, 64]⟩ (Scalar.ofBits (F := Ideal) .f32 0x00000000#32)) (ix2 r j)
      = Cert.Spec.mlp (fun k => u (ix2 r k)) (fun k => v (ix2 r k)) (fun k j => w (ix2 k j))
          (fun j => b (ix2 (0 : Fin 1) j)) j := by
  rw [linrelu_apply D hlb hln hlc hrb hrn hrc hr hs _ w b hbb r j]
  unfold Cert.Spec.mlp
  simp only [truncf_apply, cat_apply u v hc r]

end Lin

section Norm
variable (hrow : Fin 64 → EReal) (h : FVec Ideal ⟨2, ![a, 64]⟩ .f32)
  (hred : (⟨2, ![a, 64]⟩ : Shape).Reduces [1] ⟨1, ![a]⟩) (hφ : FKind.Formats .f32)
  (hacc : (0x00000000#32 : BitVec FTy.f32.bits) = 0x00000000#32)
  (hsc : (⟨1, ![a]⟩ : Shape).ShapeCasts ⟨2, ![a, 1]⟩)

-- The row sums over sixty-four are the rows' means.
theorem mean_apply (r : Fin a) (z : Fin 1) :
    divf (F := Ideal) (φ := .f32)
        (shapeCast ⟨2, ![a, 1]⟩ (multiReduction (F := Ideal) .add [1] ⟨1, ![a]⟩ h 0x00000000#32 hred hφ hacc) hsc)
        (broadcast ⟨2, ![a, 1]⟩ (Scalar.ofBits (F := Ideal) .f32 0x42800000#32)) (ix2 r z)
      = Cert.Spec.mean (fun j => h (ix2 r j)) := by
  rw [divf_apply, broadcast_apply, Cert.LibVecRows.shapeCast_col_apply,
    show multiReduction (F := Ideal) .add [1] ⟨1, ![a]⟩ h 0x00000000#32 hred hφ hacc (ix1 r) = ∑ k : Fin 64, h (ix2 r k) from
      Cert.LibVecRows.multiReduction_rows_apply h 0x00000000#32 hred hφ hacc r]
  rfl

theorem centre_apply (hb : (⟨2, ![a, 1]⟩ : Shape).Broadcasts ⟨2, ![a, 64]⟩) (r : Fin a) (j : Fin 64) :
    subf (F := Ideal) h
        (broadcastTo ⟨2, ![a, 64]⟩
          (divf (F := Ideal) (φ := .f32)
            (shapeCast ⟨2, ![a, 1]⟩ (multiReduction (F := Ideal) .add [1] ⟨1, ![a]⟩ h 0x00000000#32 hred hφ hacc) hsc)
            (broadcast ⟨2, ![a, 1]⟩ (Scalar.ofBits (F := Ideal) .f32 0x42800000#32))) hb) (ix2 r j)
      = h (ix2 r j) - Cert.Spec.mean (fun j => h (ix2 r j)) := by
  rw [subf_apply, Cert.LibVecRows.broadcastTo_col_apply, mean_apply]

theorem sqsum_apply (r : Fin a) (z : Fin 1) :
    shapeCast ⟨2, ![a, 1]⟩ (multiReduction (F := Ideal) .add [1] ⟨1, ![a]⟩ (mulf (F := Ideal) h h) 0x00000000#32 hred hφ hacc)
        hsc (ix2 r z)
      = ∑ j : Fin 64, h (ix2 r j) * h (ix2 r j) := by
  rw [Cert.LibVecRows.shapeCast_col_apply,
    show multiReduction (F := Ideal) .add [1] ⟨1, ![a]⟩ (mulf (F := Ideal) h h) 0x00000000#32 hred hφ hacc (ix1 r)
        = ∑ k : Fin 64, mulf (F := Ideal) h h (ix2 r k) from
      Cert.LibVecRows.multiReduction_rows_apply (mulf (F := Ideal) h h) 0x00000000#32 hred hφ hacc r]
  rfl

-- The reciprocal root of the sum of squared deviations over sixty-four, plus the constant.
theorem rstd_apply (r : Fin a) (z : Fin 1)
    (hd : ∀ j : Fin 64, h (ix2 r j) = hrow j - Cert.Spec.mean hrow) :
    rsqrt (F := Ideal)
        (addf (F := Ideal)
          (divf (F := Ideal) (φ := .f32)
            (shapeCast ⟨2, ![a, 1]⟩
              (multiReduction (F := Ideal) .add [1] ⟨1, ![a]⟩ (mulf (F := Ideal) h h) 0x00000000#32 hred hφ hacc) hsc)
            (broadcast ⟨2, ![a, 1]⟩ (Scalar.ofBits (F := Ideal) .f32 0x42800000#32)))
          (broadcast ⟨2, ![a, 1]⟩ (Scalar.ofBits (F := Ideal) .f32 0x3727C5AC#32))) (ix2 r z)
      = Ideal.rsqrt (Cert.Spec.var hrow + Cert.Spec.eps5) := by
  show Ideal.rsqrt (Ideal.div (shapeCast _ (multiReduction (F := Ideal) .add [1] _ (mulf (F := Ideal) h h) _ hred hφ hacc) hsc (ix2 r z))
    Cert.Spec.c64 + Cert.Spec.eps5) = _
  rw [sqsum_apply]
  simp only [hd]
  rfl

-- Centred block times reciprocal root, times gain, plus bias: the layer norm of the row.
theorem ln_apply (rs : FVec Ideal ⟨2, ![a, 1]⟩ .f32)
    (g be : FVec Ideal ⟨2, ![1, 64]⟩ .f32)
    (hb : (⟨2, ![a, 1]⟩ : Shape).Broadcasts ⟨2, ![a, 64]⟩)
    (hg : (⟨2, ![1, 64]⟩ : Shape).Broadcasts ⟨2, ![a, 64]⟩) (hbe : (⟨2, ![1, 64]⟩ : Shape).Broadcasts ⟨2, ![a, 64]⟩)
    (r : Fin a) (j : Fin 64)
    (hd : h (ix2 r j) = hrow j - Cert.Spec.mean hrow)
    (hrs : rs (ix2 r (0 : Fin 1)) = Ideal.rsqrt (Cert.Spec.var hrow + Cert.Spec.eps5)) :
    addf (F := Ideal)
        (mulf (F := Ideal) (mulf (F := Ideal) h (broadcastTo ⟨2, ![a, 64]⟩ rs hb)) (broadcastTo ⟨2, ![a, 64]⟩ g hg))
        (broadcastTo ⟨2, ![a, 64]⟩ be hbe) (ix2 r j)
      = Cert.Spec.ln (fun j => g (ix2 (0 : Fin 1) j)) (fun j => be (ix2 (0 : Fin 1) j)) hrow j := by
  rw [addf_apply, mulf_apply, mulf_apply, Cert.LibVecRows.broadcastTo_col_apply, broadcastTo_1b_ab_apply,
    broadcastTo_1b_ab_apply, hd, hrs]
  exact Cert.Alg.ln_eq (fun j => g (ix2 (0 : Fin 1) j)) (fun j => be (ix2 (0 : Fin 1) j)) hrow j

end Norm

end Cert.Pay

end
-- ==== Proof.K0PayEp.lean ====
import proofs.«153954_g5892695130345_cont_sun_m_578_38_alg».proof.Proof.K0Pay
import proofs.«153954_g5892695130345_cont_sun_m_578_38_alg».proof.Proof.PayCommon
import proofs.«153954_g5892695130345_cont_sun_m_578_38_alg».proof.Proof.K1PayA

noncomputable section

namespace Cert.KernelIdeal.Hand

open Idealize.ShloMosaic Idealize.ShloMosaic.ValueIdx
open Cert.KernelIdeal Cert.KernelIdeal.Gen
open scoped BigOperators

def emsgK (acc : FVec Ideal S65x4096 .f32) (m : Fin 4096) (d : Fin 64) : EReal :=
  Ideal.div (acc (ix2 (⟨d.val, by omega⟩ : Fin 65) m)) (max Cert.Spec.eps6 (acc (ix2 (64 : Fin 65) m)))

def hrowK (acc : FVec Ideal S65x4096 .f32) (e0 : FVec Ideal S4096x64 .f32) (w : FVec Ideal S128x64 .f32)
    (b : FVec Ideal S1x64 .f32) (m : Fin 4096) : Fin 64 → EReal :=
  Cert.Spec.mlp (fun k => e0 (ix2 m k)) (emsgK acc m) (fun k j => w (ix2 k j)) (fun j => b (ix2 (0 : Fin 1) j))

-- The relu-linear row less its mean.
theorem k0_pay8_apply (acc : Vec Ideal S65x4096 .f32) (e0 : Vec Ideal S4096x64 .f32) (w : Vec Ideal S128x64 .f32)
    (b : Vec Ideal S1x64 .f32) (m : Fin 4096) (j : Fin 64) :
    k0_pay8 acc e0 w b (ix2 m j) = hrowK acc e0 w b m j - Cert.Spec.mean (hrowK acc e0 w b m) := by
  unfold k0_pay8
  refine (Cert.Pay.centre_apply _ reduces_S4096x64_S4096 (.inl rfl) rfl shapeCasts_S4096_S4096x1
    broadcasts_S4096x1_S4096x64 m j).trans ?_
  refine congrArg₂ (· - ·) ?_ (congrArg Cert.Spec.mean (funext fun j' => ?_))
  all_goals
    refine (Cert.Pay.mlp_apply dot_S4096x128_S128x64_S4096x64_1_0_0_1_n_n rfl rfl rfl rfl rfl rfl rfl rfl e0 _ _ _
      concatenates_S4096x64_S4096x64_S4096x128_d1 broadcasts_S1x64_S4096x64 m _).trans ?_
    simp only [shapeCast_self]
    unfold hrowK
    refine congrArg (fun v => Cert.Spec.mlp (fun k => e0 (ix2 m k)) v (fun k j => w (ix2 k j))
      (fun j => b (ix2 (0 : Fin 1) j)) _) (funext fun d => ?_)
    refine (Cert.Pay.msg_apply _ slices_S4096x65_o0_0_S4096x64 slices_S4096x65_o0_64_S4096x1 broadcasts_S4096x1_S4096x64 m d).trans ?_
    unfold emsgK
    rw [accT_apply, accT_apply]

-- The reciprocal root of the row's variance plus the constant.
theorem k0_pay9_apply (acc : Vec Ideal S65x4096 .f32) (e0 : Vec Ideal S4096x64 .f32) (w : Vec Ideal S128x64 .f32)
    (b : Vec Ideal S1x64 .f32) (m : Fin 4096) (z : Fin 1) :
    k0_pay9 acc e0 w b (ix2 m z) = Ideal.rsqrt (Cert.Spec.var (hrowK acc e0 w b m) + Cert.Spec.eps5) := by
  unfold k0_pay9
  exact Cert.Pay.rstd_apply (hrowK acc e0 w b m) (k0_pay8 acc e0 w b) reduces_S4096x64_S4096 (.inl rfl) rfl
    shapeCasts_S4096_S4096x1 m z (fun j => k0_pay8_apply acc e0 w b m j)

-- On the first 64 columns: the edge's embedding plus the layer norm of its row.
theorem k0_pay5_feat (e0 : Vec Ideal S4096x64 .f32) (g be : FVec Ideal S1x64 .f32) (p8 : FVec Ideal S4096x64 .f32)
    (p9 : FVec Ideal S4096x1 .f32) (hrow : Fin 64 → EReal) (m : Fin 4096) (j : Fin 64)
    (hd : p8 (ix2 m j) = hrow j - Cert.Spec.mean hrow)
    (hrs : p9 (ix2 m (0 : Fin 1)) = Ideal.rsqrt (Cert.Spec.var hrow + Cert.Spec.eps5)) :
    k0_pay5 e0 g be p8 p9 (ix2 m (⟨j.val, by omega⟩ : Fin 65))
      = e0 (ix2 m j) + Cert.Spec.ln (fun j => g (ix2 (0 : Fin 1) j)) (fun j => be (ix2 (0 : Fin 1) j)) hrow j := by
  unfold k0_pay5
  refine (V1.concat_cols_left _ _ concatenates_S4096x64_S4096x1_S4096x65_d1 m ⟨j.val, by omega⟩ j rfl).trans ?_
  refine (addf_apply _ _ (ix2 m j)).trans ?_
  exact congrArg (e0 (ix2 m j) + ·)
    (Cert.Pay.ln_apply hrow p8 p9 g be broadcasts_S4096x1_S4096x64 broadcasts_S1x64_S4096x64 broadcasts_S1x64_S4096x64
      m j hd hrs)

theorem k0_pay5_one (e0 : Vec Ideal S4096x64 .f32) (g be : FVec Ideal S1x64 .f32) (p8 : FVec Ideal S4096x64 .f32)
    (p9 : FVec Ideal S4096x1 .f32) (m : Fin 4096) :
    k0_pay5 e0 g be p8 p9 (ix2 m (64 : Fin 65)) = 1 := by
  unfold k0_pay5
  exact (V1.concat_cols_right _ _ concatenates_S4096x64_S4096x1_S4096x65_d1 m (64 : Fin 65) (0 : Fin 1) rfl).trans
    Cert.Alg.ofBits_one

theorem k0_pay6_eq (g : Vec Ideal S1x64 .f32) : k0_pay6 g = g :=
  shapeCast_self _ _
theorem k0_pay7_eq (be : Vec Ideal S1x64 .f32) : k0_pay7 be = be :=
  shapeCast_self _ _

end Cert.KernelIdeal.Hand

end
-- ==== Proof.K0Value.lean ====
import proofs.«153954_g5892695130345_cont_sun_m_578_38_alg».proof.Proof.K0Defs
import proofs.«153954_g5892695130345_cont_sun_m_578_38_alg».proof.Proof.K0Pay
import proofs.«153954_g5892695130345_cont_sun_m_578_38_alg».proof.Proof.K0PayEp
import proofs.«153954_g5892695130345_cont_sun_m_578_38_alg».proof.Proof.Alg
import proofs.«153954_g5892695130345_cont_sun_m_578_38_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev arrA (c : Dev nD) : Vec Ideal S8192x4096 .f32 := V c main_arg0
abbrev arrX (c : Dev nD) : Vec Ideal S8192x64 .f32 := V c main_arg1
abbrev arrE (c : Dev nD) : Vec Ideal S4096x64 .f32 := V c main_arg2
abbrev arrW (c : Dev nD) : Vec Ideal S128x64 .f32 := V c main_v2
abbrev arrB (c : Dev nD) : Vec Ideal S1x64 .f32 := V c main_v5
abbrev arrG (c : Dev nD) : Vec Ideal S1x64 .f32 := V c main_v8
abbrev arrS (c : Dev nD) : Vec Ideal S1x64 .f32 := V c main_v11

theorem lt16 (t : Fin cfg0.N) : t.val < 16 := lt_of_lt_of_eq t.isLt N_0

theorem idx0_0 : ∀ t : Fin cfg0.N, win0_0.index t 0 = t.val ∧ win0_0.index t 1 = 0 :=
  (by decide +kernel : ∀ t : Fin grid0.N, _)
theorem idx0_1 : ∀ t : Fin cfg0.N, win0_1.index t 0 = t.val ∧ win0_1.index t 1 = 1 :=
  (by decide +kernel : ∀ t : Fin grid0.N, _)
theorem off1_eq : ∀ t : Fin cfg0.N, k0_off1 (grid0.coords t) 0 = 512 * t.val ∧ k0_off1 (grid0.coords t) 1 = 0 :=
  (by decide +kernel : ∀ t : Fin grid0.N, _)

-- A block at block row 0 and block column 0 starts at offset zero on both axes.
theorem offs0 (ix sz : Fin 2 → ℕ) (h : ix (0 : Fin 2) = 0 ∧ ix (1 : Fin 2) = 0) : (fun a => ix a * sz a) = fun _ => 0 :=
  funext fun a => by
    match a with
    | ⟨0, _⟩ => show ix 0 * sz 0 = 0; rw [h.1, Nat.zero_mul]
    | ⟨1, _⟩ => show ix 1 * sz 1 = 0; rw [h.2, Nat.zero_mul]

theorem panL_apply (c : Dev nD) (t : Fin cfg0.N) (k : Fin 512) (m : Fin 2048) :
    panL V c t (ix2 k m)
      = arrA V c (ix2 ⟨512 * t.val + k.val, by have := lt16 t; omega⟩ ⟨m.val, by omega⟩) := by
  show ((cfg0.win 0).blk t).view.read (Elt Ideal) (V c (Pipeline.arrRef spec0 0)) (ix2 k m) = _
  rw [View.read_apply]
  show V c main_arg0 _ = V c main_arg0 _
  congr 1
  funext a
  apply Fin.ext
  match a with
  | ⟨0, _⟩ => show win0_0.index t 0 * 512 + 1 * k.val = 512 * t.val + k.val; rw [(idx0_0 t).1]; omega
  | ⟨1, _⟩ => show win0_0.index t 1 * 2048 + 1 * m.val = m.val; rw [(idx0_0 t).2]; omega

theorem panR_apply (c : Dev nD) (t : Fin cfg0.N) (k : Fin 512) (m : Fin 2048) :
    panR V c t (ix2 k m)
      = arrA V c (ix2 ⟨512 * t.val + k.val, by have := lt16 t; omega⟩ ⟨2048 + m.val, by omega⟩) := by
  show ((cfg0.win 1).blk t).view.read (Elt Ideal) (V c (Pipeline.arrRef spec0 1)) (ix2 k m) = _
  rw [View.read_apply]
  show V c main_arg0 _ = V c main_arg0 _
  congr 1
  funext a
  apply Fin.ext
  match a with
  | ⟨0, _⟩ => show win0_1.index t 0 * 512 + 1 * k.val = 512 * t.val + k.val; rw [(idx0_1 t).1]; omega
  | ⟨1, _⟩ => show win0_1.index t 1 * 2048 + 1 * m.val = 2048 + m.val; rw [(idx0_1 t).2]; omega

theorem nodes_eq (c : Dev nD) (t : Fin cfg0.N) : nodes V c t = arrX V c :=
  Memref.read_access_unit_zero (Elt Ideal) main_arg1 (offs0 (win0_2.index t) _ (by decide +kernel +revert)) _ _

theorem rows_apply (c : Dev nD) (t : Fin cfg0.N) (k : Fin 512) (d : Fin 64) :
    View.ld (nodes V c t) (rows0 (grid0.coords t)) (ix2 k d)
      = arrX V c (ix2 ⟨512 * t.val + k.val, by have := lt16 t; omega⟩ d) := by
  rw [nodes_eq]
  show arrX V c ((rows0 (grid0.coords t)).idx (ix2 k d)) = _
  congr 1
  funext a
  apply Fin.ext
  match a with
  | ⟨0, _⟩ => show k0_off1 (grid0.coords t) 0 + 1 * k.val = 512 * t.val + k.val; rw [(off1_eq t).1]; omega
  | ⟨1, _⟩ => show k0_off1 (grid0.coords t) 1 + 1 * d.val = d.val; rw [(off1_eq t).2]; omega

def xT (c : Dev nD) (d : Fin 65) (n : Fin 8192) : EReal :=
  if h : d.val < 64 then arrX V c (ix2 n ⟨d.val, h⟩) else 1

theorem canon_two_of_not_mem {Val : EltTy → Type} [∀ e, Nonempty (Val e)] {S : Shape} {e : EltTy}
    (r₁ r₂ : Rect S) (w₁ : r₁.shape.Idx → Val e) (w₂ : r₂.shape.Idx → Val e) (y : S.Idx) (x : r₂.shape.Idx)
    (hy : y = r₂.emb x) (hn : y ∉ r₁.set) :
    View.canon [(⟨r₁, w₁⟩ : View.Piece Val S e), ⟨r₂, w₂⟩] y = w₂ x := by
  rw [View.canon_cons_of_not_mem (⟨r₁, w₁⟩ : View.Piece Val S e) [⟨r₂, w₂⟩] hn, hy]
  exact View.canon_cons_emb r₂ w₂ [] x

theorem step0_left (c : Dev nD) (t : Fin cfg0.N) (base : Vec Ideal S65x4096 .f32) (d : Fin 65) (m : Fin 2048) :
    step0 V c t base (ix2 d (⟨m.val, by omega⟩ : Fin 4096))
      = k0_pay3 (panL V c t) (View.ld (nodes V c t) (rows0 (grid0.coords t))) (View.ld base rL) (ix2 d m) := by
  have e : (ix2 d (⟨m.val, by omega⟩ : Fin 4096) : S65x4096.Idx) = rL.emb (ix2 d m) := by
    funext a
    apply Fin.ext
    match a with
    | ⟨0, _⟩ => show d.val = 0 + 1 * d.val; omega
    | ⟨1, _⟩ => show m.val = 0 + 1 * m.val; omega
  have hn : (ix2 d (⟨m.val, by omega⟩ : Fin 4096) : S65x4096.Idx) ∉ rR.set := by
    rw [Rect.mem_set_unit]
    intro h
    have h1 : 2048 ≤ m.val := (h 1).1
    omega
  unfold step0
  exact canon_two_of_not_mem rR rL _ _ _ (ix2 d m) e hn

theorem step0_right (c : Dev nD) (t : Fin cfg0.N) (base : Vec Ideal S65x4096 .f32) (d : Fin 65) (m : Fin 2048) :
    step0 V c t base (ix2 d (⟨2048 + m.val, by omega⟩ : Fin 4096))
      = k0_pay4 (panR V c t) (View.ld (nodes V c t) (rows0 (grid0.coords t))) (View.ld base rR) (ix2 d m) := by
  have e : (ix2 d (⟨2048 + m.val, by omega⟩ : Fin 4096) : S65x4096.Idx) = rR.emb (ix2 d m) := by
    funext a
    apply Fin.ext
    match a with
    | ⟨0, _⟩ => show d.val = 0 + 1 * d.val; omega
    | ⟨1, _⟩ => show 2048 + m.val = 2048 + 1 * m.val; omega
  unfold step0
  rw [e]
  exact View.canon_cons_emb rR _ _ (ix2 d m)

-- The transposed rows of panel t at (d, k): feature d of node 512 t + k below row 64, and one on row 64.
theorem pay2_rows (c : Dev nD) (t : Fin cfg0.N) (d : Fin 65) (k : Fin 512) :
    k0_pay2 (View.ld (nodes V c t) (rows0 (grid0.coords t))) (ix2 d k)
      = xT V c d ⟨512 * t.val + k.val, by have := lt16 t; omega⟩ := by
  rw [k0_pay2_apply]
  unfold xT
  by_cases hd : d.val < 64
  · rw [dif_pos hd, dif_pos hd, rows_apply]
  · rw [dif_neg hd, dif_neg hd]

-- One point adds, at (d, m), the sum over the panel's 512 nodes of the transposed feature times the incidence entry.
theorem step0_apply (c : Dev nD) (t : Fin cfg0.N) (base : Vec Ideal S65x4096 .f32) (d : Fin 65) (m : Fin 4096) :
    step0 V c t base (ix2 d m)
      = base (ix2 d m) + ∑ k : Fin 512, xT V c d ⟨512 * t.val + k.val, by have := lt16 t; omega⟩
          * arrA V c (ix2 ⟨512 * t.val + k.val, by have := lt16 t; omega⟩ m) := by
  by_cases hm : m.val < 2048
  · refine (step0_left V c t base d ⟨m.val, hm⟩).trans ?_
    refine (k0_pay3_apply (panL V c t) (View.ld (nodes V c t) (rows0 (grid0.coords t))) (View.ld base rL) d ⟨m.val, hm⟩).trans ?_
    refine congrArg₂ (· + ·) (congrArg base ?_) (Finset.sum_congr rfl fun k _ => by rw [pay2_rows, panL_apply] <;> rfl)
    funext a
    apply Fin.ext
    match a with
    | ⟨0, _⟩ => show 0 + 1 * d.val = d.val; omega
    | ⟨1, _⟩ => show 0 + 1 * m.val = m.val; omega
  · have hm' : m.val - 2048 < 2048 := by have := m.isLt; omega
    have em : m = (⟨2048 + (⟨m.val - 2048, hm'⟩ : Fin 2048).val, by have := m.isLt; show 2048 + (m.val - 2048) < 4096; omega⟩ : Fin 4096) :=
      Fin.ext (by show m.val = 2048 + (m.val - 2048); omega)
    rw [em]
    refine (step0_right V c t base d ⟨m.val - 2048, hm'⟩).trans ?_
    refine (k0_pay4_apply (panR V c t) (View.ld (nodes V c t) (rows0 (grid0.coords t))) (View.ld base rR) d ⟨m.val - 2048, hm'⟩).trans ?_
    refine congrArg₂ (· + ·) (congrArg base ?_) (Finset.sum_congr rfl fun k _ => by rw [pay2_rows, panR_apply] <;> rfl)
    funext a
    apply Fin.ext
    match a with
    | ⟨0, _⟩ => show 0 + 1 * d.val = d.val; omega
    | ⟨1, _⟩ => show 2048 + 1 * (m.val - 2048) = 2048 + (m.val - 2048); omega

-- Sixteen panels added one by one from zero give the sum over all 8192 nodes.
theorem acc0_apply (c : Dev nD) (d : Fin 65) (m : Fin 4096) :
    acc0 V c 16 (ix2 d m) = ∑ n : Fin 8192, xT V c d n * arrA V c (ix2 n m) := by
  have key := Cert.Alg.acc_eq_sum_fin (fun t => acc0 V c t (ix2 d m))
    (fun t => if h : t < 16 then ∑ k : Fin 512, xT V c d ⟨512 * t + k.val, by omega⟩
        * arrA V c (ix2 ⟨512 * t + k.val, by omega⟩ m) else 0) 16
    (by show acc0 V c 0 (ix2 d m) = 0; rw [acc0_zero]; exact k0_pay1_apply d m)
    (fun t ht => by
      show acc0 V c (t + 1) (ix2 d m) = acc0 V c t (ix2 d m) + (0 + _)
      rw [show acc0 V c (t + 1) = step0 V c ⟨t, lt_of_lt_of_eq ht N_0.symm⟩ (acc0 V c t) from
        acc0_succ V c ⟨t, lt_of_lt_of_eq ht N_0.symm⟩, step0_apply, zero_add, dif_pos ht])
  refine key.trans ?_
  rw [Cert.Alg.sum_8192 fun n => xT V c d n * arrA V c (ix2 n m)]
  exact Finset.sum_congr rfl fun i _ => dif_pos i.isLt

theorem edges_eq (c : Dev nD) (t : Fin cfg0.N) : edges V c t = arrE V c :=
  Memref.read_access_unit_zero (Elt Ideal) main_arg2 (offs0 (win0_3.index t) _ (by decide +kernel +revert)) _ _

theorem wgt_eq (c : Dev nD) (t : Fin cfg0.N) : wgt V c t = arrW V c :=
  Memref.read_access_unit_zero (Elt Ideal) main_v2 (offs0 (win0_4.index t) _ (by decide +kernel +revert)) _ _

theorem bias_eq (c : Dev nD) (t : Fin cfg0.N) : bias V c t = arrB V c :=
  Memref.read_access_unit_zero (Elt Ideal) main_v5 (offs0 (win0_5.index t) _ (by decide +kernel +revert)) _ _

theorem gain_eq (c : Dev nD) (t : Fin cfg0.N) : gain V c t = arrG V c :=
  Memref.read_access_unit_zero (Elt Ideal) main_v8 (offs0 (win0_6.index t) _ (by decide +kernel +revert)) _ _

theorem shift_eq (c : Dev nD) (t : Fin cfg0.N) : shift V c t = arrS V c :=
  Memref.read_access_unit_zero (Elt Ideal) main_v11 (offs0 (win0_7.index t) _ (by decide +kernel +revert)) _ _

theorem flushed8_eq (c : Dev nD) (t : Fin cfg0.N) (hf : (cfg0.win 8).flush t = true) :
    (dat0 V c).flushed 8 t = ((cfg0.win 8).blk t).view.read (Elt Ideal) (out0 V c) := by
  have h15 : t = t0_15 := Fin.ext (by
    have h1 := (flush0_8 t).mp hf
    have h2 := lt16 t
    show t.val = 15
    omega)
  subst h15
  show (cfg0.win 8).cut (grid0.coords t0_15) ((dat0 V c).after 8 t0_15) = _
  rw [after0_8]
  have hz' : (fun a => win0_8.index t0_15 a * main_v12.ty.shape.size a) = fun _ => 0 :=
    funext fun a => by fin_cases a <;> decide
  exact (Memref.read_access_unit_zero (Elt Ideal) main_v12 hz' _ _).symm

theorem cover8 (i : S4096x65.Idx) :
    ∃ t : Fin cfg0.N, (cfg0.win 8).flush t = true ∧ i ∈ ((cfg0.win 8).blk t).view.set := by
  refine ⟨t0_15, (flush0_8 t0_15).mpr (by decide), ?_⟩
  show i ∈ ((View.whole main_v12).slice (win0_8.rect t0_15)).set
  rw [View.set_slice_whole, Rect.mem_set_unit]
  intro a
  have h : ∀ a, win0_8.index t0_15 a * win0_8.size a = 0 ∧ win0_8.xsize (grid0.coords t0_15) a = S4096x65.size a := by
    decide +kernel
  show win0_8.index t0_15 a * win0_8.size a ≤ (i a : ℕ)
    ∧ (i a : ℕ) < win0_8.index t0_15 a * win0_8.size a + win0_8.xsize (grid0.coords t0_15) a
  rw [(h a).1, (h a).2, Nat.zero_add]
  exact ⟨Nat.zero_le _, (i a).isLt⟩

theorem arrAt8_eq (c : Dev nD) : (dat0 V c).arrAt 8 cfg0.N = out0 V c :=
  (dat0 V c).arrAt_eq_of_cover 8 (out0 V c) (flushed8_eq V c) cover8

-- A product commutes and the row of ones leaves the incidence entries as they are.
theorem emsgK_acc (c : Dev nD) (m : Fin 4096) :
    emsgK (acc0 V c 16) m
      = Cert.Spec.emsg (fun n k => arrA V c (ix2 n k)) (fun n d => arrX V c (ix2 n d)) m := by
  funext d
  unfold emsgK Cert.Spec.emsg
  rw [acc0_apply, acc0_apply]
  refine congrArg₂ Ideal.div (Finset.sum_congr rfl fun n _ => ?_)
    (congrArg (max Cert.Spec.eps6) (Finset.sum_congr rfl fun n _ => ?_))
  · unfold xT
    rw [dif_pos (show (⟨d.val, by omega⟩ : Fin 65).val < 64 from d.isLt)]
    exact mul_comm _ _
  · unfold xT
    rw [dif_neg (by decide : ¬ (64 : Fin 65).val < 64)]
    exact one_mul _

-- The first 64 columns are the specification's edge update.
theorem out0_feat (c : Dev nD) (m : Fin 4096) (j : Fin 64) :
    out0 V c (ix2 m (⟨j.val, by omega⟩ : Fin 65))
      = Cert.Spec.layerE (fun n k => arrA V c (ix2 n k)) (fun n d => arrX V c (ix2 n d))
          (fun e d => arrE V c (ix2 e d)) (fun k j => arrW V c (ix2 k j)) (fun j => arrB V c (ix2 (0 : Fin 1) j))
          (fun j => arrG V c (ix2 (0 : Fin 1) j)) (fun j => arrS V c (ix2 (0 : Fin 1) j)) m j := by
  unfold out0
  rw [k0_pay6_eq, k0_pay7_eq, edges_eq, wgt_eq, bias_eq, gain_eq, shift_eq]
  refine (k0_pay5_feat (arrE V c) (arrG V c) (arrS V c) _ _
    (hrowK (acc0 V c 16) (arrE V c) (arrW V c) (arrB V c) m) m j
    (k0_pay8_apply (acc0 V c 16) (arrE V c) (arrW V c) (arrB V c) m j)
    (k0_pay9_apply (acc0 V c 16) (arrE V c) (arrW V c) (arrB V c) m 0)).trans ?_
  unfold Cert.Spec.layerE hrowK
  rw [emsgK_acc]

theorem out0_one (c : Dev nD) (m : Fin 4096) : out0 V c (ix2 m (64 : Fin 65)) = 1 := by
  unfold out0
  exact k0_pay5_one _ _ _ _ _ m

theorem arrAt0_8_apply (V : (c : Dev nD) → (b : Ref sig .tc) → Buf (Elt Ideal) ((c : Thread nD τ).loc b)) (c : Dev nD)
    (m : Fin 4096) (j : Fin 65) :
    ((dat0 (F := Ideal) V c).arrAt 8 cfg0.N : S4096x65.Idx → EReal) (ix2 m j)
      = if h : j.val < 64 then
          Cert.Spec.layerE (fun n k => (V c main_arg0 : S8192x4096.Idx → EReal) (ix2 n k))
            (fun n d => (V c main_arg1 : S8192x64.Idx → EReal) (ix2 n d))
            (fun e d => (V c main_arg2 : S4096x64.Idx → EReal) (ix2 e d))
            (fun k j => (V c main_v2 : S128x64.Idx → EReal) (ix2 k j))
            (fun j => (V c main_v5 : S1x64.Idx → EReal) (ix2 0 j))
            (fun j => (V c main_v8 : S1x64.Idx → EReal) (ix2 0 j))
            (fun j => (V c main_v11 : S1x64.Idx → EReal) (ix2 0 j)) m ⟨j.val, h⟩
        else 1 := by
  rw [arrAt8_eq V c]
  by_cases h : j.val < 64
  · rw [dif_pos h]
    exact out0_feat V c m ⟨j.val, h⟩
  · rw [dif_neg h]
    have e : j = (64 : Fin 65) := Fin.ext (by have := j.isLt; show j.val = 64; omega)
    rw [e]
    exact out0_one V c m

end Cert.KernelIdeal.Hand

end
-- ==== Proof.K1Blocks.lean ====
import proofs.«153954_g5892695130345_cont_sun_m_578_38_alg».proof.Proof.K1Defs
import Idealize.ShloMosaic.Lib.ValueIdx
import Idealize.ShloMosaic.Lib.Pipeline.Value

noncomputable section

namespace Cert.KernelIdeal.Hand.R1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem idx1_0 : ∀ t : Fin cfg1.N, win1_0.index t (0 : Fin 2) = t.val ∧ win1_0.index t (1 : Fin 2) = 0 :=
  (by decide +kernel : ∀ t : Fin grid1.N, _)

-- Panel t holds rows 512 t to 512 t + 511 of the incidence array.
theorem bA_apply (t : Fin cfg1.N) (r : Fin 512) (m : Fin 4096) (n : Fin 8192) (hn : n.val = 512 * t.val + r.val) :
    (bA V c t (ix2 r m) : EReal) = (V c main_arg0 : S8192x4096.Idx → EReal) (ix2 n m) := by
  show ((cfg1.win 0).blk t).view.read (Elt Ideal) (V c (Pipeline.arrRef spec1 0)) (ix2 r m) = _
  rw [View.read_apply]
  show (V c main_arg0 : S8192x4096.Idx → EReal) _ = _
  congr 1
  funext a
  apply Fin.ext
  match a with
  | ⟨0, _⟩ => show win1_0.index t 0 * 512 + 1 * r.val = n.val; rw [(idx1_0 t).1, hn]; omega
  | ⟨1, _⟩ => show win1_0.index t 1 * 4096 + 1 * m.val = m.val; rw [(idx1_0 t).2]; omega

-- A block at block row 0 and block column 0 starts at offset zero on both axes.
theorem offs_zero (ix sz : Fin 2 → ℕ) (h : ix (0 : Fin 2) = 0 ∧ ix (1 : Fin 2) = 0) : (fun a => ix a * sz a) = fun _ => 0 :=
  funext fun a => by
    match a with
    | ⟨0, _⟩ => show ix 0 * sz 0 = 0; rw [h.1, Nat.zero_mul]
    | ⟨1, _⟩ => show ix 1 * sz 1 = 0; rw [h.2, Nat.zero_mul]

theorem bX_eq (t : Fin cfg1.N) : (bX V c t : S8192x64.Idx → EReal) = (V c main_arg1 : S8192x64.Idx → EReal) :=
  Memref.read_access_unit_zero (Elt Ideal) main_arg1 (offs_zero (win1_1.index t) _ (by decide +kernel +revert)) _ _

theorem bE_eq (t : Fin cfg1.N) : (bE V c t : S4096x65.Idx → EReal) = (V c main_v12 : S4096x65.Idx → EReal) :=
  Memref.read_access_unit_zero (Elt Ideal) main_v12 (offs_zero (win1_2.index t) _ (by decide +kernel +revert)) _ _

theorem bNW_eq (t : Fin cfg1.N) : (bNW V c t : S128x64.Idx → EReal) = (V c main_v16 : S128x64.Idx → EReal) :=
  Memref.read_access_unit_zero (Elt Ideal) main_v16 (offs_zero (win1_3.index t) _ (by decide +kernel +revert)) _ _

theorem bNb_eq (t : Fin cfg1.N) : (bNb V c t : S1x64.Idx → EReal) = (V c main_v19 : S1x64.Idx → EReal) :=
  Memref.read_access_unit_zero (Elt Ideal) main_v19 (offs_zero (win1_4.index t) _ (by decide +kernel +revert)) _ _

theorem bNg_eq (t : Fin cfg1.N) : (bNg V c t : S1x64.Idx → EReal) = (V c main_v22 : S1x64.Idx → EReal) :=
  Memref.read_access_unit_zero (Elt Ideal) main_v22 (offs_zero (win1_5.index t) _ (by decide +kernel +revert)) _ _

theorem bNbe_eq (t : Fin cfg1.N) : (bNbe V c t : S1x64.Idx → EReal) = (V c main_v25 : S1x64.Idx → EReal) :=
  Memref.read_access_unit_zero (Elt Ideal) main_v25 (offs_zero (win1_6.index t) _ (by decide +kernel +revert)) _ _

theorem bEW_eq (t : Fin cfg1.N) : (bEW V c t : S128x64.Idx → EReal) = (V c main_v28 : S128x64.Idx → EReal) :=
  Memref.read_access_unit_zero (Elt Ideal) main_v28 (offs_zero (win1_7.index t) _ (by decide +kernel +revert)) _ _

theorem bEb_eq (t : Fin cfg1.N) : (bEb V c t : S1x64.Idx → EReal) = (V c main_v31 : S1x64.Idx → EReal) :=
  Memref.read_access_unit_zero (Elt Ideal) main_v31 (offs_zero (win1_8.index t) _ (by decide +kernel +revert)) _ _

theorem bEg_eq (t : Fin cfg1.N) : (bEg V c t : S1x64.Idx → EReal) = (V c main_v34 : S1x64.Idx → EReal) :=
  Memref.read_access_unit_zero (Elt Ideal) main_v34 (offs_zero (win1_9.index t) _ (by decide +kernel +revert)) _ _

theorem bEbe_eq (t : Fin cfg1.N) : (bEbe V c t : S1x64.Idx → EReal) = (V c main_v37 : S1x64.Idx → EReal) :=
  Memref.read_access_unit_zero (Elt Ideal) main_v37 (offs_zero (win1_10.index t) _ (by decide +kernel +revert)) _ _

theorem bDw_eq (t : Fin cfg1.N) : (bDw V c t : S64x1.Idx → EReal) = (V c main_v38 : S64x1.Idx → EReal) :=
  Memref.read_access_unit_zero (Elt Ideal) main_v38 (offs_zero (win1_11.index t) _ (by decide +kernel +revert)) _ _

theorem bDb_eq (t : Fin cfg1.N) : (bDb V c t : S1x1.Idx → EReal) = (V c main_v39 : S1x1.Idx → EReal) :=
  Memref.read_access_unit_zero (Elt Ideal) main_v39 (offs_zero (win1_12.index t) _ (by decide +kernel +revert)) _ _

theorem off1_facts : ∀ t : Fin cfg1.N, k1_off1 (grid1.coords t) (0 : Fin 2) = 512 * t.val ∧ k1_off1 (grid1.coords t) (1 : Fin 2) = 0 :=
  (by decide +kernel : ∀ t : Fin grid1.N, _)

-- Likewise for the panel's rows of the node embeddings.
theorem xrows_apply (t : Fin cfg1.N) (r : Fin 512) (j : Fin 64) (n : Fin 8192) (hn : n.val = 512 * t.val + r.val) :
    (xrows V c t (ix2 r j) : EReal) = (V c main_arg1 : S8192x64.Idx → EReal) (ix2 n j) := by
  show (bX V c t : S8192x64.Idx → EReal) ((rowsR t).idx (ix2 r j)) = _
  rw [bX_eq]
  congr 1
  funext a
  apply Fin.ext
  match a with
  | ⟨0, _⟩ => show k1_off1 (grid1.coords t) 0 + 1 * r.val = n.val; rw [(off1_facts t).1, hn]; omega
  | ⟨1, _⟩ => show k1_off1 (grid1.coords t) 1 + 1 * j.val = j.val; rw [(off1_facts t).2]; omega

end Cert.KernelIdeal.Hand.R1

end
-- ==== Proof.K1PayB.lean ====
import proofs.«153954_g5892695130345_cont_sun_m_578_38_alg».proof.Proof.Gen.KernelIdeal.Skeleton
import proofs.«153954_g5892695130345_cont_sun_m_578_38_alg».proof.Proof.Alg
import proofs.«153954_g5892695130345_cont_sun_m_578_38_alg».proof.Proof.LibVecRows
import proofs.«153954_g5892695130345_cont_sun_m_578_38_alg».proof.Proof.K1PayA
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand.V1

open Idealize.ShloMosaic Idealize.ShloMosaic.ValueIdx Cert.LibVecRows
open Cert.KernelIdeal Cert.KernelIdeal.Gen
open scoped BigOperators

theorem logistic_apply {s : Shape} {φ : FTy} (x : FVec Ideal s φ) (i : s.Idx) : logistic x i = Ideal.logistic (x i) := rfl

variable (v20 v31 : FVec Ideal S512x64 .f32) (v33 v34 : FVec Ideal S1x64 .f32)
  (v84 : FVec Ideal S4096x64 .f32) (v96 v98 : FVec Ideal S1x64 .f32) (v104 : FVec Ideal S4096x64 .f32)
  (v107 v108 : FVec Ideal S4096x1 .f32) (v120 : FVec Ideal S64x1 .f32) (v123 : FVec Ideal S1x1 .f32)

def lnN : FVec Ideal S512x64 .f32 :=
  have v35 : FVec Ideal S1x64 .f32 := shapeCast S1x64 v34 shapeCasts_S1x64_S1x64
  have v36 : FVec Ideal S512 .f32 := multiReduction .add [1] S512 v31 0x00000000#32 reduces_S512x64_S512 (.inl rfl) rfl
  have v37 : FVec Ideal S512x1 .f32 := shapeCast S512x1 v36 shapeCasts_S512_S512x1
  have cst_20 : Ideal .f32 := Scalar.ofBits .f32 0x42800000#32
  have v38 : FVec Ideal S512x1 .f32 := broadcast S512x1 cst_20
  have v39 : FVec Ideal S512x1 .f32 := divf v37 v38
  have v40 : FVec Ideal S512x64 .f32 := broadcastTo S512x64 v39 broadcasts_S512x1_S512x64
  have v41 : FVec Ideal S512x64 .f32 := subf v31 v40
  have v42 : FVec Ideal S512x64 .f32 := mulf v41 v41
  have v43 : FVec Ideal S512 .f32 := multiReduction .add [1] S512 v42 0x00000000#32 reduces_S512x64_S512 (.inl rfl) rfl
  have v44 : FVec Ideal S512x1 .f32 := shapeCast S512x1 v43 shapeCasts_S512_S512x1
  have cst_22 : Ideal .f32 := Scalar.ofBits .f32 0x42800000#32
  have v45 : FVec Ideal S512x1 .f32 := broadcast S512x1 cst_22
  have v46 : FVec Ideal S512x1 .f32 := divf v44 v45
  have cst_23 : Ideal .f32 := Scalar.ofBits .f32 0x3727C5AC#32
  have v47 : FVec Ideal S512x1 .f32 := broadcast S512x1 cst_23
  have v48 : FVec Ideal S512x1 .f32 := addf v46 v47
  have v49 : FVec Ideal S512x1 .f32 := rsqrt v48
  have v50 : FVec Ideal S512x64 .f32 := broadcastTo S512x64 v49 broadcasts_S512x1_S512x64
  have v51 : FVec Ideal S512x64 .f32 := mulf v41 v50
  have v52 : FVec Ideal S512x64 .f32 := broadcastTo S512x64 v33 broadcasts_S1x64_S512x64
  have v53 : FVec Ideal S512x64 .f32 := mulf v51 v52
  have v54 : FVec Ideal S512x64 .f32 := broadcastTo S512x64 v35 broadcasts_S1x64_S512x64
  have v55 : FVec Ideal S512x64 .f32 := addf v53 v54
  v55

theorem pay1_eq :
    (k1_pay1 (F := Ideal) v20 v31 v33 v34 : S65x512.Idx → EReal)
      = transpose S65x512 [1, 0] (concatenate S512x65 1 [⟨S512x64, addf v20 (lnN v31 v33 v34)⟩,
          ⟨S512x1, broadcast S512x1 (Scalar.ofBits (F := Ideal) .f32 0x3F800000#32)⟩] concatenates_S512x64_S512x1_S512x65_d1)
          transposes_S512x65_p1_0_S65x512 := rfl

-- Feature d of node r: the node's embedding plus its update.
theorem pay1_apply_lt (d : Fin 64) (r : Fin 512) :
    (k1_pay1 (F := Ideal) v20 v31 v33 v34 (ix2 (c65 d) r) : EReal) = v20 (ix2 r d) + lnN v31 v33 v34 (ix2 r d) := by
  rw [pay1_eq, transpose_ix2_apply _ transposes_S512x65_p1_0_S65x512 (c65 d) r,
    concat_cols_left _ _ concatenates_S512x64_S512x1_S512x65_d1 r (c65 d) d rfl]
  rfl

theorem pay1_apply_last (r : Fin 512) :
    (k1_pay1 (F := Ideal) v20 v31 v33 v34 (ix2 last65 r) : EReal) = 1 := by
  rw [pay1_eq, transpose_ix2_apply _ transposes_S512x65_p1_0_S65x512 last65 r,
    concat_cols_right _ _ concatenates_S512x64_S512x1_S512x65_d1 r last65 (0 : Fin 1) rfl]
  exact Cert.Alg.ofBits_one

theorem pay3_eq :
    (k1_pay3 (F := Ideal) v20 v31 v33 v34 : S65x512.Idx → EReal) = k1_pay1 (F := Ideal) v20 v31 v33 v34 :=
  shapeCast_self _ _

def e2N : FVec Ideal S4096x64 .f32 :=
  addf v84 (addf (mulf (mulf v104 (broadcastTo S4096x64 (rsqrt (addf (divf v107 v108)
    (broadcast S4096x1 (Scalar.ofBits (F := Ideal) .f32 0x3727C5AC#32)))) broadcasts_S4096x1_S4096x64))
    (broadcastTo S4096x64 v96 broadcasts_S1x64_S4096x64)) (broadcastTo S4096x64 v98 broadcasts_S1x64_S4096x64))

theorem e2N_apply (m : Fin 4096) (k : Fin 64) :
    (e2N v84 v96 v98 v104 v107 v108 (ix2 m k) : EReal)
      = v84 (ix2 m k) + (v104 (ix2 m k) * Ideal.rsqrt (Ideal.div (v107 (ix2 m (0 : Fin 1))) (v108 (ix2 m (0 : Fin 1))) + Cert.Spec.eps5)
          * v96 (ix2 (0 : Fin 1) k) + v98 (ix2 (0 : Fin 1) k)) := by
  unfold e2N
  simp only [addf_apply, mulf_apply, broadcastTo_col_apply _ broadcasts_S4096x1_S4096x64 m k,
    broadcastTo_1b_ab_apply _ broadcasts_S1x64_S4096x64 m k]
  rfl

theorem pay4_eq :
    (k1_pay4 (F := Ideal) v84 v96 v98 v104 v107 v108 v120 v123 : S4096x1.Idx → EReal)
      = logistic (mulf (broadcast S4096x1 (Scalar.ofBits (F := Ideal) .f32 0x3F333333#32))
          (addf (FloatOps.matmul dot_S4096x64_S64x1_S4096x1_1_0_0_1_n_n none (e2N v84 v96 v98 v104 v107 v108) v120
              (constant S4096x1 .f32 0x00000000#32))
            (broadcastTo S4096x1 v123 broadcasts_S1x1_S4096x1))) := by
  unfold k1_pay4 e2N
  simp only [shapeCast_self]

-- The logistic function of 0.7 times (the rows times the column, plus the bias).
theorem pay4_apply (m : Fin 4096) :
    (k1_pay4 (F := Ideal) v84 v96 v98 v104 v107 v108 v120 v123 (ix2 m (0 : Fin 1)) : EReal)
      = Ideal.logistic (Cert.Spec.c07 * ((∑ k : Fin 64, e2N v84 v96 v98 v104 v107 v108 (ix2 m k) * v120 (ix2 k (0 : Fin 1)))
          + v123 (ix2 (0 : Fin 1) (0 : Fin 1)))) := by
  rw [pay4_eq, logistic_apply, mulf_apply, addf_apply, broadcast_apply,
    matmul_zero_ix2 dot_S4096x64_S64x1_S4096x1_1_0_0_1_n_n rfl rfl rfl rfl rfl rfl rfl rfl none _ v120 m (0 : Fin 1),
    broadcastTo_1b_ab_apply v123 broadcasts_S1x1_S4096x1 m (0 : Fin 1)]
  rfl

end Cert.KernelIdeal.Hand.V1

end
-- ==== Proof.K1PayC.lean ====
import proofs.«153954_g5892695130345_cont_sun_m_578_38_alg».proof.Proof.Gen.KernelIdeal.Skeleton
import proofs.«153954_g5892695130345_cont_sun_m_578_38_alg».proof.Proof.Alg
import proofs.«153954_g5892695130345_cont_sun_m_578_38_alg».proof.Proof.LibVecRows
import proofs.«153954_g5892695130345_cont_sun_m_578_38_alg».proof.Proof.K1PayB
import proofs.«153954_g5892695130345_cont_sun_m_578_38_alg».proof.Proof.PayCommon
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand.V1

open Idealize.ShloMosaic Idealize.ShloMosaic.ValueIdx Cert.LibVecRows
open Cert.KernelIdeal Cert.KernelIdeal.Gen
open scoped BigOperators

variable (v3 : FVec Ideal S512x4096 .f32) (v5 : FVec Ideal S4096x65 .bf16)
  (v4 : FVec Ideal S512x4096 .bf16) (v60 : FVec Ideal S65x512 .bf16) (v70 : FVec Ideal S65x4096 .f32)
  (v82 : FVec Ideal S4096x65 .f32) (v86 : FVec Ideal S128x64 .f32) (v89 : FVec Ideal S1x64 .f32)

def msgN (r : Fin 512) (d : Fin 64) : EReal :=
  Ideal.div (∑ m : Fin 4096, v3 (ix2 r m) * v5 (ix2 m (c65 d))) (max Cert.Spec.eps6 (∑ m : Fin 4096, v3 (ix2 r m) * v5 (ix2 m last65)))

-- The linear-relu step on the node's embedding joined to its message.
theorem pay15_apply (v20 : FVec Ideal S512x64 .f32)
    (v23 : FVec Ideal S128x64 .bf16) (v26 : FVec Ideal S1x64 .f32) (r : Fin 512) (j : Fin 64) :
    (k1_pay15 (F := Ideal) v3 v5 v20 v23 v26 (ix2 r j) : EReal)
      = Cert.Spec.mlp (fun k => v20 (ix2 r k)) (msgN v3 v5 r) (fun k j => v23 (ix2 k j)) (fun j => v26 (ix2 (0 : Fin 1) j)) j := by
  unfold k1_pay15
  simp only [shapeCast_self]
  rw [Cert.Pay.mlp_narrow_apply dot_S512x128_S128x64_S512x64_1_0_0_1_n_n rfl rfl rfl rfl rfl rfl rfl rfl v20 _ v23 v26
    concatenates_S512x64_S512x64_S512x128_d1 bitsLt_bf16_f32 broadcasts_S1x64_S512x64 r j]
  refine congrArg (fun v => Cert.Spec.mlp (fun k => v20 (ix2 r k)) v (fun k j => v23 (ix2 k j)) (fun j => v26 (ix2 (0 : Fin 1) j)) j)
    (funext fun d => ?_)
  rw [Cert.Pay.msg_apply _ slices_S512x65_o0_0_S512x64 slices_S512x65_o0_64_S512x1 broadcasts_S512x1_S512x64 r d]
  simp only [matmul]
  rw [tmp_apply, tmp_apply]
  rfl

-- The update the norm adds is the layer norm of the hidden row.
theorem lnN_apply (v31 : FVec Ideal S512x64 .f32) (v33 : FVec Ideal S1x64 .f32) (v34 : FVec Ideal S1x64 .f32) (r : Fin 512) (d : Fin 64) :
    (lnN v31 v33 v34 (ix2 r d) : EReal)
      = Cert.Spec.ln (fun j => v33 (ix2 (0 : Fin 1) j)) (fun j => v34 (ix2 (0 : Fin 1) j)) (fun j => v31 (ix2 r j)) d := by
  unfold lnN
  simp only [shapeCast_self]
  exact Cert.Pay.ln_apply (fun j => v31 (ix2 r j)) _ _ v33 v34 broadcasts_S512x1_S512x64 broadcasts_S1x64_S512x64
    broadcasts_S1x64_S512x64 r d
    (Cert.Pay.centre_apply v31 reduces_S512x64_S512 (.inl rfl) rfl shapeCasts_S512_S512x1 broadcasts_S512x1_S512x64 r d)
    (Cert.Pay.rstd_apply (fun j => v31 (ix2 r j)) _ reduces_S512x64_S512 (.inl rfl) rfl shapeCasts_S512_S512x1 r (0 : Fin 1)
      (fun j => Cert.Pay.centre_apply v31 reduces_S512x64_S512 (.inl rfl) rfl shapeCasts_S512_S512x1 broadcasts_S512x1_S512x64 r j))

theorem pay16_eq (v32 : FVec Ideal S1x64 .f32) : (k1_pay16 (F := Ideal) v32 : S1x64.Idx → EReal) = v32 :=
  shapeCast_self _ _

theorem pay5_apply (m : Fin 4096) (k : Fin 64) :
    (k1_pay5 (F := Ideal) v82 (ix2 m k) : EReal) = v82 (ix2 m (c65 k)) := by
  unfold k1_pay5
  simp only [shapeCast_self]
  exact slice2_axis1_apply 0 v82 slices_S4096x65_o0_0_S4096x64 m k (c65 k) (Nat.zero_add _).symm

theorem pay6_eq (v95 : FVec Ideal S1x64 .f32) : (k1_pay6 (F := Ideal) v95 : S1x64.Idx → EReal) = v95 :=
  shapeCast_self _ _
theorem pay7_eq (v97 : FVec Ideal S1x64 .f32) : (k1_pay7 (F := Ideal) v97 : S1x64.Idx → EReal) = v97 :=
  shapeCast_self _ _

theorem pay10_apply (i : S4096x1.Idx) : (k1_pay10 (F := Ideal) i : EReal) = Cert.Spec.c64 := rfl

def accE (c : Fin 65) (m : Fin 4096) : EReal :=
  v70 (ix2 c m) + ∑ k : Fin 512, v60 (ix2 c k) * v4 (ix2 k m)

def msgE (m : Fin 4096) (d : Fin 64) : EReal :=
  Ideal.div (accE v4 v60 v70 (c65 d) m) (max Cert.Spec.eps6 (accE v4 v60 v70 last65 m))

def hidE (m : Fin 4096) (j : Fin 64) : EReal :=
  Cert.Spec.mlp (fun k => v82 (ix2 m (c65 k))) (msgE v4 v60 v70 m) (fun k j => v86 (ix2 k j)) (fun j => v89 (ix2 (0 : Fin 1) j)) j

def accTv : FVec Ideal S4096x65 .f32 :=
  transpose S4096x65 [1, 0] (addf (F := Ideal) v70 (matmul (F := Ideal) dot_S65x512_S512x4096_S65x4096_1_0_0_1_n_n none v60 v4
    (constant (F := Ideal) S65x4096 .f32 0x00000000#32))) transposes_S65x4096_p1_0_S4096x65

def msgEv : FVec Ideal S4096x64 .f32 :=
  mulf (F := Ideal) (extractStridedSlice S4096x64 ![0, 0] (accTv v4 v60 v70) slices_S4096x65_o0_0_S4096x64)
    (broadcastTo S4096x64
      (divf (F := Ideal) (φ := .f32) (broadcast S4096x1 (Scalar.ofBits (F := Ideal) .f32 0x3F800000#32))
        (maximumf (F := Ideal) (broadcast S4096x1 (Scalar.ofBits (F := Ideal) .f32 0x358637BD#32))
          (extractStridedSlice S4096x1 ![0, 64] (accTv v4 v60 v70) slices_S4096x65_o0_64_S4096x1))) broadcasts_S4096x1_S4096x64)

def hidEv : FVec Ideal S4096x64 .f32 :=
  maximumf (F := Ideal)
    (addf (F := Ideal)
      (matmul (F := Ideal) dot_S4096x128_S128x64_S4096x64_1_0_0_1_n_n none
        (concatenate S4096x128 1 [⟨S4096x64, k1_pay5 (F := Ideal) v82⟩, ⟨S4096x64, msgEv v4 v60 v70⟩] concatenates_S4096x64_S4096x64_S4096x128_d1)
        v86 (constant (F := Ideal) S4096x64 .f32 0x00000000#32))
      (broadcastTo S4096x64 v89 broadcasts_S1x64_S4096x64))
    (broadcast S4096x64 (Scalar.ofBits (F := Ideal) .f32 0x00000000#32))

theorem accTv_apply (m : Fin 4096) (c : Fin 65) :
    (accTv v4 v60 v70 (ix2 m c) : EReal) = accE v4 v60 v70 c m := by
  unfold accTv
  simp only [matmul]
  rw [transpose_ix2_apply _ transposes_S65x4096_p1_0_S4096x65 m c, addf_apply,
    matmul_zero_ix2 dot_S65x512_S512x4096_S65x4096_1_0_0_1_n_n rfl rfl rfl rfl rfl rfl rfl rfl none v60 v4 c m]
  rfl

theorem msgEv_apply (m : Fin 4096) (d : Fin 64) :
    (msgEv v4 v60 v70 (ix2 m d) : EReal) = msgE v4 v60 v70 m d := by
  unfold msgEv
  rw [Cert.Pay.msg_apply (accTv v4 v60 v70) slices_S4096x65_o0_0_S4096x64 slices_S4096x65_o0_64_S4096x1 broadcasts_S4096x1_S4096x64 m d,
    accTv_apply, accTv_apply]
  rfl

theorem hidEv_apply (m : Fin 4096) (j : Fin 64) :
    (hidEv v4 v60 v70 v82 v86 v89 (ix2 m j) : EReal) = hidE v4 v60 v70 v82 v86 v89 m j := by
  unfold hidEv
  rw [Cert.Pay.mlp_apply dot_S4096x128_S128x64_S4096x64_1_0_0_1_n_n rfl rfl rfl rfl rfl rfl rfl rfl (k1_pay5 (F := Ideal) v82)
    (msgEv v4 v60 v70) v86 v89 concatenates_S4096x64_S4096x64_S4096x128_d1 broadcasts_S1x64_S4096x64 m j]
  unfold hidE
  exact congrArg₂ (fun u v => Cert.Spec.mlp u v (fun k j => v86 (ix2 k j)) (fun j => v89 (ix2 (0 : Fin 1) j)) j)
    (funext fun k => pay5_apply v82 m k) (funext fun d => msgEv_apply v4 v60 v70 m d)

theorem pay8_eq :
    (k1_pay8 (F := Ideal) v4 v60 v70 v82 v86 v89 : S4096x64.Idx → EReal)
      = subf (F := Ideal) (hidEv v4 v60 v70 v82 v86 v89)
          (broadcastTo S4096x64
            (divf (F := Ideal) (φ := .f32)
              (shapeCast S4096x1 (multiReduction (F := Ideal) .add [1] S4096 (hidEv v4 v60 v70 v82 v86 v89) 0x00000000#32
                reduces_S4096x64_S4096 (.inl rfl) rfl) shapeCasts_S4096_S4096x1)
              (broadcast S4096x1 (Scalar.ofBits (F := Ideal) .f32 0x42800000#32))) broadcasts_S4096x1_S4096x64) := by
  unfold k1_pay8 hidEv msgEv accTv
  simp only [shapeCast_self]

-- Each entry of the hidden row minus the row's mean.
theorem pay8_apply (m : Fin 4096) (j : Fin 64) :
    (k1_pay8 (F := Ideal) v4 v60 v70 v82 v86 v89 (ix2 m j) : EReal)
      = hidE v4 v60 v70 v82 v86 v89 m j - Cert.Spec.mean (hidE v4 v60 v70 v82 v86 v89 m) := by
  rw [pay8_eq, Cert.Pay.centre_apply (hidEv v4 v60 v70 v82 v86 v89) reduces_S4096x64_S4096 (.inl rfl) rfl shapeCasts_S4096_S4096x1
    broadcasts_S4096x1_S4096x64 m j, hidEv_apply]
  exact congrArg (fun h => hidE v4 v60 v70 v82 v86 v89 m j - Cert.Spec.mean h) (funext fun j' => hidEv_apply v4 v60 v70 v82 v86 v89 m j')

-- The row sums of the squares of the centred rows.
theorem pay9_apply (m : Fin 4096) :
    (k1_pay9 (F := Ideal) v4 v60 v70 v82 v86 v89 (ix2 m (0 : Fin 1)) : EReal)
      = ∑ j : Fin 64, (hidE v4 v60 v70 v82 v86 v89 m j - Cert.Spec.mean (hidE v4 v60 v70 v82 v86 v89 m))
          * (hidE v4 v60 v70 v82 v86 v89 m j - Cert.Spec.mean (hidE v4 v60 v70 v82 v86 v89 m)) := by
  unfold k1_pay9
  rw [Cert.Pay.sqsum_apply (k1_pay8 (F := Ideal) v4 v60 v70 v82 v86 v89) reduces_S4096x64_S4096 (.inl rfl) rfl shapeCasts_S4096_S4096x1 m (0 : Fin 1)]
  exact Finset.sum_congr rfl fun j _ => by rw [pay8_apply]

end Cert.KernelIdeal.Hand.V1

end
-- ==== Proof.K1Core.lean ====
import proofs.«153954_g5892695130345_cont_sun_m_578_38_alg».proof.Proof.K1Blocks
import proofs.«153954_g5892695130345_cont_sun_m_578_38_alg».proof.Proof.K1PayC
import proofs.«153954_g5892695130345_cont_sun_m_578_38_alg».proof.Proof.Alg
import Idealize.ShloMosaic.Lib.ValueIdx
import Idealize.ShloMosaic.Lib.Pipeline.Value

noncomputable section

namespace Cert.KernelIdeal.Hand.R1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand.V1
open scoped BigOperators

variable (V : (c : Dev nD) → (b : Ref sig .tc) → Buf (Elt Ideal) ((c : Thread nD τ).loc b)) (c : Dev nD)

abbrev pt (n : ℕ) (h : n < 16) : Fin cfg1.N := ⟨n, by rw [show cfg1.N = 16 from N_1]; exact h⟩

abbrev arrA : Fin 8192 → Fin 4096 → EReal := fun n k => (V c main_arg0 : S8192x4096.Idx → EReal) (ix2 n k)
abbrev arrX : Fin 8192 → Fin 64 → EReal := fun n d => (V c main_arg1 : S8192x64.Idx → EReal) (ix2 n d)
abbrev E0 : S4096x65.Idx → EReal := (V c main_v12 : S4096x65.Idx → EReal)
abbrev arrNW : Fin 128 → Fin 64 → EReal := fun k j => (V c main_v16 : S128x64.Idx → EReal) (ix2 k j)
abbrev arrNb : Fin 64 → EReal := fun j => (V c main_v19 : S1x64.Idx → EReal) (ix2 (0 : Fin 1) j)
abbrev arrNg : Fin 64 → EReal := fun j => (V c main_v22 : S1x64.Idx → EReal) (ix2 (0 : Fin 1) j)
abbrev arrNbe : Fin 64 → EReal := fun j => (V c main_v25 : S1x64.Idx → EReal) (ix2 (0 : Fin 1) j)
abbrev arrEW : Fin 128 → Fin 64 → EReal := fun k j => (V c main_v28 : S128x64.Idx → EReal) (ix2 k j)
abbrev arrEb : Fin 64 → EReal := fun j => (V c main_v31 : S1x64.Idx → EReal) (ix2 (0 : Fin 1) j)
abbrev arrEg : Fin 64 → EReal := fun j => (V c main_v34 : S1x64.Idx → EReal) (ix2 (0 : Fin 1) j)
abbrev arrEbe : Fin 64 → EReal := fun j => (V c main_v37 : S1x64.Idx → EReal) (ix2 (0 : Fin 1) j)
abbrev arrDw : Fin 64 → EReal := fun k => (V c main_v38 : S64x1.Idx → EReal) (ix2 k (0 : Fin 1))
abbrev arrDb : EReal := (V c main_v39 : S1x1.Idx → EReal) (ix2 (0 : Fin 1) (0 : Fin 1))

def augAt (t : Fin cfg1.N) : S65x512.Idx → EReal :=
  k1_pay1 (F := Ideal) (xrows V c t) (k1_pay15 (F := Ideal) (bA V c t) (E0 V c) (xrows V c t) (bNW V c t) (bNb V c t))
    (k1_pay16 (F := Ideal) (bNg V c t)) (bNbe V c t)

theorem st1_e1b (n : ℕ) (h : n < 16) : ((st1 V c (n + 1)).e1b : S4096x65.Idx → EReal) = E0 V c := by
  induction n with
  | zero =>
    rw [show (0 : ℕ) + 1 = (pt 0 h).val + 1 from rfl, st1_first V c (pt 0 h) rfl]
    show (k1_pay12 (F := Ideal) (bE V c (pt 0 h)) : S4096x65.Idx → EReal) = _
    rw [pay12_eq, bE_eq]
  | succ n ih =>
    rw [show n + 1 + 1 = (pt (n + 1) h).val + 1 from rfl, st1_succ V c (pt (n + 1) h) (Nat.succ_ne_zero n)]
    show ((st1 V c (n + 1)).e1b : S4096x65.Idx → EReal) = _
    exact ih (by omega)

theorem st1_panp (n : ℕ) (h : n < 16) : ((st1 V c (n + 1)).panp : S512x4096.Idx → EReal) = (bA V c (pt n h) : S512x4096.Idx → EReal) := by
  cases n with
  | zero =>
    rw [show (0 : ℕ) + 1 = (pt 0 h).val + 1 from rfl, st1_first V c (pt 0 h) rfl]
    show (k1_pay2 (F := Ideal) (k1_pay13 (F := Ideal) (bA V c (pt 0 h))) : S512x4096.Idx → EReal) = _
    rw [pay2_eq, pay13_eq]
  | succ n =>
    rw [show n + 1 + 1 = (pt (n + 1) h).val + 1 from rfl, st1_succ V c (pt (n + 1) h) (Nat.succ_ne_zero n)]
    show (k1_pay2 (F := Ideal) (k1_pay13 (F := Ideal) (bA V c (pt (n + 1) h))) : S512x4096.Idx → EReal) = _
    rw [pay2_eq, pay13_eq]

theorem st1_augp (n : ℕ) (h : n < 16) : ((st1 V c (n + 1)).augp : S65x512.Idx → EReal) = augAt V c (pt n h) := by
  cases n with
  | zero =>
    rw [show (0 : ℕ) + 1 = (pt 0 h).val + 1 from rfl, st1_first V c (pt 0 h) rfl]
    show (k1_pay3 (F := Ideal) (xrows V c (pt 0 h))
      (k1_pay15 (F := Ideal) (bA V c (pt 0 h)) (k1_pay12 (F := Ideal) (bE V c (pt 0 h))) (xrows V c (pt 0 h)) (bNW V c (pt 0 h)) (bNb V c (pt 0 h)))
      (k1_pay16 (F := Ideal) (bNg V c (pt 0 h))) (bNbe V c (pt 0 h)) : S65x512.Idx → EReal) = _
    rw [pay3_eq, pay12_eq, bE_eq]
    rfl
  | succ n =>
    rw [show n + 1 + 1 = (pt (n + 1) h).val + 1 from rfl, st1_succ V c (pt (n + 1) h) (Nat.succ_ne_zero n)]
    show (k1_pay3 (F := Ideal) (xrows V c (pt (n + 1) h))
      (k1_pay15 (F := Ideal) (bA V c (pt (n + 1) h)) (st1 V c (n + 1)).e1b (xrows V c (pt (n + 1) h)) (bNW V c (pt (n + 1) h)) (bNb V c (pt (n + 1) h)))
      (k1_pay16 (F := Ideal) (bNg V c (pt (n + 1) h))) (bNbe V c (pt (n + 1) h)) : S65x512.Idx → EReal) = _
    rw [pay3_eq, st1_e1b V c n (by omega)]
    rfl

theorem st1_acct_one (d : Fin 65) (m : Fin 4096) : ((st1 V c 1).acct (ix2 d m) : EReal) = 0 := by
  rw [show (1 : ℕ) = (pt 0 (by decide)).val + 1 from rfl, st1_first V c (pt 0 (by decide)) rfl]
  show (k1_pay11 (F := Ideal) (ix2 d m) : EReal) = 0
  exact pay11_apply _

theorem st1_acct_succ (n : ℕ) (h : n + 1 < 16) (d : Fin 65) (m : Fin 4096) :
    ((st1 V c (n + 2)).acct (ix2 d m) : EReal)
      = (st1 V c (n + 1)).acct (ix2 d m)
        + ∑ k : Fin 512, augAt V c (pt n (by omega)) (ix2 d k) * (bA V c (pt n (by omega)) (ix2 k m) : EReal) := by
  rw [show n + 2 = (pt (n + 1) h).val + 1 from rfl, st1_succ V c (pt (n + 1) h) (Nat.succ_ne_zero n)]
  show (k1_pay14 (F := Ideal) (st1 V c (n + 1)).acct (st1 V c (n + 1)).augp (st1 V c (n + 1)).panp (ix2 d m) : EReal) = _
  rw [pay14_apply, st1_augp V c n (by omega), st1_panp V c n (by omega)]

section Given
variable (e1 : Fin 4096 → Fin 64 → EReal)
variable (h12 : ∀ (m : Fin 4096) (j : Fin 65), E0 V c (ix2 m j) = if h : j.val < 64 then e1 m ⟨j.val, h⟩ else 1)

abbrev n1 : Fin 8192 → Fin 64 → EReal :=
  Cert.Spec.layerN (arrA V c) e1 (arrX V c) (arrNW V c) (arrNb V c) (arrNg V c) (arrNbe V c)

include h12 in
theorem E0_lt (m : Fin 4096) (d : Fin 64) : E0 V c (ix2 m (c65 d)) = e1 m d := by
  rw [h12]
  exact dif_pos d.isLt

include h12 in
theorem E0_last (m : Fin 4096) : E0 V c (ix2 m last65) = 1 := by
  rw [h12]
  exact dif_neg (by decide)

include h12 in
theorem msgN_eq (t : Fin cfg1.N) (r : Fin 512) (n : Fin 8192) (hn : n.val = 512 * t.val + r.val) :
    msgN (bA V c t) (E0 V c) r = Cert.Spec.nmsg (arrA V c) e1 n := by
  funext d
  have hA : ∀ m : Fin 4096, (bA V c t (ix2 r m) : EReal) = arrA V c n m := fun m => bA_apply V c t r m n hn
  unfold msgN Cert.Spec.nmsg
  simp only [hA, E0_lt V c e1 h12, E0_last V c e1 h12, mul_one]

include h12 in
theorem augAt_lt (t : Fin cfg1.N) (r : Fin 512) (d : Fin 64) (n : Fin 8192) (hn : n.val = 512 * t.val + r.val) :
    augAt V c t (ix2 (c65 d) r) = n1 V c e1 n d := by
  have hh : (fun j => (k1_pay15 (F := Ideal) (bA V c t) (E0 V c) (xrows V c t) (bNW V c t) (bNb V c t) (ix2 r j) : EReal))
      = Cert.Spec.mlp (arrX V c n) (Cert.Spec.nmsg (arrA V c) e1 n) (arrNW V c) (arrNb V c) := by
    funext j
    have hx : (fun k => (xrows V c t (ix2 r k) : EReal)) = arrX V c n := funext fun k => xrows_apply V c t r k n hn
    rw [pay15_apply, msgN_eq V c e1 h12 t r n hn, bNW_eq, bNb_eq, hx]
  unfold augAt
  rw [pay1_apply_lt, lnN_apply, pay16_eq, hh, xrows_apply V c t r d n hn, bNg_eq, bNbe_eq]
  rfl

theorem augAt_last (t : Fin cfg1.N) (r : Fin 512) : augAt V c t (ix2 last65 r) = 1 := by
  unfold augAt
  exact pay1_apply_last _ _ _ _ r

-- The first point leaves zero, each later point adds the panel before it, and the last panel is added here: the sum over all 8192 nodes.
theorem acc_total (c' : Fin 65) (m : Fin 4096) (G : Fin 8192 → EReal)
    (hG : ∀ (t : Fin cfg1.N) (r : Fin 512) (n : Fin 8192), n.val = 512 * t.val + r.val → augAt V c t (ix2 c' r) = G n) :
    ((st1 V c 16).acct (ix2 c' m) : EReal)
        + ∑ k : Fin 512, augAt V c (pt 15 (by decide)) (ix2 c' k) * (bA V c (pt 15 (by decide)) (ix2 k m) : EReal)
      = ∑ n : Fin 8192, G n * arrA V c n m := by
  let g : ℕ → EReal := fun t =>
    if h : t < 16 then ∑ k : Fin 512, G ⟨512 * t + k.val, by omega⟩ * arrA V c ⟨512 * t + k.val, by omega⟩ m else 0
  have hg : ∀ (t : ℕ) (h : t < 16),
      (∑ k : Fin 512, augAt V c (pt t h) (ix2 c' k) * (bA V c (pt t h) (ix2 k m) : EReal)) = g t := by
    intro t h
    rw [show g t = _ from dif_pos h]
    refine Finset.sum_congr rfl fun k _ => ?_
    rw [hG (pt t h) k ⟨512 * t + k.val, by omega⟩ rfl, bA_apply V c (pt t h) k m ⟨512 * t + k.val, by omega⟩ rfl]
  have key := Cert.Alg.late_acc_eq_sum (fun n => ((st1 V c n).acct (ix2 c' m) : EReal)) g 15 (st1_acct_one V c c' m)
    (fun t ht => by
      show ((st1 V c (t + 2)).acct (ix2 c' m) : EReal) = (st1 V c (t + 1)).acct (ix2 c' m) + (0 + g t)
      rw [st1_acct_succ V c t (by omega) c' m, hg t (by omega), zero_add])
  rw [zero_add] at key
  rw [hg 15 (by decide)]
  refine key.trans ?_
  rw [Finset.sum_range, Cert.Alg.sum_8192 (fun n => G n * arrA V c n m)]
  exact Finset.sum_congr rfl fun i _ => dif_pos i.isLt

include h12 in

-- The hidden row of edge m is the second edge layer's linear-relu step on the edge's embedding joined to what the updated nodes send it.
theorem hidE_eq (m : Fin 4096) :
    hidE (k1_pay13 (F := Ideal) (bA V c tL)) (augAt V c tL) (st1 V c 16).acct (E0 V c) (bEW V c tL) (bEb V c tL) m
      = Cert.Spec.mlp (e1 m) (Cert.Spec.emsg (arrA V c) (n1 V c e1) m) (arrEW V c) (arrEb V c) := by
  funext j
  unfold hidE
  have hu : (fun k => E0 V c (ix2 m (c65 k))) = e1 m := funext fun k => E0_lt V c e1 h12 m k
  have hv : msgE (k1_pay13 (F := Ideal) (bA V c tL)) (augAt V c tL) (st1 V c 16).acct m = Cert.Spec.emsg (arrA V c) (n1 V c e1) m := by
    funext d
    unfold msgE accE Cert.Spec.emsg
    rw [pay13_eq]
    have hnum := acc_total V c (c65 d) m (fun n => n1 V c e1 n d) (fun t r n hn => augAt_lt V c e1 h12 t r d n hn)
    have hden := acc_total V c last65 m (fun _ => 1) (fun t r _ _ => augAt_last V c t r)
    refine congrArg₂ Ideal.div (hnum.trans (Finset.sum_congr rfl fun n _ => mul_comm _ _))
      (congrArg (max Cert.Spec.eps6) (hden.trans (Finset.sum_congr rfl fun n _ => one_mul _)))
  rw [hu, hv, bEW_eq, bEb_eq]

include h12 in
-- What is stored at edge m: the read-out of the second edge update over the node update.
theorem out1_apply (m : Fin 4096) :
    (out1 V c (ix2 m (0 : Fin 1)) : EReal)
      = Cert.Spec.dec (Cert.Spec.layerE (arrA V c) (n1 V c e1) e1 (arrEW V c) (arrEb V c) (arrEg V c) (arrEbe V c))
          (arrDw V c) (arrDb V c) m := by
  have haug : (augN (bA V c tL) (xrows V c tL) (bNW V c tL) (bNb V c tL) (bNg V c tL) (bNbe V c tL) (st1 V c 16).e1b : S65x512.Idx → EReal)
      = augAt V c tL := by
    show (k1_pay1 (F := Ideal) (xrows V c tL) (k1_pay15 (F := Ideal) (bA V c tL) (st1 V c 16).e1b (xrows V c tL) (bNW V c tL) (bNb V c tL))
      (k1_pay16 (F := Ideal) (bNg V c tL)) (bNbe V c tL) : S65x512.Idx → EReal) = _
    rw [show (16 : ℕ) = 15 + 1 from rfl, st1_e1b V c 15 (by decide)]
    rfl
  unfold out1 out1p
  rw [pay4_apply, haug, bE_eq, bEW_eq, bEb_eq, bEg_eq, bEbe_eq, bDw_eq, bDb_eq]
  unfold Cert.Spec.dec
  refine congrArg Ideal.logistic (congrArg (Cert.Spec.c07 * ·) (congrArg (· + arrDb V c) (Finset.sum_congr rfl fun k _ => ?_)))
  refine congrArg (· * arrDw V c k) ?_
  rw [e2N_apply, pay5_apply, pay6_eq, pay7_eq, pay8_apply, pay9_apply, pay10_apply]
  have hh := hidE_eq V c e1 h12 m
  rw [bEW_eq, bEb_eq] at hh
  rw [hh]
  unfold Cert.Spec.layerE
  exact congrArg₂ (· + ·) (E0_lt V c e1 h12 m k) (Cert.Alg.ln_eq (arrEg V c) (arrEbe V c) _ k)

end Given

end Cert.KernelIdeal.Hand.R1

end
-- ==== Proof.K1Value.lean ====
import proofs.«153954_g5892695130345_cont_sun_m_578_38_alg».proof.Proof.K1Defs
import proofs.«153954_g5892695130345_cont_sun_m_578_38_alg».proof.Proof.Spec
import proofs.«153954_g5892695130345_cont_sun_m_578_38_alg».proof.Proof.K1Core
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

namespace R1

variable (V : (c : Dev nD) → (b : Ref sig .tc) → Buf (Elt Ideal) ((c : Thread nD τ).loc b)) (c : Dev nD)

abbrev res1 : Buf (Elt Ideal) ((c : Thread nD τ).loc main_v40) := out1 V c

theorem flushed1_13 (t : Fin cfg1.N) (hf : (cfg1.win 13).flush t = true) :
    (dat1 V c).flushed 13 t = ((cfg1.win 13).blk t).view.read (Elt Ideal) (res1 V c) := by
  show (cfg1.win 13).cut (grid1.coords t) ((dat1 V c).after 13 t) = _
  rw [after1_13]
  exact (Memref.read_access_unit_zero (Elt Ideal) main_v40 (offs_zero (win1_13.index t) _ (by decide +kernel +revert)) _ _).symm

theorem final1_13 : (dat1 V c).arrAt 13 cfg1.N = res1 V c :=
  (dat1 V c).arrAt_eq_of_cover 13 (res1 V c) (flushed1_13 V c) fun i =>
    ⟨t1_15, (flush1_13 t1_15).mpr rfl, by
      show i ∈ ((View.whole main_v40).slice (win1_13.rect t1_15)).set
      rw [View.set_slice_whole, Rect.mem_set_unit]
      intro a
      have h : ∀ a, win1_13.index t1_15 a * win1_13.size a = 0 ∧ win1_13.xsize (grid1.coords t1_15) a = S4096x1.size a := by
        decide +kernel
      show win1_13.index t1_15 a * win1_13.size a ≤ (i a : ℕ)
        ∧ (i a : ℕ) < win1_13.index t1_15 a * win1_13.size a + win1_13.xsize (grid1.coords t1_15) a
      rw [(h a).1, (h a).2, Nat.zero_add]
      exact ⟨Nat.zero_le _, (i a).isLt⟩⟩

end R1

theorem arrAt1_13_apply (V : (c : Dev nD) → (b : Ref sig .tc) → Buf (Elt Ideal) ((c : Thread nD τ).loc b)) (c : Dev nD)
    (e1 : Fin 4096 → Fin 64 → EReal)
    (h12 : ∀ (m : Fin 4096) (j : Fin 65), (V c main_v12 : S4096x65.Idx → EReal) (ix2 m j) = if h : j.val < 64 then e1 m ⟨j.val, h⟩ else 1)
    (m : Fin 4096) :
    ((dat1 (F := Ideal) V c).arrAt 13 cfg1.N : S4096x1.Idx → EReal) (ix2 m (0 : Fin 1))
      = Cert.Spec.dec
          (Cert.Spec.layerE (fun n k => (V c main_arg0 : S8192x4096.Idx → EReal) (ix2 n k))
            (Cert.Spec.layerN (fun n k => (V c main_arg0 : S8192x4096.Idx → EReal) (ix2 n k)) e1
              (fun n d => (V c main_arg1 : S8192x64.Idx → EReal) (ix2 n d))
              (fun k j => (V c main_v16 : S128x64.Idx → EReal) (ix2 k j))
              (fun j => (V c main_v19 : S1x64.Idx → EReal) (ix2 (0 : Fin 1) j))
              (fun j => (V c main_v22 : S1x64.Idx → EReal) (ix2 (0 : Fin 1) j))
              (fun j => (V c main_v25 : S1x64.Idx → EReal) (ix2 (0 : Fin 1) j)))
            e1
            (fun k j => (V c main_v28 : S128x64.Idx → EReal) (ix2 k j))
            (fun j => (V c main_v31 : S1x64.Idx → EReal) (ix2 (0 : Fin 1) j))
            (fun j => (V c main_v34 : S1x64.Idx → EReal) (ix2 (0 : Fin 1) j))
            (fun j => (V c main_v37 : S1x64.Idx → EReal) (ix2 (0 : Fin 1) j)))
          (fun k => (V c main_v38 : S64x1.Idx → EReal) (ix2 k (0 : Fin 1)))
          ((V c main_v39 : S1x1.Idx → EReal) (ix2 (0 : Fin 1) (0 : Fin 1))) m := by
  rw [R1.final1_13 V c]
  exact R1.out1_apply V c e1 h12 m

end Cert.KernelIdeal.Hand

end
-- ==== Proof.KHost.lean ====
import proofs.«153954_g5892695130345_cont_sun_m_578_38_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand.Host

open Idealize.ShloMosaic Idealize.ShloMosaic.TcCoe Idealize.SL.Sem Cert.KernelIdeal Cert.KernelIdeal.Gen
open ValueIdx

variable (W : Valuation τ sig (Elt Ideal))

-- Row l of a 2 x 64 parameter, reshaped to 64 and back to 1 x 64, read at column j.
theorem row_apply (l : Nat) (X : S2x64.Idx → EReal) (h : S2x64.Slices ![l, 0] S1x64) (h1 : S1x64.ShapeCasts S64)
    (h2 : S64.ShapeCasts S1x64) (r : Fin 2) (hr : r.val = l) (j : Fin 64) :
    shapeCast S1x64 (shapeCast S64 (extractStridedSlice S1x64 ![l, 0] X h) h1) h2 (ix2 (0 : Fin 1) j) = X (ix2 r j) := by
  rw [shapeCast_a_1a_apply, shapeCast_1a_a_apply]
  exact slice2_axis0_apply l X h (0 : Fin 1) j r (by simp [hr])

-- Slice l of the weights, its unit axis dropped, transposed: entry (k, j) is the stored (l, j, k).
theorem wt_apply (l : Nat) (X : S2x64x128.Idx → EReal) (h : S2x64x128.Slices ![l, 0, 0] S1x64x128)
    (h1 : S1x64x128.ShapeCasts S64x128) (h2 : S64x128.Transposes [1, 0] S128x64) (r : Fin 2) (hr : r.val = l)
    (k : Fin 128) (j : Fin 64) :
    transpose S128x64 [1, 0] (shapeCast S64x128 (extractStridedSlice S1x64x128 ![l, 0, 0] X h) h1) h2 (ix2 k j)
      = X (ix3 r j k) := by
  rw [transpose_ix2_apply, shapeCast_1ab_ab_apply]
  refine extractStridedSlice_apply _ X h _ _ fun a => ?_
  match a with
  | ⟨0, _⟩ => simp [hr, ix3]
  | ⟨1, _⟩ => simp [ix3]
  | ⟨2, _⟩ => simp [ix3]

theorem v2_apply (k : Fin 128) (j : Fin 64) :
    (StableHlo.after (hostOps0 (F := Ideal)) W (Proc.devRef .tc main_v2) : S128x64.Idx → EReal) (ix2 k j)
      = (W (Proc.devRef .tc main_arg3) : S2x64x128.Idx → EReal) (ix3 (0 : Fin 2) j k) := by
  after_results
  exact wt_apply 0 _ _ _ _ (0 : Fin 2) rfl k j

theorem v5_apply (j : Fin 64) :
    (StableHlo.after (hostOps0 (F := Ideal)) W (Proc.devRef .tc main_v5) : S1x64.Idx → EReal) (ix2 (0 : Fin 1) j)
      = (W (Proc.devRef .tc main_arg4) : S2x64.Idx → EReal) (ix2 (0 : Fin 2) j) := by
  after_results
  exact row_apply 0 _ _ _ _ (0 : Fin 2) rfl j

theorem v8_apply (j : Fin 64) :
    (StableHlo.after (hostOps0 (F := Ideal)) W (Proc.devRef .tc main_v8) : S1x64.Idx → EReal) (ix2 (0 : Fin 1) j)
      = (W (Proc.devRef .tc main_arg5) : S2x64.Idx → EReal) (ix2 (0 : Fin 2) j) := by
  after_results
  exact row_apply 0 _ _ _ _ (0 : Fin 2) rfl j

theorem v11_apply (j : Fin 64) :
    (StableHlo.after (hostOps0 (F := Ideal)) W (Proc.devRef .tc main_v11) : S1x64.Idx → EReal) (ix2 (0 : Fin 1) j)
      = (W (Proc.devRef .tc main_arg6) : S2x64.Idx → EReal) (ix2 (0 : Fin 2) j) := by
  after_results
  exact row_apply 0 _ _ _ _ (0 : Fin 2) rfl j

theorem v16_apply (k : Fin 128) (j : Fin 64) :
    (StableHlo.after (hostOps1 (F := Ideal)) W (Proc.devRef .tc main_v16) : S128x64.Idx → EReal) (ix2 k j)
      = (W (Proc.devRef .tc main_arg7) : S2x64x128.Idx → EReal) (ix3 (0 : Fin 2) j k) := by
  after_results
  refine Eq.trans (truncf_apply _ _ _) ?_
  exact wt_apply 0 _ _ _ _ (0 : Fin 2) rfl k j

theorem v19_apply (j : Fin 64) :
    (StableHlo.after (hostOps1 (F := Ideal)) W (Proc.devRef .tc main_v19) : S1x64.Idx → EReal) (ix2 (0 : Fin 1) j)
      = (W (Proc.devRef .tc main_arg8) : S2x64.Idx → EReal) (ix2 (0 : Fin 2) j) := by
  after_results
  exact row_apply 0 _ _ _ _ (0 : Fin 2) rfl j

theorem v22_apply (j : Fin 64) :
    (StableHlo.after (hostOps1 (F := Ideal)) W (Proc.devRef .tc main_v22) : S1x64.Idx → EReal) (ix2 (0 : Fin 1) j)
      = (W (Proc.devRef .tc main_arg9) : S2x64.Idx → EReal) (ix2 (0 : Fin 2) j) := by
  after_results
  exact row_apply 0 _ _ _ _ (0 : Fin 2) rfl j

theorem v25_apply (j : Fin 64) :
    (StableHlo.after (hostOps1 (F := Ideal)) W (Proc.devRef .tc main_v25) : S1x64.Idx → EReal) (ix2 (0 : Fin 1) j)
      = (W (Proc.devRef .tc main_arg10) : S2x64.Idx → EReal) (ix2 (0 : Fin 2) j) := by
  after_results
  exact row_apply 0 _ _ _ _ (0 : Fin 2) rfl j

theorem v28_apply (k : Fin 128) (j : Fin 64) :
    (StableHlo.after (hostOps1 (F := Ideal)) W (Proc.devRef .tc main_v28) : S128x64.Idx → EReal) (ix2 k j)
      = (W (Proc.devRef .tc main_arg3) : S2x64x128.Idx → EReal) (ix3 (1 : Fin 2) j k) := by
  after_results
  exact wt_apply 1 _ _ _ _ (1 : Fin 2) rfl k j

theorem v31_apply (j : Fin 64) :
    (StableHlo.after (hostOps1 (F := Ideal)) W (Proc.devRef .tc main_v31) : S1x64.Idx → EReal) (ix2 (0 : Fin 1) j)
      = (W (Proc.devRef .tc main_arg4) : S2x64.Idx → EReal) (ix2 (1 : Fin 2) j) := by
  after_results
  exact row_apply 1 _ _ _ _ (1 : Fin 2) rfl j

theorem v34_apply (j : Fin 64) :
    (StableHlo.after (hostOps1 (F := Ideal)) W (Proc.devRef .tc main_v34) : S1x64.Idx → EReal) (ix2 (0 : Fin 1) j)
      = (W (Proc.devRef .tc main_arg5) : S2x64.Idx → EReal) (ix2 (1 : Fin 2) j) := by
  after_results
  exact row_apply 1 _ _ _ _ (1 : Fin 2) rfl j

theorem v37_apply (j : Fin 64) :
    (StableHlo.after (hostOps1 (F := Ideal)) W (Proc.devRef .tc main_v37) : S1x64.Idx → EReal) (ix2 (0 : Fin 1) j)
      = (W (Proc.devRef .tc main_arg6) : S2x64.Idx → EReal) (ix2 (1 : Fin 2) j) := by
  after_results
  exact row_apply 1 _ _ _ _ (1 : Fin 2) rfl j

theorem v38_apply (k : Fin 64) :
    (StableHlo.after (hostOps1 (F := Ideal)) W (Proc.devRef .tc main_v38) : S64x1.Idx → EReal) (ix2 k (0 : Fin 1))
      = (W (Proc.devRef .tc main_arg11) : S1x64.Idx → EReal) (ix2 (0 : Fin 1) k) := by
  after_results
  refine shapeCast_apply _ _ _ _ ?_
  show (S1x64.rowMajor (ix2 (0 : Fin 1) k)).val = (S64x1.rowMajor (ix2 k (0 : Fin 1))).val
  rw [Shape.rowMajor_val_two, Shape.rowMajor_val_two]
  show 0 * 64 + k.val = k.val * 1 + 0
  omega

theorem v39_apply :
    (StableHlo.after (hostOps1 (F := Ideal)) W (Proc.devRef .tc main_v39) : S1x1.Idx → EReal) (ix2 (0 : Fin 1) (0 : Fin 1))
      = (W (Proc.devRef .tc main_arg12) : S1.Idx → EReal) (ix1 (0 : Fin 1)) := by
  after_results
  exact shapeCast_a_1a_apply _ _ (0 : Fin 1) (0 : Fin 1)

theorem v41_apply (i : Fin 4096) :
    (StableHlo.after (hostOps2 (F := Ideal)) W (Proc.devRef .tc main_v41) : S4096.Idx → EReal) (ix1 i)
      = (W (Proc.devRef .tc main_v40) : S4096x1.Idx → EReal) (ix2 i (0 : Fin 1)) := by
  after_results
  refine shapeCast_apply _ _ _ _ ?_
  show (S4096x1.rowMajor (ix2 i (0 : Fin 1))).val = (S4096.rowMajor (ix1 i)).val
  rw [Shape.rowMajor_val_two, Shape.rowMajor_val_one]
  show i.val * 1 + 0 = i.val
  omega

end Cert.KernelIdeal.Hand.Host

end
-- ==== Proof.KValue.lean ====
import proofs.«153954_g5892695130345_cont_sun_m_578_38_alg».proof.Proof.KRun
import proofs.«153954_g5892695130345_cont_sun_m_578_38_alg».proof.Proof.K0Value
import proofs.«153954_g5892695130345_cont_sun_m_578_38_alg».proof.Proof.K1Value
import proofs.«153954_g5892695130345_cont_sun_m_578_38_alg».proof.Proof.KHost
import proofs.«153954_g5892695130345_cont_sun_m_578_38_alg».proof.Proof.Spec

noncomputable section

namespace Cert.KernelIdeal.Hand

open Idealize.ShloMosaic Idealize.ShloMosaic.TcCoe Idealize.SL.Sem Cert.KernelIdeal Cert.KernelIdeal.Gen
open ValueIdx

variable (m : (ℓ : Loc nD τ sig) → Buf (Elt Ideal) ℓ) (ρ : Dev nD → PrngReg)

def result (c : Dev nD) : Buf (Elt Ideal) ((c.tc : Thread nD τ).loc main_v41) := fun i =>
  Cert.Spec.probs (fun n k => m ((c.tc : Thread nD τ).loc main_arg0) (ix2 n k)) (fun n d => m ((c.tc : Thread nD τ).loc main_arg1) (ix2 n d)) (fun e d => m ((c.tc : Thread nD τ).loc main_arg2) (ix2 e d))
    (fun l j k => m ((c.tc : Thread nD τ).loc main_arg3) (ix3 l j k)) (fun l j => m ((c.tc : Thread nD τ).loc main_arg4) (ix2 l j)) (fun l j => m ((c.tc : Thread nD τ).loc main_arg5) (ix2 l j)) (fun l j => m ((c.tc : Thread nD τ).loc main_arg6) (ix2 l j))
    (fun l j k => m ((c.tc : Thread nD τ).loc main_arg7) (ix3 l j k)) (fun l j => m ((c.tc : Thread nD τ).loc main_arg8) (ix2 l j)) (fun l j => m ((c.tc : Thread nD τ).loc main_arg9) (ix2 l j)) (fun l j => m ((c.tc : Thread nD τ).loc main_arg10) (ix2 l j))
    (fun z k => m ((c.tc : Thread nD τ).loc main_arg11) (ix2 z k)) (fun z => m ((c.tc : Thread nD τ).loc main_arg12) (ix1 z)) (i 0)

theorem W2_arg (c : Dev nD) (r : Ref sig .tc) (h1 : r ≠ main_v12) (h0 : r ∉ hostOps0_W) :
    W2 m ρ c (Proc.devRef .tc r) = W0 m ρ c (Proc.devRef .tc r) :=
  (W2_of_ne m ρ c r h1).trans (W1_of m ρ c r h0)

theorem e1_found (c : Dev nD) (e : Fin 4096) (j : Fin 65) :
    (V3 m ρ c main_v12 : S4096x65.Idx → EReal) (ix2 e j)
      = if h : j.val < 64 then
          Cert.Spec.layerE (fun n k => m ((c.tc : Thread nD τ).loc main_arg0) (ix2 n k)) (fun n d => m ((c.tc : Thread nD τ).loc main_arg1) (ix2 n d)) (fun e d => m ((c.tc : Thread nD τ).loc main_arg2) (ix2 e d))
            (fun k j => m ((c.tc : Thread nD τ).loc main_arg3) (ix3 (0 : Fin 2) j k)) (fun j => m ((c.tc : Thread nD τ).loc main_arg4) (ix2 (0 : Fin 2) j)) (fun j => m ((c.tc : Thread nD τ).loc main_arg5) (ix2 (0 : Fin 2) j))
            (fun j => m ((c.tc : Thread nD τ).loc main_arg6) (ix2 (0 : Fin 2) j)) e ⟨j.val, h⟩
        else 1 := by
  have hA : (fun n k => (V1 m ρ c main_arg0 : S8192x4096.Idx → EReal) (ix2 n k)) = fun n k => m ((c.tc : Thread nD τ).loc main_arg0) (ix2 n k) := by
    funext n k; exact congrFun (W1_of m ρ c main_arg0 (by decide)) (ix2 n k)
  have hx : (fun n d => (V1 m ρ c main_arg1 : S8192x64.Idx → EReal) (ix2 n d)) = fun n d => m ((c.tc : Thread nD τ).loc main_arg1) (ix2 n d) := by
    funext n d; exact congrFun (W1_of m ρ c main_arg1 (by decide)) (ix2 n d)
  have he : (fun e d => (V1 m ρ c main_arg2 : S4096x64.Idx → EReal) (ix2 e d)) = fun e d => m ((c.tc : Thread nD τ).loc main_arg2) (ix2 e d) := by
    funext e d; exact congrFun (W1_of m ρ c main_arg2 (by decide)) (ix2 e d)
  have hw : (fun k j => (V1 m ρ c main_v2 : S128x64.Idx → EReal) (ix2 k j)) = fun k j => m ((c.tc : Thread nD τ).loc main_arg3) (ix3 (0 : Fin 2) j k) := by
    funext k j; exact Host.v2_apply (W0 m ρ c) k j
  have hb : (fun j => (V1 m ρ c main_v5 : S1x64.Idx → EReal) (ix2 (0 : Fin 1) j)) = fun j => m ((c.tc : Thread nD τ).loc main_arg4) (ix2 (0 : Fin 2) j) := by
    funext j; exact Host.v5_apply (W0 m ρ c) j
  have hg : (fun j => (V1 m ρ c main_v8 : S1x64.Idx → EReal) (ix2 (0 : Fin 1) j)) = fun j => m ((c.tc : Thread nD τ).loc main_arg5) (ix2 (0 : Fin 2) j) := by
    funext j; exact Host.v8_apply (W0 m ρ c) j
  have hbe : (fun j => (V1 m ρ c main_v11 : S1x64.Idx → EReal) (ix2 (0 : Fin 1) j)) = fun j => m ((c.tc : Thread nD τ).loc main_arg6) (ix2 (0 : Fin 2) j) := by
    funext j; exact Host.v11_apply (W0 m ρ c) j
  show (W3 m ρ c (Proc.devRef .tc main_v12) : S4096x65.Idx → EReal) (ix2 e j) = _
  rw [W3_main_v12 m ρ c, arrAt0_8_apply (V1 m ρ) c e j, hA, hx, he, hw, hb, hg, hbe]

theorem W5_main_v41_eq (c : Dev nD) : W5 m ρ c (Proc.devRef .tc main_v41) = result m c := by
  funext i
  obtain ⟨i0, rfl⟩ : ∃ i0 : Fin 4096, i = ix1 i0 := ⟨i 0, eq_ix1 i⟩
  have hA : (fun n k => (V3 m ρ c main_arg0 : S8192x4096.Idx → EReal) (ix2 n k)) = fun n k => m ((c.tc : Thread nD τ).loc main_arg0) (ix2 n k) := by
    funext n k; exact congrFun (W3_arg m ρ c main_arg0 (by decide)) (ix2 n k)
  have hx : (fun n d => (V3 m ρ c main_arg1 : S8192x64.Idx → EReal) (ix2 n d)) = fun n d => m ((c.tc : Thread nD τ).loc main_arg1) (ix2 n d) := by
    funext n d; exact congrFun (W3_arg m ρ c main_arg1 (by decide)) (ix2 n d)
  have hnw : (fun k j => (V3 m ρ c main_v16 : S128x64.Idx → EReal) (ix2 k j)) = fun k j => m ((c.tc : Thread nD τ).loc main_arg7) (ix3 (0 : Fin 2) j k) := by
    funext k j
    exact (Host.v16_apply (W2 m ρ c) k j).trans (congrFun (W2_arg m ρ c main_arg7 (by decide) (by decide)) _)
  have hnb : (fun j => (V3 m ρ c main_v19 : S1x64.Idx → EReal) (ix2 (0 : Fin 1) j)) = fun j => m ((c.tc : Thread nD τ).loc main_arg8) (ix2 (0 : Fin 2) j) := by
    funext j; exact (Host.v19_apply (W2 m ρ c) j).trans (congrFun (W2_arg m ρ c main_arg8 (by decide) (by decide)) _)
  have hng : (fun j => (V3 m ρ c main_v22 : S1x64.Idx → EReal) (ix2 (0 : Fin 1) j)) = fun j => m ((c.tc : Thread nD τ).loc main_arg9) (ix2 (0 : Fin 2) j) := by
    funext j; exact (Host.v22_apply (W2 m ρ c) j).trans (congrFun (W2_arg m ρ c main_arg9 (by decide) (by decide)) _)
  have hnbe : (fun j => (V3 m ρ c main_v25 : S1x64.Idx → EReal) (ix2 (0 : Fin 1) j)) = fun j => m ((c.tc : Thread nD τ).loc main_arg10) (ix2 (0 : Fin 2) j) := by
    funext j; exact (Host.v25_apply (W2 m ρ c) j).trans (congrFun (W2_arg m ρ c main_arg10 (by decide) (by decide)) _)
  have hew : (fun k j => (V3 m ρ c main_v28 : S128x64.Idx → EReal) (ix2 k j)) = fun k j => m ((c.tc : Thread nD τ).loc main_arg3) (ix3 (1 : Fin 2) j k) := by
    funext k j
    exact (Host.v28_apply (W2 m ρ c) k j).trans (congrFun (W2_arg m ρ c main_arg3 (by decide) (by decide)) _)
  have heb : (fun j => (V3 m ρ c main_v31 : S1x64.Idx → EReal) (ix2 (0 : Fin 1) j)) = fun j => m ((c.tc : Thread nD τ).loc main_arg4) (ix2 (1 : Fin 2) j) := by
    funext j; exact (Host.v31_apply (W2 m ρ c) j).trans (congrFun (W2_arg m ρ c main_arg4 (by decide) (by decide)) _)
  have heg : (fun j => (V3 m ρ c main_v34 : S1x64.Idx → EReal) (ix2 (0 : Fin 1) j)) = fun j => m ((c.tc : Thread nD τ).loc main_arg5) (ix2 (1 : Fin 2) j) := by
    funext j; exact (Host.v34_apply (W2 m ρ c) j).trans (congrFun (W2_arg m ρ c main_arg5 (by decide) (by decide)) _)
  have hebe : (fun j => (V3 m ρ c main_v37 : S1x64.Idx → EReal) (ix2 (0 : Fin 1) j)) = fun j => m ((c.tc : Thread nD τ).loc main_arg6) (ix2 (1 : Fin 2) j) := by
    funext j; exact (Host.v37_apply (W2 m ρ c) j).trans (congrFun (W2_arg m ρ c main_arg6 (by decide) (by decide)) _)
  have hdw : (fun k => (V3 m ρ c main_v38 : S64x1.Idx → EReal) (ix2 k (0 : Fin 1))) = fun k => m ((c.tc : Thread nD τ).loc main_arg11) (ix2 (0 : Fin 1) k) := by
    funext k; exact (Host.v38_apply (W2 m ρ c) k).trans (congrFun (W2_arg m ρ c main_arg11 (by decide) (by decide)) _)
  have hdb : (V3 m ρ c main_v39 : S1x1.Idx → EReal) (ix2 (0 : Fin 1) (0 : Fin 1)) = m ((c.tc : Thread nD τ).loc main_arg12) (ix1 (0 : Fin 1)) :=
    (Host.v39_apply (W2 m ρ c)).trans (congrFun (W2_arg m ρ c main_arg12 (by decide) (by decide)) _)
  show (StableHlo.after (hostOps2 (F := Ideal)) (W4 m ρ c) (Proc.devRef .tc main_v41) : S4096.Idx → EReal) (ix1 i0) = _
  rw [Host.v41_apply (W4 m ρ c) i0, W4_main_v40 m ρ c, arrAt1_13_apply (V3 m ρ) c _ (e1_found m ρ c) i0,
    hA, hx, hnw, hnb, hng, hnbe, hew, heb, heg, hebe, hdw, hdb]
  rfl

end Cert.KernelIdeal.Hand

end
-- ==== Proof.RefFns.lean ====
import proofs.«153954_g5892695130345_cont_sun_m_578_38_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def catE : (⟨S4096x64, .f32⟩ : BufTy).Contents (Elt F) → (⟨S4096x64, .f32⟩ : BufTy).Contents (Elt F) →
    (⟨S4096x128, .f32⟩ : BufTy).Contents (Elt F) :=
  fun a b => concatenate S4096x128 1 [⟨S4096x64, a⟩, ⟨S4096x64, b⟩] concatenates_S4096x64_S4096x64_S4096x128_d1

def catN : (⟨S8192x64, .f32⟩ : BufTy).Contents (Elt F) → (⟨S8192x64, .f32⟩ : BufTy).Contents (Elt F) →
    (⟨S8192x128, .f32⟩ : BufTy).Contents (Elt F) :=
  fun a b => concatenate S8192x128 1 [⟨S8192x64, a⟩, ⟨S8192x64, b⟩] concatenates_S8192x64_S8192x64_S8192x128_d1

end Cert.ReferenceIdeal.Hand

end
-- ==== Proof.RefRun0.lean ====
import proofs.«153954_g5892695130345_cont_sun_m_578_38_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.nullary main_cst (constant S_ .f32 0x00000000#32),
    StableHlo.binary main_arg0 main_cst main_v0 (fun x v => Host.reduceAdd x v reducesTo_S8192x4096_S4096_d0 h_S_),
    StableHlo.nullary main_cst_0 (constant S_ .f32 0x358637BD#32),
    StableHlo.TRef.unary (.of main_cst_0) main_call0.v0 id,
    StableHlo.TRef.unary main_call0.v0 main_call0.v1 (broadcastInDim S4096 ![] bcast_S_S4096),
    StableHlo.TRef.binary main_call0.v1 (.of main_v0) main_call0.v2 maximumf,
    StableHlo.nullary main_cst_1 (constant S_ .f32 0x00000000#32),
    StableHlo.binary main_arg0 main_cst_1 main_v2 (fun x v => Host.reduceAdd x v reducesTo_S8192x4096_S8192_d1 h_S_),
    StableHlo.nullary main_cst_2 (constant S_ .f32 0x358637BD#32),
    StableHlo.TRef.unary (.of main_cst_2) main_call1.v0 id,
    StableHlo.TRef.unary main_call1.v0 main_call1.v1 (broadcastInDim S8192 ![] bcast_S_S8192),
    StableHlo.TRef.binary main_call1.v1 (.of main_v2) main_call1.v2 maximumf,
    StableHlo.unary main_arg0 main_v4 (transpose S4096x8192 [1, 0] · transposes_S8192x4096_S4096x8192_1_0),
    StableHlo.binary main_v4 main_arg1 main_v5 (fun l r => Host.dotGeneral dot_S4096x8192_S8192x64_S4096x64_1_0_0_1_n_n none l r),
    StableHlo.unary main_v1 main_v6 (broadcastInDim S4096x1 ![0] bcast_S4096_S4096x1_0),
    StableHlo.unary main_v6 main_v7 (broadcastInDim S4096x64 ![0, 1] bcast_S4096x1_S4096x64_0_1),
    StableHlo.binary main_v5 main_v7 main_v8 Host.divf,
    StableHlo.binary main_arg2 main_v8 main_v9 (catE (F := F)),
    StableHlo.unary main_arg3 main_v10 (extractStridedSlice S1x64x128 ![0, 0, 0] · slices_S2x64x128_S1x64x128_0_0_0),
    StableHlo.reshape main_v10 main_v11 rfl shapeCasts_S1x64x128_S64x128,
    StableHlo.unary main_v11 main_v12 (transpose S128x64 [1, 0] · transposes_S64x128_S128x64_1_0),
    StableHlo.binary main_v9 main_v12 main_v13 (fun l r => Host.dotGeneral dot_S4096x128_S128x64_S4096x64_1_0_0_1_n_n none l r),
    StableHlo.unary main_arg4 main_v14 (extractStridedSlice S1x64 ![0, 0] · slices_S2x64_S1x64_0_0),
    StableHlo.reshape main_v14 main_v15 rfl shapeCasts_S1x64_S64,
    StableHlo.unary main_v15 main_v16 (broadcastInDim S1x64 ![1] bcast_S64_S1x64_1),
    StableHlo.unary main_v16 main_v17 (broadcastInDim S4096x64 ![0, 1] bcast_S1x64_S4096x64_0_1),
    StableHlo.binary main_v13 main_v17 main_v18 addf,
    StableHlo.TRef.nullary main_call2.cst (constant S_ .f32 0x00000000#32),
    StableHlo.TRef.unary main_call2.cst main_call2.v0 (broadcastInDim S4096x64 ![] bcast_S_S4096x64),
    StableHlo.TRef.binary (.of main_v18) main_call2.v0 main_call2.v1 maximumf,
    StableHlo.unary main_arg5 main_v20 (extractStridedSlice S1x64 ![0, 0] · slices_S2x64_S1x64_0_0),
    StableHlo.reshape main_v20 main_v21 rfl shapeCasts_S1x64_S64,
    StableHlo.unary main_arg6 main_v22 (extractStridedSlice S1x64 ![0, 0] · slices_S2x64_S1x64_0_0),
    StableHlo.reshape main_v22 main_v23 rfl shapeCasts_S1x64_S64,
    StableHlo.nullary main_cst_3 (constant S_ .f32 0x00000000#32),
    StableHlo.binary main_v19 main_cst_3 main_v24 (fun x v => Host.reduceAdd x v reducesTo_S4096x64_S4096_d1 h_S_),
    StableHlo.unary main_v24 main_v25 (broadcastInDim S4096x1 ![0] bcast_S4096_S4096x1_0),
    StableHlo.nullary main_cst_4 (constant S_ .f32 0x42800000#32),
    StableHlo.unary main_cst_4 main_v26 (broadcastInDim S4096x1 ![] bcast_S_S4096x1),
    StableHlo.binary main_v25 main_v26 main_v27 Host.divf,
    StableHlo.nullary main_c (constantI S_ 32 0#32),
    StableHlo.TRef.nullary main_call3.cst (constant S_ .f32 0x00000000#32),
    StableHlo.TRef.binary (.of main_v19) main_call3.cst main_call3.v0 (fun x v => Host.reduceAdd x v reducesTo_S4096x64_S4096_d1 h_S_),
    StableHlo.TRef.unary main_call3.v0 main_call3.v1 (broadcastInDim S4096x1 ![0] bcast_S4096_S4096x1_0),
    StableHlo.TRef.nullary main_call3.cst_0 (constant S_ .f32 0x42800000#32),
    StableHlo.TRef.unary main_call3.cst_0 main_call3.v2 (broadcastInDim S4096x1 ![] bcast_S_S4096x1),
    StableHlo.TRef.binary main_call3.v1 main_call3.v2 main_call3.v3 Host.divf,
    StableHlo.TRef.unary main_call3.v3 main_call3.v4 (broadcastInDim S4096x64 ![0, 1] bcast_S4096x1_S4096x64_0_1),
    StableHlo.TRef.binary (.of main_v19) main_call3.v4 main_call3.v5 subf,
    StableHlo.TRef.binary main_call3.v5 main_call3.v5 main_call3.v6 mulf,
    StableHlo.TRef.unary (.of main_c) main_call3.v7 (sitofp .f32),
    StableHlo.TRef.nullary main_call3.cst_1 (constant S_ .f32 0x42800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S4096x64_S4096_d1 h_S_),
    StableHlo.TRef.unary main_call3.v9 main_call3.v10 (broadcastInDim S4096x1 ![0] bcast_S4096_S4096x1_0),
    StableHlo.TRef.unary main_call3.v8 main_call3.v11 (broadcastInDim S4096x1 ![] bcast_S_S4096x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S4096x1 ![] bcast_S_S4096x1),
    StableHlo.TRef.ternary main_call3.v13 main_call3.v12 main_call3.call0.v1 main_call3.call0.v2 (fun p a b => select (broadcastInDim S4096x1 ![] bcast_S_S4096x1 p) a b),
    StableHlo.unary main_v27 main_v29 (broadcastInDim S4096x64 ![0, 1] bcast_S4096x1_S4096x64_0_1),
    StableHlo.binary main_v19 main_v29 main_v30 subf,
    StableHlo.nullary main_cst_5 (constant S_ .f32 0x3727C5AC#32),
    StableHlo.unary main_cst_5 main_v31 (broadcastInDim S4096x1 ![] bcast_S_S4096x1),
    StableHlo.binary main_v28 main_v31 main_v32 addf,
    StableHlo.unary main_v32 main_v33 Host.sqrt,
    StableHlo.unary main_v33 main_v34 (broadcastInDim S4096x64 ![0, 1] bcast_S4096x1_S4096x64_0_1),
    StableHlo.binary main_v30 main_v34 main_v35 Host.divf,
    StableHlo.unary main_v21 main_v36 (broadcastInDim S1x64 ![1] bcast_S64_S1x64_1),
    StableHlo.unary main_v36 main_v37 (broadcastInDim S4096x64 ![0, 1] bcast_S1x64_S4096x64_0_1),
    StableHlo.binary main_v35 main_v37 main_v38 mulf,
    StableHlo.unary main_v23 main_v39 (broadcastInDim S1x64 ![1] bcast_S64_S1x64_1),
    StableHlo.unary main_v39 main_v40 (broadcastInDim S4096x64 ![0, 1] bcast_S1x64_S4096x64_0_1),
    StableHlo.binary main_v38 main_v40 main_v41 addf,
    StableHlo.binary main_arg2 main_v41 main_v42 addf,
    StableHlo.binary main_arg0 main_v42 main_v43 (fun l r => Host.dotGeneral dot_S8192x4096_S4096x64_S8192x64_1_0_0_1_n_n none l r),
    StableHlo.unary main_v3 main_v44 (broadcastInDim S8192x1 ![0] bcast_S8192_S8192x1_0),
    StableHlo.unary main_v44 main_v45 (broadcastInDim S8192x64 ![0, 1] bcast_S8192x1_S8192x64_0_1),
    StableHlo.binary main_v43 main_v45 main_v46 Host.divf,
    StableHlo.binary main_arg1 main_v46 main_v47 (catN (F := F)),
    StableHlo.unary main_arg7 main_v48 (extractStridedSlice S1x64x128 ![0, 0, 0] · slices_S2x64x128_S1x64x128_0_0_0),
    StableHlo.reshape main_v48 main_v49 rfl shapeCasts_S1x64x128_S64x128,
    StableHlo.unary main_v49 main_v50 (transpose S128x64 [1, 0] · transposes_S64x128_S128x64_1_0),
    StableHlo.binary main_v47 main_v50 main_v51 (fun l r => Host.dotGeneral dot_S8192x128_S128x64_S8192x64_1_0_0_1_n_n none l r) ]

set_option maxRecDepth 8192 in
set_option maxHeartbeats 4000000 in
theorem main_part0_eq (c : Dev nD) : main_part0 (F := F) c = seq ops0 := by
  simp only [main_part0, fn_clip.body, fn_clip_0.body, fn_relu.body, fn_var.body, fn_where.body, seq, bind_assoc, pure_bind] <;> rfl

set_option maxRecDepth 8192 in
theorem ops0_sub : (ops0 : List (HloOp τ sig (Elt F))).Forall fun op => op.bufs ⊆ tcRefs τ sig := by
  simp only [List.Forall]
  repeat' apply And.intro
  all_goals with_reducible first | exact nullary_bufs_sub .. | exact unary_bufs_sub .. | exact binary_bufs_sub .. | exact ternary_bufs_sub .. | exact reshape_bufs_sub ..

set_option maxRecDepth 8192 in
theorem ops0_fresh : ∀ op ∈ (ops0 : List (HloOp τ sig (Elt F))), op.fresh = ∅ :=
  List.forall_iff_forall_mem.mp (by
    simp only [List.Forall]
    repeat' apply And.intro
    all_goals rfl)

abbrev ops0_W : List (Ref sig .tc) := [main_cst, main_v0, main_cst_0, main_call0_v0, main_call0_v1, main_v1, main_cst_1, main_v2, main_cst_2, main_call1_v0, main_call1_v1, main_v3, main_v4, main_v5, main_v6, main_v7, main_v8, main_v9, main_v10, main_v11, main_v12, main_v13, main_v14, main_v15, main_v16, main_v17, main_v18, main_call2_cst, main_call2_v0, main_v19, main_v20, main_v21, main_v22, main_v23, main_cst_3, main_v24, main_v25, main_cst_4, main_v26, main_v27, main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v28, main_v29, main_v30, main_cst_5, main_v31, main_v32, main_v33, main_v34, main_v35, main_v36, main_v37, main_v38, main_v39, main_v40, main_v41, main_v42, main_v43, main_v44, main_v45, main_v46, main_v47, main_v48, main_v49, main_v50, main_v51]

set_option maxRecDepth 8192 in
theorem ops0_writes : (ops0 : List (HloOp τ sig (Elt F))).Forall fun op =>
    op.writes ⊆ (ops0_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.Hand

end
-- ==== Proof.RefRun1.lean ====
import proofs.«153954_g5892695130345_cont_sun_m_578_38_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ StableHlo.unary main_arg8 main_v52 (extractStridedSlice S1x64 ![0, 0] · slices_S2x64_S1x64_0_0),
    StableHlo.reshape main_v52 main_v53 rfl shapeCasts_S1x64_S64,
    StableHlo.unary main_v53 main_v54 (broadcastInDim S1x64 ![1] bcast_S64_S1x64_1),
    StableHlo.unary main_v54 main_v55 (broadcastInDim S8192x64 ![0, 1] bcast_S1x64_S8192x64_0_1),
    StableHlo.binary main_v51 main_v55 main_v56 addf,
    StableHlo.TRef.nullary main_call4.cst (constant S_ .f32 0x00000000#32),
    StableHlo.TRef.unary main_call4.cst main_call4.v0 (broadcastInDim S8192x64 ![] bcast_S_S8192x64),
    StableHlo.TRef.binary (.of main_v56) main_call4.v0 main_call4.v1 maximumf,
    StableHlo.unary main_arg9 main_v58 (extractStridedSlice S1x64 ![0, 0] · slices_S2x64_S1x64_0_0),
    StableHlo.reshape main_v58 main_v59 rfl shapeCasts_S1x64_S64,
    StableHlo.unary main_arg10 main_v60 (extractStridedSlice S1x64 ![0, 0] · slices_S2x64_S1x64_0_0),
    StableHlo.reshape main_v60 main_v61 rfl shapeCasts_S1x64_S64,
    StableHlo.nullary main_cst_6 (constant S_ .f32 0x00000000#32),
    StableHlo.binary main_v57 main_cst_6 main_v62 (fun x v => Host.reduceAdd x v reducesTo_S8192x64_S8192_d1 h_S_),
    StableHlo.unary main_v62 main_v63 (broadcastInDim S8192x1 ![0] bcast_S8192_S8192x1_0),
    StableHlo.nullary main_cst_7 (constant S_ .f32 0x42800000#32),
    StableHlo.unary main_cst_7 main_v64 (broadcastInDim S8192x1 ![] bcast_S_S8192x1),
    StableHlo.binary main_v63 main_v64 main_v65 Host.divf,
    StableHlo.nullary main_c_8 (constantI S_ 32 0#32),
    StableHlo.TRef.nullary main_call5.cst (constant S_ .f32 0x00000000#32),
    StableHlo.TRef.binary (.of main_v57) main_call5.cst main_call5.v0 (fun x v => Host.reduceAdd x v reducesTo_S8192x64_S8192_d1 h_S_),
    StableHlo.TRef.unary main_call5.v0 main_call5.v1 (broadcastInDim S8192x1 ![0] bcast_S8192_S8192x1_0),
    StableHlo.TRef.nullary main_call5.cst_0 (constant S_ .f32 0x42800000#32),
    StableHlo.TRef.unary main_call5.cst_0 main_call5.v2 (broadcastInDim S8192x1 ![] bcast_S_S8192x1),
    StableHlo.TRef.binary main_call5.v1 main_call5.v2 main_call5.v3 Host.divf,
    StableHlo.TRef.unary main_call5.v3 main_call5.v4 (broadcastInDim S8192x64 ![0, 1] bcast_S8192x1_S8192x64_0_1),
    StableHlo.TRef.binary (.of main_v57) main_call5.v4 main_call5.v5 subf,
    StableHlo.TRef.binary main_call5.v5 main_call5.v5 main_call5.v6 mulf,
    StableHlo.TRef.unary (.of main_c_8) main_call5.v7 (sitofp .f32),
    StableHlo.TRef.nullary main_call5.cst_1 (constant S_ .f32 0x42800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S8192x64_S8192_d1 h_S_),
    StableHlo.TRef.unary main_call5.v9 main_call5.v10 (broadcastInDim S8192x1 ![0] bcast_S8192_S8192x1_0),
    StableHlo.TRef.unary main_call5.v8 main_call5.v11 (broadcastInDim S8192x1 ![] bcast_S_S8192x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S8192x1 ![] bcast_S_S8192x1),
    StableHlo.TRef.ternary main_call5.v13 main_call5.v12 main_call5.call0.v1 main_call5.call0.v2 (fun p a b => select (broadcastInDim S8192x1 ![] bcast_S_S8192x1 p) a b),
    StableHlo.unary main_v65 main_v67 (broadcastInDim S8192x64 ![0, 1] bcast_S8192x1_S8192x64_0_1),
    StableHlo.binary main_v57 main_v67 main_v68 subf,
    StableHlo.nullary main_cst_9 (constant S_ .f32 0x3727C5AC#32),
    StableHlo.unary main_cst_9 main_v69 (broadcastInDim S8192x1 ![] bcast_S_S8192x1),
    StableHlo.binary main_v66 main_v69 main_v70 addf,
    StableHlo.unary main_v70 main_v71 Host.sqrt,
    StableHlo.unary main_v71 main_v72 (broadcastInDim S8192x64 ![0, 1] bcast_S8192x1_S8192x64_0_1),
    StableHlo.binary main_v68 main_v72 main_v73 Host.divf,
    StableHlo.unary main_v59 main_v74 (broadcastInDim S1x64 ![1] bcast_S64_S1x64_1),
    StableHlo.unary main_v74 main_v75 (broadcastInDim S8192x64 ![0, 1] bcast_S1x64_S8192x64_0_1),
    StableHlo.binary main_v73 main_v75 main_v76 mulf,
    StableHlo.unary main_v61 main_v77 (broadcastInDim S1x64 ![1] bcast_S64_S1x64_1),
    StableHlo.unary main_v77 main_v78 (broadcastInDim S8192x64 ![0, 1] bcast_S1x64_S8192x64_0_1),
    StableHlo.binary main_v76 main_v78 main_v79 addf,
    StableHlo.binary main_arg1 main_v79 main_v80 addf,
    StableHlo.unary main_arg0 main_v81 (transpose S4096x8192 [1, 0] · transposes_S8192x4096_S4096x8192_1_0),
    StableHlo.binary main_v81 main_v80 main_v82 (fun l r => Host.dotGeneral dot_S4096x8192_S8192x64_S4096x64_1_0_0_1_n_n none l r),
    StableHlo.unary main_v1 main_v83 (broadcastInDim S4096x1 ![0] bcast_S4096_S4096x1_0),
    StableHlo.unary main_v83 main_v84 (broadcastInDim S4096x64 ![0, 1] bcast_S4096x1_S4096x64_0_1),
    StableHlo.binary main_v82 main_v84 main_v85 Host.divf,
    StableHlo.binary main_v42 main_v85 main_v86 (catE (F := F)),
    StableHlo.unary main_arg3 main_v87 (extractStridedSlice S1x64x128 ![1, 0, 0] · slices_S2x64x128_S1x64x128_1_0_0),
    StableHlo.reshape main_v87 main_v88 rfl shapeCasts_S1x64x128_S64x128,
    StableHlo.unary main_v88 main_v89 (transpose S128x64 [1, 0] · transposes_S64x128_S128x64_1_0),
    StableHlo.binary main_v86 main_v89 main_v90 (fun l r => Host.dotGeneral dot_S4096x128_S128x64_S4096x64_1_0_0_1_n_n none l r),
    StableHlo.unary main_arg4 main_v91 (extractStridedSlice S1x64 ![1, 0] · slices_S2x64_S1x64_1_0),
    StableHlo.reshape main_v91 main_v92 rfl shapeCasts_S1x64_S64,
    StableHlo.unary main_v92 main_v93 (broadcastInDim S1x64 ![1] bcast_S64_S1x64_1),
    StableHlo.unary main_v93 main_v94 (broadcastInDim S4096x64 ![0, 1] bcast_S1x64_S4096x64_0_1),
    StableHlo.binary main_v90 main_v94 main_v95 addf,
    StableHlo.TRef.nullary main_call6.cst (constant S_ .f32 0x00000000#32),
    StableHlo.TRef.unary main_call6.cst main_call6.v0 (broadcastInDim S4096x64 ![] bcast_S_S4096x64),
    StableHlo.TRef.binary (.of main_v95) main_call6.v0 main_call6.v1 maximumf,
    StableHlo.unary main_arg5 main_v97 (extractStridedSlice S1x64 ![1, 0] · slices_S2x64_S1x64_1_0),
    StableHlo.reshape main_v97 main_v98 rfl shapeCasts_S1x64_S64,
    StableHlo.unary main_arg6 main_v99 (extractStridedSlice S1x64 ![1, 0] · slices_S2x64_S1x64_1_0),
    StableHlo.reshape main_v99 main_v100 rfl shapeCasts_S1x64_S64,
    StableHlo.nullary main_cst_10 (constant S_ .f32 0x00000000#32),
    StableHlo.binary main_v96 main_cst_10 main_v101 (fun x v => Host.reduceAdd x v reducesTo_S4096x64_S4096_d1 h_S_),
    StableHlo.unary main_v101 main_v102 (broadcastInDim S4096x1 ![0] bcast_S4096_S4096x1_0),
    StableHlo.nullary main_cst_11 (constant S_ .f32 0x42800000#32),
    StableHlo.unary main_cst_11 main_v103 (broadcastInDim S4096x1 ![] bcast_S_S4096x1),
    StableHlo.binary main_v102 main_v103 main_v104 Host.divf,
    StableHlo.nullary main_c_12 (constantI S_ 32 0#32) ]

set_option maxRecDepth 8192 in
set_option maxHeartbeats 4000000 in
theorem main_part1_eq (c : Dev nD) : main_part1 (F := F) c = seq ops1 := by
  simp only [main_part1, fn_relu_1.body, fn_var_2.body, fn_relu.body, fn_where_3.body, seq, bind_assoc, pure_bind] <;> rfl

set_option maxRecDepth 8192 in
theorem ops1_sub : (ops1 : List (HloOp τ sig (Elt F))).Forall fun op => op.bufs ⊆ tcRefs τ sig := by
  simp only [List.Forall]
  repeat' apply And.intro
  all_goals with_reducible first | exact nullary_bufs_sub .. | exact unary_bufs_sub .. | exact binary_bufs_sub .. | exact ternary_bufs_sub .. | exact reshape_bufs_sub ..

set_option maxRecDepth 8192 in
theorem ops1_fresh : ∀ op ∈ (ops1 : List (HloOp τ sig (Elt F))), op.fresh = ∅ :=
  List.forall_iff_forall_mem.mp (by
    simp only [List.Forall]
    repeat' apply And.intro
    all_goals rfl)

abbrev ops1_W : List (Ref sig .tc) := [main_v52, main_v53, main_v54, main_v55, main_v56, main_call4_cst, main_call4_v0, main_v57, main_v58, main_v59, main_v60, main_v61, main_cst_6, main_v62, main_v63, main_cst_7, main_v64, main_v65, main_c_8, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v66, main_v67, main_v68, main_cst_9, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_call6_cst, main_call6_v0, main_v96, main_v97, main_v98, main_v99, main_v100, main_cst_10, main_v101, main_v102, main_cst_11, main_v103, main_v104, main_c_12]

set_option maxRecDepth 8192 in
theorem ops1_writes : (ops1 : List (HloOp τ sig (Elt F))).Forall fun op =>
    op.writes ⊆ (ops1_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.Hand

end
-- ==== Proof.RefRun2.lean ====
import proofs.«153954_g5892695130345_cont_sun_m_578_38_alg».proof.Proof.RefFns
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ StableHlo.TRef.nullary main_call7.cst (constant S_ .f32 0x00000000#32),
    StableHlo.TRef.binary (.of main_v96) main_call7.cst main_call7.v0 (fun x v => Host.reduceAdd x v reducesTo_S4096x64_S4096_d1 h_S_),
    StableHlo.TRef.unary main_call7.v0 main_call7.v1 (broadcastInDim S4096x1 ![0] bcast_S4096_S4096x1_0),
    StableHlo.TRef.nullary main_call7.cst_0 (constant S_ .f32 0x42800000#32),
    StableHlo.TRef.unary main_call7.cst_0 main_call7.v2 (broadcastInDim S4096x1 ![] bcast_S_S4096x1),
    StableHlo.TRef.binary main_call7.v1 main_call7.v2 main_call7.v3 Host.divf,
    StableHlo.TRef.unary main_call7.v3 main_call7.v4 (broadcastInDim S4096x64 ![0, 1] bcast_S4096x1_S4096x64_0_1),
    StableHlo.TRef.binary (.of main_v96) main_call7.v4 main_call7.v5 subf,
    StableHlo.TRef.binary main_call7.v5 main_call7.v5 main_call7.v6 mulf,
    StableHlo.TRef.unary (.of main_c_12) main_call7.v7 (sitofp .f32),
    StableHlo.TRef.nullary main_call7.cst_1 (constant S_ .f32 0x42800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S4096x64_S4096_d1 h_S_),
    StableHlo.TRef.unary main_call7.v9 main_call7.v10 (broadcastInDim S4096x1 ![0] bcast_S4096_S4096x1_0),
    StableHlo.TRef.unary main_call7.v8 main_call7.v11 (broadcastInDim S4096x1 ![] bcast_S_S4096x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S4096x1 ![] bcast_S_S4096x1),
    StableHlo.TRef.ternary main_call7.v13 main_call7.v12 main_call7.call0.v1 main_call7.call0.v2 (fun p a b => select (broadcastInDim S4096x1 ![] bcast_S_S4096x1 p) a b),
    StableHlo.unary main_v104 main_v106 (broadcastInDim S4096x64 ![0, 1] bcast_S4096x1_S4096x64_0_1),
    StableHlo.binary main_v96 main_v106 main_v107 subf,
    StableHlo.nullary main_cst_13 (constant S_ .f32 0x3727C5AC#32),
    StableHlo.unary main_cst_13 main_v108 (broadcastInDim S4096x1 ![] bcast_S_S4096x1),
    StableHlo.binary main_v105 main_v108 main_v109 addf,
    StableHlo.unary main_v109 main_v110 Host.sqrt,
    StableHlo.unary main_v110 main_v111 (broadcastInDim S4096x64 ![0, 1] bcast_S4096x1_S4096x64_0_1),
    StableHlo.binary main_v107 main_v111 main_v112 Host.divf,
    StableHlo.unary main_v98 main_v113 (broadcastInDim S1x64 ![1] bcast_S64_S1x64_1),
    StableHlo.unary main_v113 main_v114 (broadcastInDim S4096x64 ![0, 1] bcast_S1x64_S4096x64_0_1),
    StableHlo.binary main_v112 main_v114 main_v115 mulf,
    StableHlo.unary main_v100 main_v116 (broadcastInDim S1x64 ![1] bcast_S64_S1x64_1),
    StableHlo.unary main_v116 main_v117 (broadcastInDim S4096x64 ![0, 1] bcast_S1x64_S4096x64_0_1),
    StableHlo.binary main_v115 main_v117 main_v118 addf,
    StableHlo.binary main_v42 main_v118 main_v119 addf,
    StableHlo.binary main_arg0 main_v119 main_v120 (fun l r => Host.dotGeneral dot_S8192x4096_S4096x64_S8192x64_1_0_0_1_n_n none l r),
    StableHlo.unary main_v3 main_v121 (broadcastInDim S8192x1 ![0] bcast_S8192_S8192x1_0),
    StableHlo.unary main_v121 main_v122 (broadcastInDim S8192x64 ![0, 1] bcast_S8192x1_S8192x64_0_1),
    StableHlo.binary main_v120 main_v122 main_v123 Host.divf,
    StableHlo.binary main_v80 main_v123 main_v124 (catN (F := F)),
    StableHlo.unary main_arg7 main_v125 (extractStridedSlice S1x64x128 ![1, 0, 0] · slices_S2x64x128_S1x64x128_1_0_0),
    StableHlo.reshape main_v125 main_v126 rfl shapeCasts_S1x64x128_S64x128,
    StableHlo.unary main_v126 main_v127 (transpose S128x64 [1, 0] · transposes_S64x128_S128x64_1_0),
    StableHlo.binary main_v124 main_v127 main_v128 (fun l r => Host.dotGeneral dot_S8192x128_S128x64_S8192x64_1_0_0_1_n_n none l r),
    StableHlo.unary main_arg8 main_v129 (extractStridedSlice S1x64 ![1, 0] · slices_S2x64_S1x64_1_0),
    StableHlo.reshape main_v129 main_v130 rfl shapeCasts_S1x64_S64,
    StableHlo.unary main_v130 main_v131 (broadcastInDim S1x64 ![1] bcast_S64_S1x64_1),
    StableHlo.unary main_v131 main_v132 (broadcastInDim S8192x64 ![0, 1] bcast_S1x64_S8192x64_0_1),
    StableHlo.binary main_v128 main_v132 main_v133 addf,
    StableHlo.TRef.nullary main_call8.cst (constant S_ .f32 0x00000000#32),
    StableHlo.TRef.unary main_call8.cst main_call8.v0 (broadcastInDim S8192x64 ![] bcast_S_S8192x64),
    StableHlo.TRef.binary (.of main_v133) main_call8.v0 main_call8.v1 maximumf,
    StableHlo.unary main_arg9 main_v135 (extractStridedSlice S1x64 ![1, 0] · slices_S2x64_S1x64_1_0),
    StableHlo.reshape main_v135 main_v136 rfl shapeCasts_S1x64_S64,
    StableHlo.unary main_arg10 main_v137 (extractStridedSlice S1x64 ![1, 0] · slices_S2x64_S1x64_1_0),
    StableHlo.reshape main_v137 main_v138 rfl shapeCasts_S1x64_S64,
    StableHlo.nullary main_cst_14 (constant S_ .f32 0x00000000#32),
    StableHlo.binary main_v134 main_cst_14 main_v139 (fun x v => Host.reduceAdd x v reducesTo_S8192x64_S8192_d1 h_S_),
    StableHlo.unary main_v139 main_v140 (broadcastInDim S8192x1 ![0] bcast_S8192_S8192x1_0),
    StableHlo.nullary main_cst_15 (constant S_ .f32 0x42800000#32),
    StableHlo.unary main_cst_15 main_v141 (broadcastInDim S8192x1 ![] bcast_S_S8192x1),
    StableHlo.binary main_v140 main_v141 main_v142 Host.divf,
    StableHlo.nullary main_c_16 (constantI S_ 32 0#32),
    StableHlo.TRef.nullary main_call9.cst (constant S_ .f32 0x00000000#32),
    StableHlo.TRef.binary (.of main_v134) main_call9.cst main_call9.v0 (fun x v => Host.reduceAdd x v reducesTo_S8192x64_S8192_d1 h_S_),
    StableHlo.TRef.unary main_call9.v0 main_call9.v1 (broadcastInDim S8192x1 ![0] bcast_S8192_S8192x1_0),
    StableHlo.TRef.nullary main_call9.cst_0 (constant S_ .f32 0x42800000#32),
    StableHlo.TRef.unary main_call9.cst_0 main_call9.v2 (broadcastInDim S8192x1 ![] bcast_S_S8192x1),
    StableHlo.TRef.binary main_call9.v1 main_call9.v2 main_call9.v3 Host.divf,
    StableHlo.TRef.unary main_call9.v3 main_call9.v4 (broadcastInDim S8192x64 ![0, 1] bcast_S8192x1_S8192x64_0_1),
    StableHlo.TRef.binary (.of main_v134) main_call9.v4 main_call9.v5 subf,
    StableHlo.TRef.binary main_call9.v5 main_call9.v5 main_call9.v6 mulf,
    StableHlo.TRef.unary (.of main_c_16) main_call9.v7 (sitofp .f32),
    StableHlo.TRef.nullary main_call9.cst_1 (constant S_ .f32 0x42800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S8192x64_S8192_d1 h_S_),
    StableHlo.TRef.unary main_call9.v9 main_call9.v10 (broadcastInDim S8192x1 ![0] bcast_S8192_S8192x1_0),
    StableHlo.TRef.unary main_call9.v8 main_call9.v11 (broadcastInDim S8192x1 ![] bcast_S_S8192x1),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S8192x1 ![] bcast_S_S8192x1),
    StableHlo.TRef.ternary main_call9.v13 main_call9.v12 main_call9.call0.v1 main_call9.call0.v2 (fun p a b => select (broadcastInDim S8192x1 ![] bcast_S_S8192x1 p) a b),
    StableHlo.unary main_v142 main_v144 (broadcastInDim S8192x64 ![0, 1] bcast_S8192x1_S8192x64_0_1),
    StableHlo.binary main_v134 main_v144 main_v145 subf,
    StableHlo.nullary main_cst_17 (constant S_ .f32 0x3727C5AC#32),
    StableHlo.unary main_cst_17 main_v146 (broadcastInDim S8192x1 ![] bcast_S_S8192x1),
    StableHlo.binary main_v143 main_v146 main_v147 addf,
    StableHlo.unary main_v147 main_v148 Host.sqrt,
    StableHlo.unary main_v148 main_v149 (broadcastInDim S8192x64 ![0, 1] bcast_S8192x1_S8192x64_0_1),
    StableHlo.binary main_v145 main_v149 main_v150 Host.divf,
    StableHlo.unary main_v136 main_v151 (broadcastInDim S1x64 ![1] bcast_S64_S1x64_1),
    StableHlo.unary main_v151 main_v152 (broadcastInDim S8192x64 ![0, 1] bcast_S1x64_S8192x64_0_1),
    StableHlo.binary main_v150 main_v152 main_v153 mulf,
    StableHlo.unary main_v138 main_v154 (broadcastInDim S1x64 ![1] bcast_S64_S1x64_1),
    StableHlo.unary main_v154 main_v155 (broadcastInDim S8192x64 ![0, 1] bcast_S1x64_S8192x64_0_1),
    StableHlo.binary main_v153 main_v155 main_v156 addf,
    StableHlo.binary main_v80 main_v156 main_v157 addf,
    StableHlo.unary main_arg11 main_v158 (transpose S64x1 [1, 0] · transposes_S1x64_S64x1_1_0),
    StableHlo.binary main_v119 main_v158 main_v159 (fun l r => Host.dotGeneral dot_S4096x64_S64x1_S4096x1_1_0_0_1_n_n none l r) ]

set_option maxRecDepth 8192 in
set_option maxHeartbeats 4000000 in
theorem main_part2_eq (c : Dev nD) : main_part2 (F := F) c = seq ops2 := by
  simp only [main_part2, fn_var.body, fn_relu_1.body, fn_var_2.body, fn_where.body, fn_where_3.body, seq, bind_assoc, pure_bind] <;> rfl

set_option maxRecDepth 8192 in
theorem ops2_sub : (ops2 : List (HloOp τ sig (Elt F))).Forall fun op => op.bufs ⊆ tcRefs τ sig := by
  simp only [List.Forall]
  repeat' apply And.intro
  all_goals with_reducible first | exact nullary_bufs_sub .. | exact unary_bufs_sub .. | exact binary_bufs_sub .. | exact ternary_bufs_sub .. | exact reshape_bufs_sub ..

set_option maxRecDepth 8192 in
theorem ops2_fresh : ∀ op ∈ (ops2 : List (HloOp τ sig (Elt F))), op.fresh = ∅ :=
  List.forall_iff_forall_mem.mp (by
    simp only [List.Forall]
    repeat' apply And.intro
    all_goals rfl)

abbrev ops2_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v105, main_v106, main_v107, main_cst_13, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_call8_cst, main_call8_v0, main_v134, main_v135, main_v136, main_v137, main_v138, main_cst_14, main_v139, main_v140, main_cst_15, main_v141, main_v142, main_c_16, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v143, main_v144, main_v145, main_cst_17, main_v146, main_v147, main_v148, main_v149, main_v150, main_v151, main_v152, main_v153, main_v154, main_v155, main_v156, main_v157, main_v158, main_v159]

set_option maxRecDepth 8192 in
theorem ops2_writes : (ops2 : List (HloOp τ sig (Elt F))).Forall fun op =>
    op.writes ⊆ (ops2_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.Hand

end
-- ==== Proof.RefRun3.lean ====
import proofs.«153954_g5892695130345_cont_sun_m_578_38_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ StableHlo.unary main_arg12 main_v160 (broadcastInDim S1x1 ![1] bcast_S1_S1x1_1),
    StableHlo.unary main_v160 main_v161 (broadcastInDim S4096x1 ![0, 1] bcast_S1x1_S4096x1_0_1),
    StableHlo.binary main_v159 main_v161 main_v162 addf,
    StableHlo.nullary main_cst_18 (constant S_ .f32 0x3F333333#32),
    StableHlo.unary main_cst_18 main_v163 (broadcastInDim S4096x1 ![] bcast_S_S4096x1),
    StableHlo.binary main_v163 main_v162 main_v164 mulf,
    StableHlo.unary main_v164 main_v165 Host.negf,
    StableHlo.unary main_v165 main_v166 Host.exp,
    StableHlo.nullary main_cst_19 (constant S_ .f32 0x3F800000#32),
    StableHlo.unary main_cst_19 main_v167 (broadcastInDim S4096x1 ![] bcast_S_S4096x1),
    StableHlo.binary main_v167 main_v166 main_v168 addf,
    StableHlo.nullary main_cst_20 (constant S_ .f32 0x3F800000#32),
    StableHlo.unary main_cst_20 main_v169 (broadcastInDim S4096x1 ![] bcast_S_S4096x1),
    StableHlo.binary main_v169 main_v168 main_v170 Host.divf,
    StableHlo.reshape main_v170 main_v171 rfl shapeCasts_S4096x1_S4096 ]

set_option maxRecDepth 8192 in
set_option maxHeartbeats 4000000 in
theorem main_part3_eq (c : Dev nD) : main_part3 (F := F) c = seq ops3 := by
  simp only [main_part3, seq, bind_assoc, pure_bind] <;> rfl

set_option maxRecDepth 8192 in
theorem ops3_sub : (ops3 : List (HloOp τ sig (Elt F))).Forall fun op => op.bufs ⊆ tcRefs τ sig := by
  simp only [List.Forall]
  repeat' apply And.intro
  all_goals with_reducible first | exact nullary_bufs_sub .. | exact unary_bufs_sub .. | exact binary_bufs_sub .. | exact ternary_bufs_sub .. | exact reshape_bufs_sub ..

set_option maxRecDepth 8192 in
theorem ops3_fresh : ∀ op ∈ (ops3 : List (HloOp τ sig (Elt F))), op.fresh = ∅ :=
  List.forall_iff_forall_mem.mp (by
    simp only [List.Forall]
    repeat' apply And.intro
    all_goals rfl)

abbrev ops3_W : List (Ref sig .tc) := [main_v160, main_v161, main_v162, main_cst_18, main_v163, main_v164, main_v165, main_v166, main_cst_19, main_v167, main_v168, main_cst_20, main_v169, main_v170, main_v171]

set_option maxRecDepth 8192 in
theorem ops3_writes : (ops3 : List (HloOp τ sig (Elt F))).Forall fun op =>
    op.writes ⊆ (ops3_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.Hand

end
-- ==== Proof.RefRun.lean ====
import proofs.«153954_g5892695130345_cont_sun_m_578_38_alg».proof.Proof.RefRun0
import proofs.«153954_g5892695130345_cont_sun_m_578_38_alg».proof.Proof.RefRun1
import proofs.«153954_g5892695130345_cont_sun_m_578_38_alg».proof.Proof.RefRun2
import proofs.«153954_g5892695130345_cont_sun_m_578_38_alg».proof.Proof.RefRun3
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ ops3))

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (ops0 : List (HloOp τ sig (Elt F))) ∨ op ∈ (ops1 : List (HloOp τ sig (Elt F)))
      ∨ op ∈ (ops2 : List (HloOp τ sig (Elt F))) ∨ op ∈ (ops3 : List (HloOp τ sig (Elt F))) := by
  rcases List.mem_append.mp h with h | h
  · exact .inl h
  rcases List.mem_append.mp h with h | h
  · exact .inr (.inl h)
  rcases List.mem_append.mp h with h | h
  · exact .inr (.inr (.inl h))
  · exact .inr (.inr (.inr h))

theorem ops_sub : (ops : List (HloOp τ sig (Elt F))).Forall fun op => op.bufs ⊆ tcRefs τ sig :=
  List.forall_iff_forall_mem.mpr fun op h => by
    rcases mem_ops h with h | h | h | h
    exacts [List.forall_iff_forall_mem.mp ops0_sub op h, List.forall_iff_forall_mem.mp ops1_sub op h,
      List.forall_iff_forall_mem.mp ops2_sub op h, List.forall_iff_forall_mem.mp ops3_sub op h]

theorem ops_fresh : ∀ op ∈ (ops : List (HloOp τ sig (Elt F))), op.fresh = ∅ := fun op h => by
  rcases mem_ops h with h | h | h | h
  exacts [ops0_fresh op h, ops1_fresh op h, ops2_fresh op h, ops3_fresh op h]

theorem after_ops (V : Valuation τ sig (Elt F)) :
    after ops V = after ops3 (after ops2 (after ops1 (after ops0 V))) := by
  simp only [ops, after_append]

theorem ops_keep (V : Valuation τ sig (Elt F)) (r : Ref sig .tc) (h0 : r ∉ ops0_W) (h1 : r ∉ ops1_W) (h2 : r ∉ ops2_W)
    (h3 : r ∉ ops3_W) : after ops V (Proc.devRef .tc r) = V (Proc.devRef .tc r) := by
  rw [after_ops, ops3_keep _ r h3, ops2_keep _ r h2, ops1_keep _ r h1, ops0_keep _ r h0]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v171) = after ops (launchContents m c) (Proc.devRef .tc main_v171)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v171,
      (h c main_arg0).trans (ops_keep _ main_arg0 (by decide) (by decide) (by decide) (by decide)),
      (h c main_arg1).trans (ops_keep _ main_arg1 (by decide) (by decide) (by decide) (by decide)),
      (h c main_arg2).trans (ops_keep _ main_arg2 (by decide) (by decide) (by decide) (by decide)),
      (h c main_arg3).trans (ops_keep _ main_arg3 (by decide) (by decide) (by decide) (by decide)),
      (h c main_arg4).trans (ops_keep _ main_arg4 (by decide) (by decide) (by decide) (by decide)),
      (h c main_arg5).trans (ops_keep _ main_arg5 (by decide) (by decide) (by decide) (by decide)),
      (h c main_arg6).trans (ops_keep _ main_arg6 (by decide) (by decide) (by decide) (by decide)),
      (h c main_arg7).trans (ops_keep _ main_arg7 (by decide) (by decide) (by decide) (by decide)),
      (h c main_arg8).trans (ops_keep _ main_arg8 (by decide) (by decide) (by decide) (by decide)),
      (h c main_arg9).trans (ops_keep _ main_arg9 (by decide) (by decide) (by decide) (by decide)),
      (h c main_arg10).trans (ops_keep _ main_arg10 (by decide) (by decide) (by decide) (by decide)),
      (h c main_arg11).trans (ops_keep _ main_arg11 (by decide) (by decide) (by decide) (by decide)),
      (h c main_arg12).trans (ops_keep _ main_arg12 (by decide) (by decide) (by decide) (by decide))⟩)
    (run_seq scopedRefs_eq scopedSems_eq defs main (fun _ => ops) main_eq (fun _ => ops_sub) m ρ (fun _ => ops_fresh))

end Cert.ReferenceIdeal.Hand

end
-- ==== Proof.RefStages.lean ====
import proofs.«153954_g5892695130345_cont_sun_m_578_38_alg».proof.Proof.RefFns

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (a0 : (⟨S8192x4096, .f32⟩ : BufTy).Contents (Elt F)) (a1 : (⟨S8192x64, .f32⟩ : BufTy).Contents (Elt F)) (a2 : (⟨S4096x64, .f32⟩ : BufTy).Contents (Elt F)) (a3 : (⟨S2x64x128, .f32⟩ : BufTy).Contents (Elt F)) (a4 : (⟨S2x64, .f32⟩ : BufTy).Contents (Elt F)) (a5 : (⟨S2x64, .f32⟩ : BufTy).Contents (Elt F)) (a6 : (⟨S2x64, .f32⟩ : BufTy).Contents (Elt F)) (a7 : (⟨S2x64x128, .f32⟩ : BufTy).Contents (Elt F)) (a8 : (⟨S2x64, .f32⟩ : BufTy).Contents (Elt F)) (a9 : (⟨S2x64, .f32⟩ : BufTy).Contents (Elt F)) (a10 : (⟨S2x64, .f32⟩ : BufTy).Contents (Elt F)) (a11 : (⟨S1x64, .f32⟩ : BufTy).Contents (Elt F)) (a12 : (⟨S1, .f32⟩ : BufTy).Contents (Elt F))

def val_main_v1 :
    (⟨S4096, .f32⟩ : BufTy).Contents (Elt F) :=
  maximumf (broadcastInDim S4096 ![] bcast_S_S4096 (id (((constant S_ .f32 0x358637BD#32) : (⟨S_, .f32⟩ : BufTy).Contents (Elt F))))) (Host.reduceAdd (a0) (((constant S_ .f32 0x00000000#32) : (⟨S_, .f32⟩ : BufTy).Contents (Elt F))) reducesTo_S8192x4096_S4096_d0 h_S_)

def val_main_v3 :
    (⟨S8192, .f32⟩ : BufTy).Contents (Elt F) :=
  maximumf (broadcastInDim S8192 ![] bcast_S_S8192 (id (((constant S_ .f32 0x358637BD#32) : (⟨S_, .f32⟩ : BufTy).Contents (Elt F))))) (Host.reduceAdd (a0) (((constant S_ .f32 0x00000000#32) : (⟨S_, .f32⟩ : BufTy).Contents (Elt F))) reducesTo_S8192x4096_S8192_d1 h_S_)

def val_main_v19 :
    (⟨S4096x64, .f32⟩ : BufTy).Contents (Elt F) :=
  maximumf (addf (Host.dotGeneral dot_S4096x128_S128x64_S4096x64_1_0_0_1_n_n none (catE (F := F) (a2) (Host.divf (Host.dotGeneral dot_S4096x8192_S8192x64_S4096x64_1_0_0_1_n_n none (transpose S4096x8192 [1, 0] (a0) transposes_S8192x4096_S4096x8192_1_0) (a1)) (broadcastInDim S4096x64 ![0, 1] bcast_S4096x1_S4096x64_0_1 (broadcastInDim S4096x1 ![0] bcast_S4096_S4096x1_0 (val_main_v1 a0))))) (transpose S128x64 [1, 0] (shapeCast S64x128 (extractStridedSlice S1x64x128 ![0, 0, 0] (a3) slices_S2x64x128_S1x64x128_0_0_0) shapeCasts_S1x64x128_S64x128) transposes_S64x128_S128x64_1_0)) (broadcastInDim S4096x64 ![0, 1] bcast_S1x64_S4096x64_0_1 (broadcastInDim S1x64 ![1] bcast_S64_S1x64_1 (shapeCast S64 (extractStridedSlice S1x64 ![0, 0] (a4) slices_S2x64_S1x64_0_0) shapeCasts_S1x64_S64)))) (broadcastInDim S4096x64 ![] bcast_S_S4096x64 (((constant S_ .f32 0x00000000#32) : (⟨S_, .f32⟩ : BufTy).Contents (Elt F))))

def val_main_call3_v5 :
    (⟨S4096x64, .f32⟩ : BufTy).Contents (Elt F) :=
  subf (val_main_v19 a0 a1 a2 a3 a4) (broadcastInDim S4096x64 ![0, 1] bcast_S4096x1_S4096x64_0_1 (Host.divf (broadcastInDim S4096x1 ![0] bcast_S4096_S4096x1_0 (Host.reduceAdd (val_main_v19 a0 a1 a2 a3 a4) (((constant S_ .f32 0x00000000#32) : (⟨S_, .f32⟩ : BufTy).Contents (Elt F))) reducesTo_S4096x64_S4096_d1 h_S_)) (broadcastInDim S4096x1 ![] bcast_S_S4096x1 (((constant S_ .f32 0x42800000#32) : (⟨S_, .f32⟩ : BufTy).Contents (Elt F))))))

def val_main_call3_v8 :
    (⟨S_, .f32⟩ : BufTy).Contents (Elt F) :=
  subf (((constant S_ .f32 0x42800000#32) : (⟨S_, .f32⟩ : BufTy).Contents (Elt F))) (sitofp .f32 (((constantI S_ 32 0#32) : (⟨S_, .i32⟩ : BufTy).Contents (Elt F))))

def val_main_v42 :
    (⟨S4096x64, .f32⟩ : BufTy).Contents (Elt F) :=
  addf (a2) (addf (mulf (Host.divf (subf (val_main_v19 a0 a1 a2 a3 a4) (broadcastInDim S4096x64 ![0, 1] bcast_S4096x1_S4096x64_0_1 (Host.divf (broadcastInDim S4096x1 ![0] bcast_S4096_S4096x1_0 (Host.reduceAdd (val_main_v19 a0 a1 a2 a3 a4) (((constant S_ .f32 0x00000000#32) : (⟨S_, .f32⟩ : BufTy).Contents (Elt F))) reducesTo_S4096x64_S4096_d1 h_S_)) (broadcastInDim S4096x1 ![] bcast_S_S4096x1 (((constant S_ .f32 0x42800000#32) : (⟨S_, .f32⟩ : BufTy).Contents (Elt F))))))) (broadcastInDim S4096x64 ![0, 1] bcast_S4096x1_S4096x64_0_1 (Host.sqrt (addf (select (broadcastInDim S4096x1 ![] bcast_S_S4096x1 (cmpf .ogt (val_main_call3_v8) (((constant S_ .f32 0x00000000#32) : (⟨S_, .f32⟩ : BufTy).Contents (Elt F))))) (Host.divf (broadcastInDim S4096x1 ![0] bcast_S4096_S4096x1_0 (Host.reduceAdd (mulf (val_main_call3_v5 a0 a1 a2 a3 a4) (val_main_call3_v5 a0 a1 a2 a3 a4)) (((constant S_ .f32 0x00000000#32) : (⟨S_, .f32⟩ : BufTy).Contents (Elt F))) reducesTo_S4096x64_S4096_d1 h_S_)) (broadcastInDim S4096x1 ![] bcast_S_S4096x1 (val_main_call3_v8))) (broadcastInDim S4096x1 ![] bcast_S_S4096x1 (id (((constant S_ .f32 0x7FC00000#32) : (⟨S_, .f32⟩ : BufTy).Contents (Elt F)))))) (broadcastInDim S4096x1 ![] bcast_S_S4096x1 (((constant S_ .f32 0x3727C5AC#32) : (⟨S_, .f32⟩ : BufTy).Contents (Elt F)))))))) (broadcastInDim S4096x64 ![0, 1] bcast_S1x64_S4096x64_0_1 (broadcastInDim S1x64 ![1] bcast_S64_S1x64_1 (shapeCast S64 (extractStridedSlice S1x64 ![0, 0] (a5) slices_S2x64_S1x64_0_0) shapeCasts_S1x64_S64)))) (broadcastInDim S4096x64 ![0, 1] bcast_S1x64_S4096x64_0_1 (broadcastInDim S1x64 ![1] bcast_S64_S1x64_1 (shapeCast S64 (extractStridedSlice S1x64 ![0, 0] (a6) slices_S2x64_S1x64_0_0) shapeCasts_S1x64_S64))))

def val_main_v51 :
    (⟨S8192x64, .f32⟩ : BufTy).Contents (Elt F) :=
  Host.dotGeneral dot_S8192x128_S128x64_S8192x64_1_0_0_1_n_n none (catN (F := F) (a1) (Host.divf (Host.dotGeneral dot_S8192x4096_S4096x64_S8192x64_1_0_0_1_n_n none (a0) (val_main_v42 a0 a1 a2 a3 a4 a5 a6)) (broadcastInDim S8192x64 ![0, 1] bcast_S8192x1_S8192x64_0_1 (broadcastInDim S8192x1 ![0] bcast_S8192_S8192x1_0 (val_main_v3 a0))))) (transpose S128x64 [1, 0] (shapeCast S64x128 (extractStridedSlice S1x64x128 ![0, 0, 0] (a7) slices_S2x64x128_S1x64x128_0_0_0) shapeCasts_S1x64x128_S64x128) transposes_S64x128_S128x64_1_0)

def val_main_v57 :
    (⟨S8192x64, .f32⟩ : BufTy).Contents (Elt F) :=
  maximumf (addf (val_main_v51 a0 a1 a2 a3 a4 a5 a6 a7) (broadcastInDim S8192x64 ![0, 1] bcast_S1x64_S8192x64_0_1 (broadcastInDim S1x64 ![1] bcast_S64_S1x64_1 (shapeCast S64 (extractStridedSlice S1x64 ![0, 0] (a8) slices_S2x64_S1x64_0_0) shapeCasts_S1x64_S64)))) (broadcastInDim S8192x64 ![] bcast_S_S8192x64 (((constant S_ .f32 0x00000000#32) : (⟨S_, .f32⟩ : BufTy).Contents (Elt F))))

def val_main_call5_v5 :
    (⟨S8192x64, .f32⟩ : BufTy).Contents (Elt F) :=
  subf (val_main_v57 a0 a1 a2 a3 a4 a5 a6 a7 a8) (broadcastInDim S8192x64 ![0, 1] bcast_S8192x1_S8192x64_0_1 (Host.divf (broadcastInDim S8192x1 ![0] bcast_S8192_S8192x1_0 (Host.reduceAdd (val_main_v57 a0 a1 a2 a3 a4 a5 a6 a7 a8) (((constant S_ .f32 0x00000000#32) : (⟨S_, .f32⟩ : BufTy).Contents (Elt F))) reducesTo_S8192x64_S8192_d1 h_S_)) (broadcastInDim S8192x1 ![] bcast_S_S8192x1 (((constant S_ .f32 0x42800000#32) : (⟨S_, .f32⟩ : BufTy).Contents (Elt F))))))

def val_main_call5_v8 :
    (⟨S_, .f32⟩ : BufTy).Contents (Elt F) :=
  subf (((constant S_ .f32 0x42800000#32) : (⟨S_, .f32⟩ : BufTy).Contents (Elt F))) (sitofp .f32 (((constantI S_ 32 0#32) : (⟨S_, .i32⟩ : BufTy).Contents (Elt F))))

def val_main_v80 :
    (⟨S8192x64, .f32⟩ : BufTy).Contents (Elt F) :=
  addf (a1) (addf (mulf (Host.divf (subf (val_main_v57 a0 a1 a2 a3 a4 a5 a6 a7 a8) (broadcastInDim S8192x64 ![0, 1] bcast_S8192x1_S8192x64_0_1 (Host.divf (broadcastInDim S8192x1 ![0] bcast_S8192_S8192x1_0 (Host.reduceAdd (val_main_v57 a0 a1 a2 a3 a4 a5 a6 a7 a8) (((constant S_ .f32 0x00000000#32) : (⟨S_, .f32⟩ : BufTy).Contents (Elt F))) reducesTo_S8192x64_S8192_d1 h_S_)) (broadcastInDim S8192x1 ![] bcast_S_S8192x1 (((constant S_ .f32 0x42800000#32) : (⟨S_, .f32⟩ : BufTy).Contents (Elt F))))))) (broadcastInDim S8192x64 ![0, 1] bcast_S8192x1_S8192x64_0_1 (Host.sqrt (addf (select (broadcastInDim S8192x1 ![] bcast_S_S8192x1 (cmpf .ogt (val_main_call5_v8) (((constant S_ .f32 0x00000000#32) : (⟨S_, .f32⟩ : BufTy).Contents (Elt F))))) (Host.divf (broadcastInDim S8192x1 ![0] bcast_S8192_S8192x1_0 (Host.reduceAdd (mulf (val_main_call5_v5 a0 a1 a2 a3 a4 a5 a6 a7 a8) (val_main_call5_v5 a0 a1 a2 a3 a4 a5 a6 a7 a8)) (((constant S_ .f32 0x00000000#32) : (⟨S_, .f32⟩ : BufTy).Contents (Elt F))) reducesTo_S8192x64_S8192_d1 h_S_)) (broadcastInDim S8192x1 ![] bcast_S_S8192x1 (val_main_call5_v8))) (broadcastInDim S8192x1 ![] bcast_S_S8192x1 (id (((constant S_ .f32 0x7FC00000#32) : (⟨S_, .f32⟩ : BufTy).Contents (Elt F)))))) (broadcastInDim S8192x1 ![] bcast_S_S8192x1 (((constant S_ .f32 0x3727C5AC#32) : (⟨S_, .f32⟩ : BufTy).Contents (Elt F)))))))) (broadcastInDim S8192x64 ![0, 1] bcast_S1x64_S8192x64_0_1 (broadcastInDim S1x64 ![1] bcast_S64_S1x64_1 (shapeCast S64 (extractStridedSlice S1x64 ![0, 0] (a9) slices_S2x64_S1x64_0_0) shapeCasts_S1x64_S64)))) (broadcastInDim S8192x64 ![0, 1] bcast_S1x64_S8192x64_0_1 (broadcastInDim S1x64 ![1] bcast_S64_S1x64_1 (shapeCast S64 (extractStridedSlice S1x64 ![0, 0] (a10) slices_S2x64_S1x64_0_0) shapeCasts_S1x64_S64))))

def val_main_v96 :
    (⟨S4096x64, .f32⟩ : BufTy).Contents (Elt F) :=
  maximumf (addf (Host.dotGeneral dot_S4096x128_S128x64_S4096x64_1_0_0_1_n_n none (catE (F := F) (val_main_v42 a0 a1 a2 a3 a4 a5 a6) (Host.divf (Host.dotGeneral dot_S4096x8192_S8192x64_S4096x64_1_0_0_1_n_n none (transpose S4096x8192 [1, 0] (a0) transposes_S8192x4096_S4096x8192_1_0) (val_main_v80 a0 a1 a2 a3 a4 a5 a6 a7 a8 a9 a10)) (broadcastInDim S4096x64 ![0, 1] bcast_S4096x1_S4096x64_0_1 (broadcastInDim S4096x1 ![0] bcast_S4096_S4096x1_0 (val_main_v1 a0))))) (transpose S128x64 [1, 0] (shapeCast S64x128 (extractStridedSlice S1x64x128 ![1, 0, 0] (a3) slices_S2x64x128_S1x64x128_1_0_0) shapeCasts_S1x64x128_S64x128) transposes_S64x128_S128x64_1_0)) (broadcastInDim S4096x64 ![0, 1] bcast_S1x64_S4096x64_0_1 (broadcastInDim S1x64 ![1] bcast_S64_S1x64_1 (shapeCast S64 (extractStridedSlice S1x64 ![1, 0] (a4) slices_S2x64_S1x64_1_0) shapeCasts_S1x64_S64)))) (broadcastInDim S4096x64 ![] bcast_S_S4096x64 (((constant S_ .f32 0x00000000#32) : (⟨S_, .f32⟩ : BufTy).Contents (Elt F))))

def val_main_v98 :
    (⟨S64, .f32⟩ : BufTy).Contents (Elt F) :=
  shapeCast S64 (extractStridedSlice S1x64 ![1, 0] (a5) slices_S2x64_S1x64_1_0) shapeCasts_S1x64_S64

def val_main_v100 :
    (⟨S64, .f32⟩ : BufTy).Contents (Elt F) :=
  shapeCast S64 (extractStridedSlice S1x64 ![1, 0] (a6) slices_S2x64_S1x64_1_0) shapeCasts_S1x64_S64

def val_main_v104 :
    (⟨S4096x1, .f32⟩ : BufTy).Contents (Elt F) :=
  Host.divf (broadcastInDim S4096x1 ![0] bcast_S4096_S4096x1_0 (Host.reduceAdd (val_main_v96 a0 a1 a2 a3 a4 a5 a6 a7 a8 a9 a10) (((constant S_ .f32 0x00000000#32) : (⟨S_, .f32⟩ : BufTy).Contents (Elt F))) reducesTo_S4096x64_S4096_d1 h_S_)) (broadcastInDim S4096x1 ![] bcast_S_S4096x1 (((constant S_ .f32 0x42800000#32) : (⟨S_, .f32⟩ : BufTy).Contents (Elt F))))

def val_main_call7_v5 :
    (⟨S4096x64, .f32⟩ : BufTy).Contents (Elt F) :=
  subf (val_main_v96 a0 a1 a2 a3 a4 a5 a6 a7 a8 a9 a10) (broadcastInDim S4096x64 ![0, 1] bcast_S4096x1_S4096x64_0_1 (Host.divf (broadcastInDim S4096x1 ![0] bcast_S4096_S4096x1_0 (Host.reduceAdd (val_main_v96 a0 a1 a2 a3 a4 a5 a6 a7 a8 a9 a10) (((constant S_ .f32 0x00000000#32) : (⟨S_, .f32⟩ : BufTy).Contents (Elt F))) reducesTo_S4096x64_S4096_d1 h_S_)) (broadcastInDim S4096x1 ![] bcast_S_S4096x1 (((constant S_ .f32 0x42800000#32) : (⟨S_, .f32⟩ : BufTy).Contents (Elt F))))))

def val_main_call7_v8 :
    (⟨S_, .f32⟩ : BufTy).Contents (Elt F) :=
  subf (((constant S_ .f32 0x42800000#32) : (⟨S_, .f32⟩ : BufTy).Contents (Elt F))) (sitofp .f32 (((constantI S_ 32 0#32) : (⟨S_, .i32⟩ : BufTy).Contents (Elt F))))

def val_main_v119 :
    (⟨S4096x64, .f32⟩ : BufTy).Contents (Elt F) :=
  addf (val_main_v42 a0 a1 a2 a3 a4 a5 a6) (addf (mulf (Host.divf (subf (val_main_v96 a0 a1 a2 a3 a4 a5 a6 a7 a8 a9 a10) (broadcastInDim S4096x64 ![0, 1] bcast_S4096x1_S4096x64_0_1 (val_main_v104 a0 a1 a2 a3 a4 a5 a6 a7 a8 a9 a10))) (broadcastInDim S4096x64 ![0, 1] bcast_S4096x1_S4096x64_0_1 (Host.sqrt (addf (select (broadcastInDim S4096x1 ![] bcast_S_S4096x1 (cmpf .ogt (val_main_call7_v8) (((constant S_ .f32 0x00000000#32) : (⟨S_, .f32⟩ : BufTy).Contents (Elt F))))) (Host.divf (broadcastInDim S4096x1 ![0] bcast_S4096_S4096x1_0 (Host.reduceAdd (mulf (val_main_call7_v5 a0 a1 a2 a3 a4 a5 a6 a7 a8 a9 a10) (val_main_call7_v5 a0 a1 a2 a3 a4 a5 a6 a7 a8 a9 a10)) (((constant S_ .f32 0x00000000#32) : (⟨S_, .f32⟩ : BufTy).Contents (Elt F))) reducesTo_S4096x64_S4096_d1 h_S_)) (broadcastInDim S4096x1 ![] bcast_S_S4096x1 (val_main_call7_v8))) (broadcastInDim S4096x1 ![] bcast_S_S4096x1 (id (((constant S_ .f32 0x7FC00000#32) : (⟨S_, .f32⟩ : BufTy).Contents (Elt F)))))) (broadcastInDim S4096x1 ![] bcast_S_S4096x1 (((constant S_ .f32 0x3727C5AC#32) : (⟨S_, .f32⟩ : BufTy).Contents (Elt F)))))))) (broadcastInDim S4096x64 ![0, 1] bcast_S1x64_S4096x64_0_1 (broadcastInDim S1x64 ![1] bcast_S64_S1x64_1 (val_main_v98 a5)))) (broadcastInDim S4096x64 ![0, 1] bcast_S1x64_S4096x64_0_1 (broadcastInDim S1x64 ![1] bcast_S64_S1x64_1 (val_main_v100 a6))))

def val_main_v159 :
    (⟨S4096x1, .f32⟩ : BufTy).Contents (Elt F) :=
  Host.dotGeneral dot_S4096x64_S64x1_S4096x1_1_0_0_1_n_n none (val_main_v119 a0 a1 a2 a3 a4 a5 a6 a7 a8 a9 a10) (transpose S64x1 [1, 0] (a11) transposes_S1x64_S64x1_1_0)

def val_main_v171 :
    (⟨S4096, .f32⟩ : BufTy).Contents (Elt F) :=
  shapeCast S4096 (Host.divf (broadcastInDim S4096x1 ![] bcast_S_S4096x1 (((constant S_ .f32 0x3F800000#32) : (⟨S_, .f32⟩ : BufTy).Contents (Elt F)))) (addf (broadcastInDim S4096x1 ![] bcast_S_S4096x1 (((constant S_ .f32 0x3F800000#32) : (⟨S_, .f32⟩ : BufTy).Contents (Elt F)))) (Host.exp (Host.negf (mulf (broadcastInDim S4096x1 ![] bcast_S_S4096x1 (((constant S_ .f32 0x3F333333#32) : (⟨S_, .f32⟩ : BufTy).Contents (Elt F)))) (addf (val_main_v159 a0 a1 a2 a3 a4 a5 a6 a7 a8 a9 a10 a11) (broadcastInDim S4096x1 ![0, 1] bcast_S1x1_S4096x1_0_1 (broadcastInDim S1x1 ![1] bcast_S1_S1x1_1 (a12))))))))) shapeCasts_S4096x1_S4096

end Cert.ReferenceIdeal.Hand

end
-- ==== Proof.RefAfter0.lean ====
import proofs.«153954_g5892695130345_cont_sun_m_578_38_alg».proof.Proof.RefRun0
import proofs.«153954_g5892695130345_cont_sun_m_578_38_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (W : Valuation τ sig (Elt F)) (a0 : (⟨S8192x4096, .f32⟩ : BufTy).Contents (Elt F)) (a1 : (⟨S8192x64, .f32⟩ : BufTy).Contents (Elt F)) (a2 : (⟨S4096x64, .f32⟩ : BufTy).Contents (Elt F)) (a3 : (⟨S2x64x128, .f32⟩ : BufTy).Contents (Elt F)) (a4 : (⟨S2x64, .f32⟩ : BufTy).Contents (Elt F)) (a5 : (⟨S2x64, .f32⟩ : BufTy).Contents (Elt F)) (a6 : (⟨S2x64, .f32⟩ : BufTy).Contents (Elt F)) (a7 : (⟨S2x64x128, .f32⟩ : BufTy).Contents (Elt F)) (a8 : (⟨S2x64, .f32⟩ : BufTy).Contents (Elt F)) (a9 : (⟨S2x64, .f32⟩ : BufTy).Contents (Elt F)) (a10 : (⟨S2x64, .f32⟩ : BufTy).Contents (Elt F)) (a11 : (⟨S1x64, .f32⟩ : BufTy).Contents (Elt F)) (a12 : (⟨S1, .f32⟩ : BufTy).Contents (Elt F))

set_option maxRecDepth 8192 in
set_option maxHeartbeats 2000000 in
theorem w0_main_v1
    (h_arg0 : W (no_index (Proc.devRef .tc main_arg0)) = a0) :
    after ops0 W (no_index (Proc.devRef .tc main_v1)) = val_main_v1 a0 := by
  simp only [ops0]
  after_results_simp
  simp only [h_arg0] <;> rfl

set_option maxRecDepth 8192 in
set_option maxHeartbeats 2000000 in
theorem w0_main_v42
    (h_arg0 : W (no_index (Proc.devRef .tc main_arg0)) = a0)
    (h_arg1 : W (no_index (Proc.devRef .tc main_arg1)) = a1)
    (h_arg2 : W (no_index (Proc.devRef .tc main_arg2)) = a2)
    (h_arg3 : W (no_index (Proc.devRef .tc main_arg3)) = a3)
    (h_arg4 : W (no_index (Proc.devRef .tc main_arg4)) = a4)
    (h_arg5 : W (no_index (Proc.devRef .tc main_arg5)) = a5)
    (h_arg6 : W (no_index (Proc.devRef .tc main_arg6)) = a6) :
    after ops0 W (no_index (Proc.devRef .tc main_v42)) = val_main_v42 a0 a1 a2 a3 a4 a5 a6 := by
  simp only [ops0]
  after_results_simp
  simp only [h_arg0, h_arg1, h_arg2, h_arg3, h_arg4, h_arg5, h_arg6] <;> rfl

set_option maxRecDepth 8192 in
set_option maxHeartbeats 2000000 in
theorem w0_main_v51
    (h_arg0 : W (no_index (Proc.devRef .tc main_arg0)) = a0)
    (h_arg1 : W (no_index (Proc.devRef .tc main_arg1)) = a1)
    (h_arg2 : W (no_index (Proc.devRef .tc main_arg2)) = a2)
    (h_arg3 : W (no_index (Proc.devRef .tc main_arg3)) = a3)
    (h_arg4 : W (no_index (Proc.devRef .tc main_arg4)) = a4)
    (h_arg5 : W (no_index (Proc.devRef .tc main_arg5)) = a5)
    (h_arg6 : W (no_index (Proc.devRef .tc main_arg6)) = a6)
    (h_arg7 : W (no_index (Proc.devRef .tc main_arg7)) = a7) :
    after ops0 W (no_index (Proc.devRef .tc main_v51)) = val_main_v51 a0 a1 a2 a3 a4 a5 a6 a7 := by
  simp only [ops0]
  after_results_simp
  simp only [h_arg0, h_arg1, h_arg2, h_arg3, h_arg4, h_arg5, h_arg6, h_arg7] <;> rfl

end Cert.ReferenceIdeal.Hand

end
-- ==== Proof.RefAfter1.lean ====
import proofs.«153954_g5892695130345_cont_sun_m_578_38_alg».proof.Proof.RefRun1
import proofs.«153954_g5892695130345_cont_sun_m_578_38_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (W : Valuation τ sig (Elt F)) (a0 : (⟨S8192x4096, .f32⟩ : BufTy).Contents (Elt F)) (a1 : (⟨S8192x64, .f32⟩ : BufTy).Contents (Elt F)) (a2 : (⟨S4096x64, .f32⟩ : BufTy).Contents (Elt F)) (a3 : (⟨S2x64x128, .f32⟩ : BufTy).Contents (Elt F)) (a4 : (⟨S2x64, .f32⟩ : BufTy).Contents (Elt F)) (a5 : (⟨S2x64, .f32⟩ : BufTy).Contents (Elt F)) (a6 : (⟨S2x64, .f32⟩ : BufTy).Contents (Elt F)) (a7 : (⟨S2x64x128, .f32⟩ : BufTy).Contents (Elt F)) (a8 : (⟨S2x64, .f32⟩ : BufTy).Contents (Elt F)) (a9 : (⟨S2x64, .f32⟩ : BufTy).Contents (Elt F)) (a10 : (⟨S2x64, .f32⟩ : BufTy).Contents (Elt F)) (a11 : (⟨S1x64, .f32⟩ : BufTy).Contents (Elt F)) (a12 : (⟨S1, .f32⟩ : BufTy).Contents (Elt F))

set_option maxRecDepth 8192 in
set_option maxHeartbeats 2000000 in
theorem w1_main_v96
    (h_arg0 : W (no_index (Proc.devRef .tc main_arg0)) = a0)
    (h_arg1 : W (no_index (Proc.devRef .tc main_arg1)) = a1)
    (h_arg3 : W (no_index (Proc.devRef .tc main_arg3)) = a3)
    (h_arg4 : W (no_index (Proc.devRef .tc main_arg4)) = a4)
    (h_arg8 : W (no_index (Proc.devRef .tc main_arg8)) = a8)
    (h_arg9 : W (no_index (Proc.devRef .tc main_arg9)) = a9)
    (h_arg10 : W (no_index (Proc.devRef .tc main_arg10)) = a10)
    (h_v1 : W (no_index (Proc.devRef .tc main_v1)) = val_main_v1 a0)
    (h_v42 : W (no_index (Proc.devRef .tc main_v42)) = val_main_v42 a0 a1 a2 a3 a4 a5 a6)
    (h_v51 : W (no_index (Proc.devRef .tc main_v51)) = val_main_v51 a0 a1 a2 a3 a4 a5 a6 a7) :
    after ops1 W (no_index (Proc.devRef .tc main_v96)) = val_main_v96 a0 a1 a2 a3 a4 a5 a6 a7 a8 a9 a10 := by
  simp only [ops1]
  after_results_simp
  simp only [h_arg0, h_arg1, h_arg3, h_arg4, h_arg8, h_arg9, h_arg10, h_v1, h_v42, h_v51] <;> rfl

set_option maxRecDepth 8192 in
set_option maxHeartbeats 2000000 in
theorem w1_main_v98
    (h_arg5 : W (no_index (Proc.devRef .tc main_arg5)) = a5) :
    after ops1 W (no_index (Proc.devRef .tc main_v98)) = val_main_v98 a5 := by
  simp only [ops1]
  after_results_simp
  simp only [h_arg5] <;> rfl

set_option maxRecDepth 8192 in
set_option maxHeartbeats 2000000 in
theorem w1_main_v100
    (h_arg6 : W (no_index (Proc.devRef .tc main_arg6)) = a6) :
    after ops1 W (no_index (Proc.devRef .tc main_v100)) = val_main_v100 a6 := by
  simp only [ops1]
  after_results_simp
  simp only [h_arg6] <;> rfl

set_option maxRecDepth 8192 in
set_option maxHeartbeats 2000000 in
theorem w1_main_v104
    (h_arg0 : W (no_index (Proc.devRef .tc main_arg0)) = a0)
    (h_arg1 : W (no_index (Proc.devRef .tc main_arg1)) = a1)
    (h_arg3 : W (no_index (Proc.devRef .tc main_arg3)) = a3)
    (h_arg4 : W (no_index (Proc.devRef .tc main_arg4)) = a4)
    (h_arg8 : W (no_index (Proc.devRef .tc main_arg8)) = a8)
    (h_arg9 : W (no_index (Proc.devRef .tc main_arg9)) = a9)
    (h_arg10 : W (no_index (Proc.devRef .tc main_arg10)) = a10)
    (h_v1 : W (no_index (Proc.devRef .tc main_v1)) = val_main_v1 a0)
    (h_v42 : W (no_index (Proc.devRef .tc main_v42)) = val_main_v42 a0 a1 a2 a3 a4 a5 a6)
    (h_v51 : W (no_index (Proc.devRef .tc main_v51)) = val_main_v51 a0 a1 a2 a3 a4 a5 a6 a7) :
    after ops1 W (no_index (Proc.devRef .tc main_v104)) = val_main_v104 a0 a1 a2 a3 a4 a5 a6 a7 a8 a9 a10 := by
  simp only [ops1]
  after_results_simp
  simp only [h_arg0, h_arg1, h_arg3, h_arg4, h_arg8, h_arg9, h_arg10, h_v1, h_v42, h_v51] <;> rfl

set_option maxRecDepth 8192 in
set_option maxHeartbeats 2000000 in
theorem w1_main_c_12 :
    after ops1 W (no_index (Proc.devRef .tc main_c_12)) = (constantI S_ 32 0#32 : (⟨S_, .i32⟩ : BufTy).Contents (Elt F)) := by
  simp only [ops1]
  after_results_simp
  all_goals rfl

end Cert.ReferenceIdeal.Hand

end
-- ==== Proof.RefAfter2.lean ====
import proofs.«153954_g5892695130345_cont_sun_m_578_38_alg».proof.Proof.RefRun2
import proofs.«153954_g5892695130345_cont_sun_m_578_38_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (W : Valuation τ sig (Elt F)) (a0 : (⟨S8192x4096, .f32⟩ : BufTy).Contents (Elt F)) (a1 : (⟨S8192x64, .f32⟩ : BufTy).Contents (Elt F)) (a2 : (⟨S4096x64, .f32⟩ : BufTy).Contents (Elt F)) (a3 : (⟨S2x64x128, .f32⟩ : BufTy).Contents (Elt F)) (a4 : (⟨S2x64, .f32⟩ : BufTy).Contents (Elt F)) (a5 : (⟨S2x64, .f32⟩ : BufTy).Contents (Elt F)) (a6 : (⟨S2x64, .f32⟩ : BufTy).Contents (Elt F)) (a7 : (⟨S2x64x128, .f32⟩ : BufTy).Contents (Elt F)) (a8 : (⟨S2x64, .f32⟩ : BufTy).Contents (Elt F)) (a9 : (⟨S2x64, .f32⟩ : BufTy).Contents (Elt F)) (a10 : (⟨S2x64, .f32⟩ : BufTy).Contents (Elt F)) (a11 : (⟨S1x64, .f32⟩ : BufTy).Contents (Elt F)) (a12 : (⟨S1, .f32⟩ : BufTy).Contents (Elt F))

set_option maxRecDepth 8192 in
set_option maxHeartbeats 2000000 in
theorem w2_main_v159
    (h_arg11 : W (no_index (Proc.devRef .tc main_arg11)) = a11)
    (h_v42 : W (no_index (Proc.devRef .tc main_v42)) = val_main_v42 a0 a1 a2 a3 a4 a5 a6)
    (h_v96 : W (no_index (Proc.devRef .tc main_v96)) = val_main_v96 a0 a1 a2 a3 a4 a5 a6 a7 a8 a9 a10)
    (h_v98 : W (no_index (Proc.devRef .tc main_v98)) = val_main_v98 a5)
    (h_v100 : W (no_index (Proc.devRef .tc main_v100)) = val_main_v100 a6)
    (h_v104 : W (no_index (Proc.devRef .tc main_v104)) = val_main_v104 a0 a1 a2 a3 a4 a5 a6 a7 a8 a9 a10)
    (h_c_12 : W (no_index (Proc.devRef .tc main_c_12)) = (constantI S_ 32 0#32 : (⟨S_, .i32⟩ : BufTy).Contents (Elt F))) :
    after ops2 W (no_index (Proc.devRef .tc main_v159)) = val_main_v159 a0 a1 a2 a3 a4 a5 a6 a7 a8 a9 a10 a11 := by
  simp only [ops2]
  after_results_simp
  simp only [h_arg11, h_v42, h_v96, h_v98, h_v100, h_v104, h_c_12] <;> rfl

end Cert.ReferenceIdeal.Hand

end
-- ==== Proof.RefAfter3.lean ====
import proofs.«153954_g5892695130345_cont_sun_m_578_38_alg».proof.Proof.RefRun3
import proofs.«153954_g5892695130345_cont_sun_m_578_38_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (W : Valuation τ sig (Elt F)) (a0 : (⟨S8192x4096, .f32⟩ : BufTy).Contents (Elt F)) (a1 : (⟨S8192x64, .f32⟩ : BufTy).Contents (Elt F)) (a2 : (⟨S4096x64, .f32⟩ : BufTy).Contents (Elt F)) (a3 : (⟨S2x64x128, .f32⟩ : BufTy).Contents (Elt F)) (a4 : (⟨S2x64, .f32⟩ : BufTy).Contents (Elt F)) (a5 : (⟨S2x64, .f32⟩ : BufTy).Contents (Elt F)) (a6 : (⟨S2x64, .f32⟩ : BufTy).Contents (Elt F)) (a7 : (⟨S2x64x128, .f32⟩ : BufTy).Contents (Elt F)) (a8 : (⟨S2x64, .f32⟩ : BufTy).Contents (Elt F)) (a9 : (⟨S2x64, .f32⟩ : BufTy).Contents (Elt F)) (a10 : (⟨S2x64, .f32⟩ : BufTy).Contents (Elt F)) (a11 : (⟨S1x64, .f32⟩ : BufTy).Contents (Elt F)) (a12 : (⟨S1, .f32⟩ : BufTy).Contents (Elt F))

set_option maxRecDepth 8192 in
set_option maxHeartbeats 2000000 in
theorem w3_main_v171
    (h_arg12 : W (no_index (Proc.devRef .tc main_arg12)) = a12)
    (h_v159 : W (no_index (Proc.devRef .tc main_v159)) = val_main_v159 a0 a1 a2 a3 a4 a5 a6 a7 a8 a9 a10 a11) :
    after ops3 W (no_index (Proc.devRef .tc main_v171)) = val_main_v171 a0 a1 a2 a3 a4 a5 a6 a7 a8 a9 a10 a11 a12 := by
  simp only [ops3]
  after_results_simp
  simp only [h_arg12, h_v159] <;> rfl

end Cert.ReferenceIdeal.Hand

end
-- ==== Proof.RefAfter.lean ====
import proofs.«153954_g5892695130345_cont_sun_m_578_38_alg».proof.Proof.RefRun
import proofs.«153954_g5892695130345_cont_sun_m_578_38_alg».proof.Proof.RefAfter0
import proofs.«153954_g5892695130345_cont_sun_m_578_38_alg».proof.Proof.RefAfter1
import proofs.«153954_g5892695130345_cont_sun_m_578_38_alg».proof.Proof.RefAfter2
import proofs.«153954_g5892695130345_cont_sun_m_578_38_alg».proof.Proof.RefAfter3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (V : Valuation τ sig (Elt F)) (a0 : (⟨S8192x4096, .f32⟩ : BufTy).Contents (Elt F)) (a1 : (⟨S8192x64, .f32⟩ : BufTy).Contents (Elt F)) (a2 : (⟨S4096x64, .f32⟩ : BufTy).Contents (Elt F)) (a3 : (⟨S2x64x128, .f32⟩ : BufTy).Contents (Elt F)) (a4 : (⟨S2x64, .f32⟩ : BufTy).Contents (Elt F)) (a5 : (⟨S2x64, .f32⟩ : BufTy).Contents (Elt F)) (a6 : (⟨S2x64, .f32⟩ : BufTy).Contents (Elt F)) (a7 : (⟨S2x64x128, .f32⟩ : BufTy).Contents (Elt F)) (a8 : (⟨S2x64, .f32⟩ : BufTy).Contents (Elt F)) (a9 : (⟨S2x64, .f32⟩ : BufTy).Contents (Elt F)) (a10 : (⟨S2x64, .f32⟩ : BufTy).Contents (Elt F)) (a11 : (⟨S1x64, .f32⟩ : BufTy).Contents (Elt F)) (a12 : (⟨S1, .f32⟩ : BufTy).Contents (Elt F))

theorem after_ops_of
    (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) (h9 : V (Proc.devRef .tc main_arg9) = a9) (h10 : V (Proc.devRef .tc main_arg10) = a10) (h11 : V (Proc.devRef .tc main_arg11) = a11) (h12 : V (Proc.devRef .tc main_arg12) = a12) :
    after ops V (Proc.devRef .tc main_v171) = val_main_v171 a0 a1 a2 a3 a4 a5 a6 a7 a8 a9 a10 a11 a12 := by
  rw [after_ops]
  have H1_arg12 : (after ops0 V) (Proc.devRef .tc main_arg12) = a12 :=
    (ops0_keep V main_arg12 (by decide)).trans h12
  have H2_arg12 : (after ops1 (after ops0 V)) (Proc.devRef .tc main_arg12) = a12 :=
    (ops1_keep (after ops0 V) main_arg12 (by decide)).trans H1_arg12
  have H3_arg12 : (after ops2 (after ops1 (after ops0 V))) (Proc.devRef .tc main_arg12) = a12 :=
    (ops2_keep (after ops1 (after ops0 V)) main_arg12 (by decide)).trans H2_arg12
  have H1_arg11 : (after ops0 V) (Proc.devRef .tc main_arg11) = a11 :=
    (ops0_keep V main_arg11 (by decide)).trans h11
  have H2_arg11 : (after ops1 (after ops0 V)) (Proc.devRef .tc main_arg11) = a11 :=
    (ops1_keep (after ops0 V) main_arg11 (by decide)).trans H1_arg11
  have H1_v42 : (after ops0 V) (Proc.devRef .tc main_v42) = val_main_v42 a0 a1 a2 a3 a4 a5 a6 :=
    w0_main_v42 V a0 a1 a2 a3 a4 a5 a6 h0 h1 h2 h3 h4 h5 h6
  have H2_v42 : (after ops1 (after ops0 V)) (Proc.devRef .tc main_v42) = val_main_v42 a0 a1 a2 a3 a4 a5 a6 :=
    (ops1_keep (after ops0 V) main_v42 (by decide)).trans H1_v42
  have H1_arg0 : (after ops0 V) (Proc.devRef .tc main_arg0) = a0 :=
    (ops0_keep V main_arg0 (by decide)).trans h0
  have H1_arg1 : (after ops0 V) (Proc.devRef .tc main_arg1) = a1 :=
    (ops0_keep V main_arg1 (by decide)).trans h1
  have H1_arg3 : (after ops0 V) (Proc.devRef .tc main_arg3) = a3 :=
    (ops0_keep V main_arg3 (by decide)).trans h3
  have H1_arg4 : (after ops0 V) (Proc.devRef .tc main_arg4) = a4 :=
    (ops0_keep V main_arg4 (by decide)).trans h4
  have H1_arg8 : (after ops0 V) (Proc.devRef .tc main_arg8) = a8 :=
    (ops0_keep V main_arg8 (by decide)).trans h8
  have H1_arg9 : (after ops0 V) (Proc.devRef .tc main_arg9) = a9 :=
    (ops0_keep V main_arg9 (by decide)).trans h9
  have H1_arg10 : (after ops0 V) (Proc.devRef .tc main_arg10) = a10 :=
    (ops0_keep V main_arg10 (by decide)).trans h10
  have H1_v1 : (after ops0 V) (Proc.devRef .tc main_v1) = val_main_v1 a0 :=
    w0_main_v1 V a0 h0
  have H1_v51 : (after ops0 V) (Proc.devRef .tc main_v51) = val_main_v51 a0 a1 a2 a3 a4 a5 a6 a7 :=
    w0_main_v51 V a0 a1 a2 a3 a4 a5 a6 a7 h0 h1 h2 h3 h4 h5 h6 h7
  have H2_v96 : (after ops1 (after ops0 V)) (Proc.devRef .tc main_v96) = val_main_v96 a0 a1 a2 a3 a4 a5 a6 a7 a8 a9 a10 :=
    w1_main_v96 (after ops0 V) a0 a1 a2 a3 a4 a5 a6 a7 a8 a9 a10 H1_arg0 H1_arg1 H1_arg3 H1_arg4 H1_arg8 H1_arg9 H1_arg10 H1_v1 H1_v42 H1_v51
  have H1_arg5 : (after ops0 V) (Proc.devRef .tc main_arg5) = a5 :=
    (ops0_keep V main_arg5 (by decide)).trans h5
  have H2_v98 : (after ops1 (after ops0 V)) (Proc.devRef .tc main_v98) = val_main_v98 a5 :=
    w1_main_v98 (after ops0 V) a5 H1_arg5
  have H1_arg6 : (after ops0 V) (Proc.devRef .tc main_arg6) = a6 :=
    (ops0_keep V main_arg6 (by decide)).trans h6
  have H2_v100 : (after ops1 (after ops0 V)) (Proc.devRef .tc main_v100) = val_main_v100 a6 :=
    w1_main_v100 (after ops0 V) a6 H1_arg6
  have H2_v104 : (after ops1 (after ops0 V)) (Proc.devRef .tc main_v104) = val_main_v104 a0 a1 a2 a3 a4 a5 a6 a7 a8 a9 a10 :=
    w1_main_v104 (after ops0 V) a0 a1 a2 a3 a4 a5 a6 a7 a8 a9 a10 H1_arg0 H1_arg1 H1_arg3 H1_arg4 H1_arg8 H1_arg9 H1_arg10 H1_v1 H1_v42 H1_v51
  have H2_c_12 : (after ops1 (after ops0 V)) (Proc.devRef .tc main_c_12) = (constantI S_ 32 0#32 : (⟨S_, .i32⟩ : BufTy).Contents (Elt F)) :=
    w1_main_c_12 (after ops0 V)
  have H3_v159 : (after ops2 (after ops1 (after ops0 V))) (Proc.devRef .tc main_v159) = val_main_v159 a0 a1 a2 a3 a4 a5 a6 a7 a8 a9 a10 a11 :=
    w2_main_v159 (after ops1 (after ops0 V)) a0 a1 a2 a3 a4 a5 a6 a7 a8 a9 a10 a11 H2_arg11 H2_v42 H2_v96 H2_v98 H2_v100 H2_v104 H2_c_12
  exact w3_main_v171 (after ops2 (after ops1 (after ops0 V))) a0 a1 a2 a3 a4 a5 a6 a7 a8 a9 a10 a11 a12 H3_arg12 H3_v159

theorem after_ops_eq (V : Valuation τ sig (Elt F)) :
    after ops V (Proc.devRef .tc main_v171)
      = val_main_v171 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) :=
  after_ops_of V _ _ _ _ _ _ _ _ _ _ _ _ _ rfl rfl rfl rfl rfl rfl rfl rfl rfl rfl rfl rfl rfl

end Cert.ReferenceIdeal.Hand

end
-- ==== Proof.LibHostRows.lean ====
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

-- A coordinate below a is itself unless a = 1, where it is zero.
theorem val_bcast {a : ℕ} (r : Fin a) : r.val = if a = 1 then 0 else r.val := by
  split
  · have := r.isLt; omega
  · rfl

theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ => exact val_bcast r

theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ => exact val_bcast r
  | ⟨1, _⟩ => rfl

theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ => exact val_bcast k

theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ => exact val_bcast k

end Cert.LibHostRows

end
-- ==== Proof.RefReadOut.lean ====
import proofs.«153954_g5892695130345_cont_sun_m_578_38_alg».proof.Proof.Gen.ReferenceIdeal
import proofs.«153954_g5892695130345_cont_sun_m_578_38_alg».proof.Proof.Spec
import proofs.«153954_g5892695130345_cont_sun_m_578_38_alg».proof.Proof.LibHostRows
import Idealize.ShloMosaic.Lib.ValueLayout
import Idealize.ShloMosaic.Lib.StackMember
import Idealize.ShloMosaic.Lib.IdealHost

noncomputable section

namespace Cert.ReferenceIdeal.Hand

open Idealize.ShloMosaic Idealize.ShloMosaic.ValueIdx
open Cert.ReferenceIdeal Cert.ReferenceIdeal.Facts₀
open scoped BigOperators

def readOut (e2 : FVec Ideal S4096x64 .f32) (dW : FVec Ideal S1x64 .f32) (db : FVec Ideal S1 .f32) :
    FVec Ideal S4096 .f32 :=
  let v158 : FVec Ideal S64x1 .f32 := transpose S64x1 [1, 0] dW transposes_S1x64_S64x1_1_0
  let v159 : FVec Ideal S4096x1 .f32 := Host.dotGeneral dot_S4096x64_S64x1_S4096x1_1_0_0_1_n_n none e2 v158
  let v160 : FVec Ideal S1x1 .f32 := broadcastInDim S1x1 ![1] bcast_S1_S1x1_1 db
  let v161 : FVec Ideal S4096x1 .f32 := broadcastInDim S4096x1 ![0, 1] bcast_S1x1_S4096x1_0_1 v160
  let v162 : FVec Ideal S4096x1 .f32 := addf v159 v161
  let c18 : FVec Ideal S_ .f32 := constant S_ .f32 0x3F333333#32
  let v163 : FVec Ideal S4096x1 .f32 := broadcastInDim S4096x1 ![] bcast_S_S4096x1 c18
  let v164 : FVec Ideal S4096x1 .f32 := mulf v163 v162
  let v165 : FVec Ideal S4096x1 .f32 := Host.negf v164
  let v166 : FVec Ideal S4096x1 .f32 := Host.exp v165
  let c19 : FVec Ideal S_ .f32 := constant S_ .f32 0x3F800000#32
  let v167 : FVec Ideal S4096x1 .f32 := broadcastInDim S4096x1 ![] bcast_S_S4096x1 c19
  let v168 : FVec Ideal S4096x1 .f32 := addf v167 v166
  let c20 : FVec Ideal S_ .f32 := constant S_ .f32 0x3F800000#32
  let v169 : FVec Ideal S4096x1 .f32 := broadcastInDim S4096x1 ![] bcast_S_S4096x1 c20
  let v170 : FVec Ideal S4096x1 .f32 := Host.divf v169 v168
  fun i => shapeCast S4096 v170 shapeCasts_S4096x1_S4096 i

theorem dot_dec_eq : dot_S4096x64_S64x1_S4096x1_1_0_0_1_n_n = DotDims.plain 4096 64 1 := rfl

theorem shapeCast_col_vec_apply {α : Type} (v : S4096x1.Idx → α) (h : S4096x1.ShapeCasts S4096) (m : Fin 4096) :
    shapeCast S4096 v h (ix1 m) = v (ix2 m (0 : Fin 1)) :=
  shapeCast_apply v h _ _ (by
    rw [Shape.rowMajor_val_one, Shape.rowMajor_val_two]
    show m.val * 1 + 0 = m.val
    omega)

theorem readOut_apply (e2 : FVec Ideal S4096x64 .f32) (dW : FVec Ideal S1x64 .f32) (db : FVec Ideal S1 .f32)
    (m : Fin 4096) :
    readOut e2 dW db (ix1 m)
      = Cert.Spec.dec (fun m k => e2 (ix2 m k)) (fun k => dW (ix2 (0 : Fin 1) k)) (db (ix1 (0 : Fin 1))) m := by
  unfold readOut
  dsimp only
  rw [shapeCast_col_vec_apply]
  show Ideal.div _ (_ + Ideal.exp (-(_ * (_ + _)))) = _
  rw [Cert.LibHostRows.broadcastInDim_scalar_apply, Cert.LibHostRows.broadcastInDim_scalar_apply,
    constant_apply, constant_apply, Cert.LibHostRows.broadcastInDim_row_apply,
    Cert.LibHostRows.broadcastInDim_vec_row_apply, dot_dec_eq, StackMember.dotGeneral_plain_apply,
    Ideal.ofBits_one_f32]
  have ht : ∀ c : Fin 64, transpose S64x1 [1, 0] dW transposes_S1x64_S64x1_1_0 (ix2 c (0 : Fin 1))
      = dW (ix2 (0 : Fin 1) c) := fun c => transpose_ix2_apply dW _ c 0
  simp only [ht]
  rfl

theorem hostReduceAdd_cols_apply {a b : ℕ} {φ : FTy} (x : FVec Ideal ⟨2, ![a, b]⟩ φ)
    (init : (⟨0, ![]⟩ : Shape).Idx → Ideal φ) (h : (⟨2, ![a, b]⟩ : Shape).ReducesTo [0] ⟨1, ![b]⟩)
    (hu : 0 < (⟨0, ![]⟩ : Shape).numel) (c : Fin b) :
    Host.reduceAdd x init h hu (ix1 c) = init ix0 + ∑ k : Fin a, x (ix2 k c) := by
  have hR : (⟨2, ![a, b]⟩ : Shape).Reduces [0] ⟨1, ![b]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext d
  fin_cases d <;> rfl

def clipE (A : FVec Ideal S8192x4096 .f32) : FVec Ideal S4096 .f32 :=
  let cst : FVec Ideal S_ .f32 := constant S_ .f32 0x00000000#32
  let v0 : FVec Ideal S4096 .f32 := Host.reduceAdd A cst reducesTo_S8192x4096_S4096_d0 h_S_
  let cst0 : FVec Ideal S_ .f32 := constant S_ .f32 0x358637BD#32
  let c0 : FVec Ideal S_ .f32 := id cst0
  let c1 : FVec Ideal S4096 .f32 := broadcastInDim S4096 ![] bcast_S_S4096 c0
  maximumf c1 v0

def clipN (A : FVec Ideal S8192x4096 .f32) : FVec Ideal S8192 .f32 :=
  let cst1 : FVec Ideal S_ .f32 := constant S_ .f32 0x00000000#32
  let v2 : FVec Ideal S8192 .f32 := Host.reduceAdd A cst1 reducesTo_S8192x4096_S8192_d1 h_S_
  let cst2 : FVec Ideal S_ .f32 := constant S_ .f32 0x358637BD#32
  let c0 : FVec Ideal S_ .f32 := id cst2
  let c1 : FVec Ideal S8192 .f32 := broadcastInDim S8192 ![] bcast_S_S8192 c0
  maximumf c1 v2

theorem clipE_apply (A : FVec Ideal S8192x4096 .f32) (m : Fin 4096) :
    clipE A (ix1 m) = max Cert.Spec.eps6 (∑ n : Fin 8192, A (ix2 n m)) := by
  unfold clipE
  dsimp only
  rw [maximumf_apply, Cert.LibHostRows.broadcastInDim_scalar_apply, hostReduceAdd_cols_apply]
  show max (Ideal.ofBits .f32 0x358637BD#32) (Ideal.ofBits .f32 0x00000000#32 + ∑ n : Fin 8192, A (ix2 n m)) = _
  rw [Ideal.ofBits_zero_f32, zero_add]

theorem clipN_apply (A : FVec Ideal S8192x4096 .f32) (n : Fin 8192) :
    clipN A (ix1 n) = max Cert.Spec.eps6 (∑ m : Fin 4096, A (ix2 n m)) := by
  unfold clipN
  dsimp only
  rw [maximumf_apply, Cert.LibHostRows.broadcastInDim_scalar_apply, Cert.LibHostRows.hostReduceAdd_rows_apply]
  show max (Ideal.ofBits .f32 0x358637BD#32) (Ideal.ofBits .f32 0x00000000#32 + ∑ m : Fin 4096, A (ix2 n m)) = _
  rw [Ideal.ofBits_zero_f32, zero_add]

end Cert.ReferenceIdeal.Hand

end
-- ==== Proof.RefLayer.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«153954_g5892695130345_cont_sun_m_578_38_alg».proof.Proof.Spec
import proofs.«153954_g5892695130345_cont_sun_m_578_38_alg».proof.Proof.LibHostRows
import proofs.«153954_g5892695130345_cont_sun_m_578_38_alg».proof.Proof.Alg

noncomputable section

namespace Cert.RefLayer

open Idealize.ShloMosaic Idealize.ShloMosaic.ValueIdx Idealize.ShloMosaic.StackMember Cert.LibHostRows
open scoped BigOperators

-- One message-passing update over `a` rows fed from `n` rows, stated once for both sides and both layers.
variable {a n : ℕ}
  (hred : (⟨2, ![a, 64]⟩ : Shape).ReducesTo [1] ⟨1, ![a]⟩) (hS : 0 < (⟨0, ![]⟩ : Shape).numel)
  (hcol : (⟨1, ![a]⟩ : Shape).BroadcastsInDim ⟨2, ![a, 1]⟩ (![0] : Fin 1 → Fin 2))
  (hs1 : (⟨0, ![]⟩ : Shape).BroadcastsInDim ⟨2, ![a, 1]⟩ (![] : Fin 0 → Fin 2))
  (hc64 : (⟨2, ![a, 1]⟩ : Shape).BroadcastsInDim ⟨2, ![a, 64]⟩ (![0, 1] : Fin 2 → Fin 2))
  (hsv : (⟨2, ![1, 64]⟩ : Shape).ShapeCasts ⟨1, ![64]⟩)
  (hrow1 : (⟨1, ![64]⟩ : Shape).BroadcastsInDim ⟨2, ![1, 64]⟩ (![1] : Fin 1 → Fin 2))
  (hrow : (⟨2, ![1, 64]⟩ : Shape).BroadcastsInDim ⟨2, ![a, 64]⟩ (![0, 1] : Fin 2 → Fin 2))
  (hcat : Shape.Concatenates [(⟨2, ![a, 64]⟩ : Shape), ⟨2, ![a, 64]⟩] ⟨2, ![a, 128]⟩ 1)
  (hsW : (⟨3, ![1, 64, 128]⟩ : Shape).ShapeCasts ⟨2, ![64, 128]⟩)
  (htW : (⟨2, ![64, 128]⟩ : Shape).Transposes [1, 0] ⟨2, ![128, 64]⟩)
  (hz64 : (⟨0, ![]⟩ : Shape).BroadcastsInDim ⟨2, ![a, 64]⟩ (![] : Fin 0 → Fin 2))
  (L : FVec Ideal ⟨2, ![a, n]⟩ .f32) (X : FVec Ideal ⟨2, ![n, 64]⟩ .f32) (H E M : FVec Ideal ⟨2, ![a, 64]⟩ .f32)
  (Wl : FVec Ideal ⟨3, ![1, 64, 128]⟩ .f32) (bl gl bel : FVec Ideal ⟨2, ![1, 64]⟩ .f32) (d : FVec Ideal ⟨1, ![a]⟩ .f32)

theorem hostDivf_apply {s : Shape} {φ : FTy} (x y : FVec Ideal s φ) (i : s.Idx) :
    Host.divf x y i = Ideal.div (x i) (y i) := rfl

theorem hostSqrt_apply {s : Shape} {φ : FTy} (x : FVec Ideal s φ) (i : s.Idx) :
    Host.sqrt x i = Ideal.sqrt (x i) := rfl

def msgG : FVec Ideal ⟨2, ![a, 64]⟩ .f32 :=
  Host.divf (F := Ideal) (Host.dotGeneral (F := Ideal) (DotDims.plain a n 64) none L X)
    (broadcastInDim ⟨2, ![a, 64]⟩ ![0, 1] hc64 (broadcastInDim ⟨2, ![a, 1]⟩ ![0] hcol d))

theorem msgG_apply (r : Fin a) (k : Fin 64) :
    msgG hcol hc64 L X d (ix2 r k) = Ideal.div (∑ c : Fin n, L (ix2 r c) * X (ix2 c k)) (d (ix1 r)) := by
  unfold msgG
  rw [hostDivf_apply, dotGeneral_plain_apply, broadcastInDim_col_apply, broadcastInDim_vec_col_apply]

theorem concat_apply (r : Fin a) (c : Fin 128) :
    concatenate ⟨2, ![a, 128]⟩ 1 [⟨⟨2, ![a, 64]⟩, E⟩, ⟨⟨2, ![a, 64]⟩, M⟩] hcat (ix2 r c)
      = Cert.Spec.cat (fun k => E (ix2 r k)) (fun k => M (ix2 r k)) c := by
  unfold Cert.Spec.cat
  split
  · next h =>
    exact concatenate_pair_apply_left 1 E M hcat (ix2 r c) rfl (ix2 r ⟨c.val, h⟩) fun b => by
      fin_cases b <;> rfl
  · next h =>
    refine concatenate_pair_apply_right 1 E M hcat (ix2 r c) rfl rfl (ix2 r ⟨c.val - 64, by omega⟩) (fun b hb => ?_) ?_
    · fin_cases b
      · rfl
      · exact absurd rfl hb
    · show c.val - 64 + 64 = c.val
      omega

theorem wt_apply (k : Fin 128) (j : Fin 64) :
    transpose ⟨2, ![128, 64]⟩ [1, 0] (shapeCast ⟨2, ![64, 128]⟩ Wl hsW) htW (ix2 k j) = Wl (ix3 0 j k) := by
  rw [transpose_ix2_apply, shapeCast_1ab_ab_apply]

theorem rowvec_apply (r : Fin a) (j : Fin 64) :
    broadcastInDim ⟨2, ![a, 64]⟩ ![0, 1] hrow (broadcastInDim ⟨2, ![1, 64]⟩ ![1] hrow1 (shapeCast ⟨1, ![64]⟩ bl hsv)) (ix2 r j)
      = bl (ix2 0 j) := by
  rw [broadcastInDim_row_apply, broadcastInDim_vec_row_apply, shapeCast_1a_a_apply]

def preG : FVec Ideal ⟨2, ![a, 64]⟩ .f32 :=
  addf (Host.dotGeneral (F := Ideal) (DotDims.plain a 128 64) none
      (concatenate ⟨2, ![a, 128]⟩ 1 [⟨⟨2, ![a, 64]⟩, E⟩, ⟨⟨2, ![a, 64]⟩, M⟩] hcat)
      (transpose ⟨2, ![128, 64]⟩ [1, 0] (shapeCast ⟨2, ![64, 128]⟩ Wl hsW) htW))
    (broadcastInDim ⟨2, ![a, 64]⟩ ![0, 1] hrow (broadcastInDim ⟨2, ![1, 64]⟩ ![1] hrow1 (shapeCast ⟨1, ![64]⟩ bl hsv)))

theorem preG_apply (r : Fin a) (j : Fin 64) :
    preG hsv hrow1 hrow hcat hsW htW E M Wl bl (ix2 r j)
      = (∑ k : Fin 128, Cert.Spec.cat (fun k => E (ix2 r k)) (fun k => M (ix2 r k)) k * Wl (ix3 0 j k)) + bl (ix2 0 j) := by
  unfold preG
  rw [addf_apply, dotGeneral_plain_apply, rowvec_apply]
  congr 1
  exact Finset.sum_congr rfl fun k _ => by rw [concat_apply, wt_apply]

def reluG : FVec Ideal ⟨2, ![a, 64]⟩ .f32 :=
  maximumf H (broadcastInDim ⟨2, ![a, 64]⟩ ![] hz64 (constant (F := Ideal) ⟨0, ![]⟩ .f32 0x00000000#32))

theorem reluG_apply (i : (⟨2, ![a, 64]⟩ : Shape).Idx) : reluG hz64 H i = max (H i) 0 := by
  unfold reluG
  rw [maximumf_apply, broadcastInDim_scalar_apply, constant_apply, Ideal.ofBits_zero_f32]

def meanG : FVec Ideal ⟨2, ![a, 1]⟩ .f32 :=
  Host.divf (F := Ideal)
    (broadcastInDim ⟨2, ![a, 1]⟩ ![0] hcol
      (Host.reduceAdd (F := Ideal) H (constant (F := Ideal) ⟨0, ![]⟩ .f32 0x00000000#32) hred hS))
    (broadcastInDim ⟨2, ![a, 1]⟩ ![] hs1 (constant (F := Ideal) ⟨0, ![]⟩ .f32 0x42800000#32))

theorem meanG_apply (r : Fin a) (z : Fin 1) :
    meanG hred hS hcol hs1 H (ix2 r z) = Cert.Spec.mean (fun j => H (ix2 r j)) := by
  unfold meanG Cert.Spec.mean
  rw [hostDivf_apply, broadcastInDim_vec_col_apply, hostReduceAdd_rows_apply, broadcastInDim_scalar_apply, constant_apply,
    constant_apply, Ideal.ofBits_zero_f32, zero_add]

theorem sitofp_zero : FloatOps.sitofp (F := Ideal) .f32 (0#32 : BitVec 32) = 0 := by
  show (((0#32 : BitVec 32).toInt : ℝ) : EReal) = 0
  have h0 : (0#32 : BitVec 32).toInt = 0 := by decide
  rw [h0, Int.cast_zero, EReal.coe_zero]

theorem cmp_c64_zero : FloatOps.cmpf (F := Ideal) (φ := .f32) .ogt Cert.Spec.c64 (Ideal.ofBits .f32 0x00000000#32) = 1#1 := by
  have hpos : (0 : EReal) < Cert.Spec.c64 := by
    rw [Cert.Alg.c64_eq]; exact_mod_cast (by norm_num : (0 : ℝ) < 64)
  rw [Ideal.cmpf_def, Ideal.ofBits_zero_f32]
  show BitVec.ofBool (decide ((0 : EReal) < Cert.Spec.c64)) = 1#1
  rw [decide_eq_true hpos]
  rfl

def varG (c : IVec ⟨0, ![]⟩ 32) : FVec Ideal ⟨2, ![a, 1]⟩ .f32 :=
  let v4 := broadcastInDim ⟨2, ![a, 64]⟩ ![0, 1] hc64 (meanG hred hS hcol hs1 H)
  let v5 := subf H v4
  let v6 := mulf v5 v5
  let v8 := subf (constant (F := Ideal) ⟨0, ![]⟩ .f32 0x42800000#32) (sitofp (F := Ideal) .f32 c)
  let v12 := Host.divf (F := Ideal)
    (broadcastInDim ⟨2, ![a, 1]⟩ ![0] hcol
      (Host.reduceAdd (F := Ideal) v6 (constant (F := Ideal) ⟨0, ![]⟩ .f32 0x00000000#32) hred hS))
    (broadcastInDim ⟨2, ![a, 1]⟩ ![] hs1 v8)
  select (broadcastInDim ⟨2, ![a, 1]⟩ ![] hs1 (cmpf (F := Ideal) .ogt v8 (constant (F := Ideal) ⟨0, ![]⟩ .f32 0x00000000#32)))
    v12 (broadcastInDim ⟨2, ![a, 1]⟩ ![] hs1 (id (constant (F := Ideal) ⟨0, ![]⟩ .f32 0x7FC00000#32)))

theorem varG_apply (r : Fin a) (z : Fin 1) :
    varG hred hS hcol hs1 hc64 H (constantI ⟨0, ![]⟩ 32 0#32) (ix2 r z) = Cert.Spec.var (fun j => H (ix2 r j)) := by
  unfold varG Cert.Spec.var
  dsimp only
  rw [select_apply, broadcastInDim_scalar_apply, cmpf_apply, subf_apply, constant_apply, constant_apply, sitofp_apply]
  have hc : constantI (⟨0, ![]⟩ : Shape) 32 0#32 ix0 = 0#32 := rfl
  rw [hc, sitofp_zero, sub_zero, cmp_c64_zero, select_one, hostDivf_apply, broadcastInDim_vec_col_apply,
    hostReduceAdd_rows_apply, broadcastInDim_scalar_apply, subf_apply, constant_apply, constant_apply, sitofp_apply, hc,
    sitofp_zero, sub_zero, Ideal.ofBits_zero_f32, zero_add]
  congr 1
  refine Finset.sum_congr rfl fun k _ => ?_
  rw [mulf_apply, subf_apply, broadcastInDim_col_apply, meanG_apply]

def lnG : FVec Ideal ⟨2, ![a, 64]⟩ .f32 :=
  let v29 := broadcastInDim ⟨2, ![a, 64]⟩ ![0, 1] hc64 (meanG hred hS hcol hs1 H)
  let v30 := subf H v29
  let v32 := addf (varG hred hS hcol hs1 hc64 H (constantI ⟨0, ![]⟩ 32 0#32))
    (broadcastInDim ⟨2, ![a, 1]⟩ ![] hs1 (constant (F := Ideal) ⟨0, ![]⟩ .f32 0x3727C5AC#32))
  let v34 := broadcastInDim ⟨2, ![a, 64]⟩ ![0, 1] hc64 (Host.sqrt (F := Ideal) v32)
  let v35 := Host.divf (F := Ideal) v30 v34
  let v38 := mulf v35
    (broadcastInDim ⟨2, ![a, 64]⟩ ![0, 1] hrow (broadcastInDim ⟨2, ![1, 64]⟩ ![1] hrow1 (shapeCast ⟨1, ![64]⟩ gl hsv)))
  addf v38 (broadcastInDim ⟨2, ![a, 64]⟩ ![0, 1] hrow (broadcastInDim ⟨2, ![1, 64]⟩ ![1] hrow1 (shapeCast ⟨1, ![64]⟩ bel hsv)))

theorem lnG_apply (r : Fin a) (j : Fin 64) :
    lnG hred hS hcol hs1 hc64 hsv hrow1 hrow H gl bel (ix2 r j)
      = Cert.Spec.ln (fun j => gl (ix2 0 j)) (fun j => bel (ix2 0 j)) (fun j => H (ix2 r j)) j := by
  unfold lnG Cert.Spec.ln
  dsimp only
  rw [addf_apply, mulf_apply, hostDivf_apply, subf_apply, broadcastInDim_col_apply, meanG_apply, broadcastInDim_col_apply,
    hostSqrt_apply, addf_apply, varG_apply, broadcastInDim_scalar_apply, constant_apply, rowvec_apply, rowvec_apply]

def updG : FVec Ideal ⟨2, ![a, 64]⟩ .f32 :=
  addf E (lnG hred hS hcol hs1 hc64 hsv hrow1 hrow
    (reluG hz64 (preG hsv hrow1 hrow hcat hsW htW E (msgG hcol hc64 L X d) Wl bl)) gl bel)

theorem updG_apply (r : Fin a) (j : Fin 64) :
    updG hred hS hcol hs1 hc64 hsv hrow1 hrow hcat hsW htW hz64 L X E Wl bl gl bel d (ix2 r j)
      = E (ix2 r j) + Cert.Spec.ln (fun j => gl (ix2 0 j)) (fun j => bel (ix2 0 j))
          (Cert.Spec.mlp (fun k => E (ix2 r k))
            (fun k => Ideal.div (∑ c : Fin n, L (ix2 r c) * X (ix2 c k)) (d (ix1 r)))
            (fun k j => Wl (ix3 0 j k)) (fun j => bl (ix2 0 j))) j := by
  unfold updG
  rw [addf_apply, lnG_apply]
  congr 2
  funext j'
  rw [reluG_apply, preG_apply]
  unfold Cert.Spec.mlp
  simp only [msgG_apply]

end Cert.RefLayer

end
-- ==== Proof.RefValueE.lean ====
import proofs.«153954_g5892695130345_cont_sun_m_578_38_alg».proof.ReferenceIdeal
import proofs.«153954_g5892695130345_cont_sun_m_578_38_alg».proof.Proof.Gen.ReferenceIdeal
import proofs.«153954_g5892695130345_cont_sun_m_578_38_alg».proof.Proof.Spec
import Idealize.ShloMosaic.Lib.ValueIdx
import Idealize.ShloMosaic.Lib.ValueLayout
import Idealize.ShloMosaic.Lib.Pipeline.Value
import proofs.«153954_g5892695130345_cont_sun_m_578_38_alg».proof.Proof.RefLayer

noncomputable section

namespace Cert.ReferenceIdeal.Hand

open Cert.ReferenceIdeal Cert.ReferenceIdeal.Gen Idealize.ShloMosaic Idealize.ShloMosaic.ValueIdx
open scoped BigOperators

def sliceW (l : Fin 2) (W : FVec Ideal S2x64x128 .f32) : FVec Ideal S1x64x128 .f32 :=
  match l with
  | ⟨0, _⟩ => extractStridedSlice S1x64x128 ![0, 0, 0] W slices_S2x64x128_S1x64x128_0_0_0
  | ⟨1, _⟩ => extractStridedSlice S1x64x128 ![1, 0, 0] W slices_S2x64x128_S1x64x128_1_0_0

def sliceV (l : Fin 2) (b : FVec Ideal S2x64 .f32) : FVec Ideal S1x64 .f32 :=
  match l with
  | ⟨0, _⟩ => extractStridedSlice S1x64 ![0, 0] b slices_S2x64_S1x64_0_0
  | ⟨1, _⟩ => extractStridedSlice S1x64 ![1, 0] b slices_S2x64_S1x64_1_0

-- Both sides and both layers are the one general update; the edge side reads the incidence array transposed.
def edgeUpdate (l : Fin 2) (A : FVec Ideal S8192x4096 .f32) (dE : FVec Ideal S4096 .f32) (x : FVec Ideal S8192x64 .f32)
    (e : FVec Ideal S4096x64 .f32) (W : FVec Ideal S2x64x128 .f32) (b g be : FVec Ideal S2x64 .f32) :
    FVec Ideal S4096x64 .f32 :=
  Cert.RefLayer.updG (a := 4096) (n := 8192) reducesTo_S4096x64_S4096_d1 h_S_ bcast_S4096_S4096x1_0 bcast_S_S4096x1
    bcast_S4096x1_S4096x64_0_1 shapeCasts_S1x64_S64 bcast_S64_S1x64_1 bcast_S1x64_S4096x64_0_1
    concatenates_S4096x64_S4096x64_S4096x128_d1 shapeCasts_S1x64x128_S64x128 transposes_S64x128_S128x64_1_0
    bcast_S_S4096x64 (transpose S4096x8192 [1, 0] A transposes_S8192x4096_S4096x8192_1_0) x e
    (sliceW l W) (sliceV l b) (sliceV l g) (sliceV l be) dE

def nodeUpdate (l : Fin 2) (A : FVec Ideal S8192x4096 .f32) (dN : FVec Ideal S8192 .f32) (e : FVec Ideal S4096x64 .f32)
    (x : FVec Ideal S8192x64 .f32) (W : FVec Ideal S2x64x128 .f32) (b g be : FVec Ideal S2x64 .f32) :
    FVec Ideal S8192x64 .f32 :=
  Cert.RefLayer.updG (a := 8192) (n := 4096) reducesTo_S8192x64_S8192_d1 h_S_ bcast_S8192_S8192x1_0 bcast_S_S8192x1
    bcast_S8192x1_S8192x64_0_1 shapeCasts_S1x64_S64 bcast_S64_S1x64_1 bcast_S1x64_S8192x64_0_1
    concatenates_S8192x64_S8192x64_S8192x128_d1 shapeCasts_S1x64x128_S64x128 transposes_S64x128_S128x64_1_0
    bcast_S_S8192x64 A e x (sliceW l W) (sliceV l b) (sliceV l g) (sliceV l be) dN

theorem transposeA_apply (A : FVec Ideal S8192x4096 .f32) (m : Fin 4096) (c : Fin 8192) :
    transpose S4096x8192 [1, 0] A transposes_S8192x4096_S4096x8192_1_0 (ix2 m c) = A (ix2 c m) :=
  transpose_ix2_apply A _ m c

theorem sliceW_apply (l : Fin 2) (W : FVec Ideal S2x64x128 .f32) (j : Fin 64) (k : Fin 128) :
    sliceW l W (ix3 0 j k) = W (ix3 l j k) := by
  match l with
  | ⟨0, _⟩ | ⟨1, _⟩ =>
    exact extractStridedSlice_apply _ W (by decide) (ix3 0 j k) _ fun a => by
      fin_cases a <;> first | rfl | exact (Nat.zero_add _).symm

theorem sliceV_apply (l : Fin 2) (b : FVec Ideal S2x64 .f32) (j : Fin 64) :
    sliceV l b (ix2 0 j) = b (ix2 l j) := by
  match l with
  | ⟨0, _⟩ | ⟨1, _⟩ => exact slice2_axis0_apply _ b (by decide) 0 j _ rfl

theorem edgeUpdate_apply (l : Fin 2) (A : FVec Ideal S8192x4096 .f32) (dE : FVec Ideal S4096 .f32) (x : FVec Ideal S8192x64 .f32)
    (e : FVec Ideal S4096x64 .f32) (W : FVec Ideal S2x64x128 .f32) (b g be : FVec Ideal S2x64 .f32)
    (hd : ∀ m : Fin 4096, dE (ix1 m) = max Cert.Spec.eps6 (∑ n : Fin 8192, A (ix2 n m)))
    (m : Fin 4096) (j : Fin 64) :
    edgeUpdate l A dE x e W b g be (ix2 m j) =
      Cert.Spec.layerE (fun n m => A (ix2 n m)) (fun n d => x (ix2 n d)) (fun m d => e (ix2 m d))
        (fun k j => W (ix3 l j k)) (fun j => b (ix2 l j)) (fun j => g (ix2 l j)) (fun j => be (ix2 l j)) m j := by
  unfold edgeUpdate
  rw [Cert.RefLayer.updG_apply, hd]
  have hmsg : ∀ k : Fin 64,
      (∑ c : Fin 8192, transpose S4096x8192 [1, 0] A transposes_S8192x4096_S4096x8192_1_0 (ix2 m c) * x (ix2 c k))
        = ∑ n : Fin 8192, A (ix2 n m) * x (ix2 n k) :=
    fun k => Finset.sum_congr rfl fun c _ => by rw [transposeA_apply]
  simp only [hmsg, sliceW_apply, sliceV_apply]
  rfl

theorem nodeUpdate_apply (l : Fin 2) (A : FVec Ideal S8192x4096 .f32) (dN : FVec Ideal S8192 .f32) (e : FVec Ideal S4096x64 .f32)
    (x : FVec Ideal S8192x64 .f32) (W : FVec Ideal S2x64x128 .f32) (b g be : FVec Ideal S2x64 .f32)
    (hd : ∀ n : Fin 8192, dN (ix1 n) = max Cert.Spec.eps6 (∑ m : Fin 4096, A (ix2 n m)))
    (n : Fin 8192) (j : Fin 64) :
    nodeUpdate l A dN e x W b g be (ix2 n j) =
      Cert.Spec.layerN (fun n m => A (ix2 n m)) (fun m d => e (ix2 m d)) (fun n d => x (ix2 n d))
        (fun k j => W (ix3 l j k)) (fun j => b (ix2 l j)) (fun j => g (ix2 l j)) (fun j => be (ix2 l j)) n j := by
  unfold nodeUpdate
  rw [Cert.RefLayer.updG_apply, hd]
  simp only [sliceW_apply, sliceV_apply]
  rfl

end Cert.ReferenceIdeal.Hand

end
-- ==== Proof.RefValue.lean ====
import proofs.«153954_g5892695130345_cont_sun_m_578_38_alg».proof.Proof.RefReadOut
import proofs.«153954_g5892695130345_cont_sun_m_578_38_alg».proof.Proof.RefValueE
import proofs.«153954_g5892695130345_cont_sun_m_578_38_alg».proof.Proof.RefStages

noncomputable section

namespace Cert.ReferenceIdeal.Hand

open Idealize.ShloMosaic Idealize.ShloMosaic.ValueIdx
open Cert.ReferenceIdeal
open scoped BigOperators

def refTerm (a0 : FVec Ideal S8192x4096 .f32) (a1 : FVec Ideal S8192x64 .f32) (a2 : FVec Ideal S4096x64 .f32)
    (a3 : FVec Ideal S2x64x128 .f32) (a4 a5 a6 : FVec Ideal S2x64 .f32)
    (a7 : FVec Ideal S2x64x128 .f32) (a8 a9 a10 : FVec Ideal S2x64 .f32)
    (a11 : FVec Ideal S1x64 .f32) (a12 : FVec Ideal S1 .f32) : FVec Ideal S4096 .f32 :=
  let dE := clipE a0
  let dN := clipN a0
  let e1 := edgeUpdate 0 a0 dE a1 a2 a3 a4 a5 a6
  let x1 := nodeUpdate 0 a0 dN e1 a1 a7 a8 a9 a10
  let e2 := edgeUpdate 1 a0 dE x1 e1 a3 a4 a5 a6
  readOut e2 a11 a12

theorem refTerm_eq (a0 : FVec Ideal S8192x4096 .f32) (a1 : FVec Ideal S8192x64 .f32) (a2 : FVec Ideal S4096x64 .f32)
    (a3 : FVec Ideal S2x64x128 .f32) (a4 a5 a6 : FVec Ideal S2x64 .f32)
    (a7 : FVec Ideal S2x64x128 .f32) (a8 a9 a10 : FVec Ideal S2x64 .f32)
    (a11 : FVec Ideal S1x64 .f32) (a12 : FVec Ideal S1 .f32) :
    refTerm a0 a1 a2 a3 a4 a5 a6 a7 a8 a9 a10 a11 a12
      = fun i => Cert.Spec.probs (fun n m => a0 (ix2 n m)) (fun n d => a1 (ix2 n d)) (fun m d => a2 (ix2 m d))
          (fun l j k => a3 (ix3 l j k)) (fun l j => a4 (ix2 l j)) (fun l j => a5 (ix2 l j)) (fun l j => a6 (ix2 l j))
          (fun l j k => a7 (ix3 l j k)) (fun l j => a8 (ix2 l j)) (fun l j => a9 (ix2 l j)) (fun l j => a10 (ix2 l j))
          (fun z k => a11 (ix2 z k)) (fun z => a12 (ix1 z)) (i 0) := by
  funext i
  obtain ⟨m, rfl⟩ : ∃ m : Fin 4096, i = ix1 m := ⟨i 0, eq_ix1 i⟩

  have h1 : (fun (m : Fin 4096) (d : Fin 64) => edgeUpdate 0 a0 (clipE a0) a1 a2 a3 a4 a5 a6 (ix2 m d))
      = Cert.Spec.layerE (fun n m => a0 (ix2 n m)) (fun n d => a1 (ix2 n d)) (fun m d => a2 (ix2 m d))
          (fun k j => a3 (ix3 (0 : Fin 2) j k)) (fun j => a4 (ix2 (0 : Fin 2) j)) (fun j => a5 (ix2 (0 : Fin 2) j))
          (fun j => a6 (ix2 (0 : Fin 2) j)) :=
    funext fun m => funext fun d => edgeUpdate_apply 0 a0 (clipE a0) a1 a2 a3 a4 a5 a6 (clipE_apply a0) m d
  have h2 : (fun (n : Fin 8192) (d : Fin 64) =>
        nodeUpdate 0 a0 (clipN a0) (edgeUpdate 0 a0 (clipE a0) a1 a2 a3 a4 a5 a6) a1 a7 a8 a9 a10 (ix2 n d))
      = Cert.Spec.layerN (fun n m => a0 (ix2 n m))
          (fun (m : Fin 4096) (d : Fin 64) => edgeUpdate 0 a0 (clipE a0) a1 a2 a3 a4 a5 a6 (ix2 m d))
          (fun n d => a1 (ix2 n d))
          (fun k j => a7 (ix3 (0 : Fin 2) j k)) (fun j => a8 (ix2 (0 : Fin 2) j)) (fun j => a9 (ix2 (0 : Fin 2) j))
          (fun j => a10 (ix2 (0 : Fin 2) j)) :=
    funext fun n => funext fun d =>
      nodeUpdate_apply 0 a0 (clipN a0) (edgeUpdate 0 a0 (clipE a0) a1 a2 a3 a4 a5 a6) a1 a7 a8 a9 a10 (clipN_apply a0) n d
  have h3 : (fun (m : Fin 4096) (d : Fin 64) =>
        edgeUpdate 1 a0 (clipE a0)
          (nodeUpdate 0 a0 (clipN a0) (edgeUpdate 0 a0 (clipE a0) a1 a2 a3 a4 a5 a6) a1 a7 a8 a9 a10)
          (edgeUpdate 0 a0 (clipE a0) a1 a2 a3 a4 a5 a6) a3 a4 a5 a6 (ix2 m d))
      = Cert.Spec.layerE (fun n m => a0 (ix2 n m))
          (fun (n : Fin 8192) (d : Fin 64) =>
            nodeUpdate 0 a0 (clipN a0) (edgeUpdate 0 a0 (clipE a0) a1 a2 a3 a4 a5 a6) a1 a7 a8 a9 a10 (ix2 n d))
          (fun (m : Fin 4096) (d : Fin 64) => edgeUpdate 0 a0 (clipE a0) a1 a2 a3 a4 a5 a6 (ix2 m d))
          (fun k j => a3 (ix3 (1 : Fin 2) j k)) (fun j => a4 (ix2 (1 : Fin 2) j)) (fun j => a5 (ix2 (1 : Fin 2) j))
          (fun j => a6 (ix2 (1 : Fin 2) j)) :=
    funext fun m => funext fun d =>
      edgeUpdate_apply 1 a0 (clipE a0)
        (nodeUpdate 0 a0 (clipN a0) (edgeUpdate 0 a0 (clipE a0) a1 a2 a3 a4 a5 a6) a1 a7 a8 a9 a10)
        (edgeUpdate 0 a0 (clipE a0) a1 a2 a3 a4 a5 a6) a3 a4 a5 a6 (clipE_apply a0) m d
  show readOut
      (edgeUpdate 1 a0 (clipE a0)
        (nodeUpdate 0 a0 (clipN a0) (edgeUpdate 0 a0 (clipE a0) a1 a2 a3 a4 a5 a6) a1 a7 a8 a9 a10)
        (edgeUpdate 0 a0 (clipE a0) a1 a2 a3 a4 a5 a6) a3 a4 a5 a6) a11 a12 (ix1 m)
    = Cert.Spec.probs (fun n m => a0 (ix2 n m)) (fun n d => a1 (ix2 n d)) (fun m d => a2 (ix2 m d))
          (fun l j k => a3 (ix3 l j k)) (fun l j => a4 (ix2 l j)) (fun l j => a5 (ix2 l j)) (fun l j => a6 (ix2 l j))
          (fun l j k => a7 (ix3 l j k)) (fun l j => a8 (ix2 l j)) (fun l j => a9 (ix2 l j)) (fun l j => a10 (ix2 l j))
          (fun z k => a11 (ix2 z k)) (fun z => a12 (ix1 z)) m
  rw [readOut_apply, h3, h2, h1]
  rfl

section Stages

variable (a0 : FVec Ideal S8192x4096 .f32) (a1 : FVec Ideal S8192x64 .f32) (a2 : FVec Ideal S4096x64 .f32)
    (a3 : FVec Ideal S2x64x128 .f32) (a4 a5 a6 : FVec Ideal S2x64 .f32)
    (a7 : FVec Ideal S2x64x128 .f32) (a8 a9 a10 : FVec Ideal S2x64 .f32)
    (a11 : FVec Ideal S1x64 .f32) (a12 : FVec Ideal S1 .f32)

theorem val_main_v1_eq : val_main_v1 (F := Ideal) a0 = clipE a0 := rfl

theorem val_main_v3_eq : val_main_v3 (F := Ideal) a0 = clipN a0 := rfl

theorem val_main_v42_eq : val_main_v42 (F := Ideal) a0 a1 a2 a3 a4 a5 a6
    = edgeUpdate 0 a0 (val_main_v1 (F := Ideal) a0) a1 a2 a3 a4 a5 a6 := rfl

theorem val_main_v80_eq : val_main_v80 (F := Ideal) a0 a1 a2 a3 a4 a5 a6 a7 a8 a9 a10
    = nodeUpdate 0 a0 (val_main_v3 (F := Ideal) a0)
        (val_main_v42 (F := Ideal) a0 a1 a2 a3 a4 a5 a6) a1 a7 a8 a9 a10 := rfl

theorem val_main_v119_eq : val_main_v119 (F := Ideal) a0 a1 a2 a3 a4 a5 a6 a7 a8 a9 a10
    = edgeUpdate 1 a0 (val_main_v1 (F := Ideal) a0)
        (val_main_v80 (F := Ideal) a0 a1 a2 a3 a4 a5 a6 a7 a8 a9 a10)
        (val_main_v42 (F := Ideal) a0 a1 a2 a3 a4 a5 a6) a3 a4 a5 a6 := rfl

theorem val_main_v171_eq : val_main_v171 (F := Ideal) a0 a1 a2 a3 a4 a5 a6 a7 a8 a9 a10 a11 a12
    = readOut (val_main_v119 (F := Ideal) a0 a1 a2 a3 a4 a5 a6 a7 a8 a9 a10) a11 a12 := rfl

theorem val_main_v171_eq_refTerm : val_main_v171 (F := Ideal) a0 a1 a2 a3 a4 a5 a6 a7 a8 a9 a10 a11 a12
    = refTerm a0 a1 a2 a3 a4 a5 a6 a7 a8 a9 a10 a11 a12 := by
  rw [val_main_v171_eq, val_main_v119_eq, val_main_v80_eq, val_main_v42_eq, val_main_v1_eq, val_main_v3_eq]
  rfl

theorem val_main_v171_spec : val_main_v171 (F := Ideal) a0 a1 a2 a3 a4 a5 a6 a7 a8 a9 a10 a11 a12
    = fun i => Cert.Spec.probs (fun n m => a0 (ix2 n m)) (fun n d => a1 (ix2 n d)) (fun m d => a2 (ix2 m d))
        (fun l j k => a3 (ix3 l j k)) (fun l j => a4 (ix2 l j)) (fun l j => a5 (ix2 l j)) (fun l j => a6 (ix2 l j))
        (fun l j k => a7 (ix3 l j k)) (fun l j => a8 (ix2 l j)) (fun l j => a9 (ix2 l j)) (fun l j => a10 (ix2 l j))
        (fun z k => a11 (ix2 z k)) (fun z => a12 (ix1 z)) (i 0) :=
  (val_main_v171_eq_refTerm a0 a1 a2 a3 a4 a5 a6 a7 a8 a9 a10 a11 a12).trans
    (refTerm_eq a0 a1 a2 a3 a4 a5 a6 a7 a8 a9 a10 a11 a12)

end Stages

end Cert.ReferenceIdeal.Hand

end
-- ==== Proof.RefResult.lean ====
import proofs.«153954_g5892695130345_cont_sun_m_578_38_alg».proof.Proof.RefAfter
import proofs.«153954_g5892695130345_cont_sun_m_578_38_alg».proof.Proof.RefValue

noncomputable section

namespace Cert.ReferenceIdeal.Hand

open Cert.ReferenceIdeal Idealize.ShloMosaic Idealize.ShloMosaic.ValueIdx Idealize.ShloMosaic.TcCoe Idealize.SL.Sem
  Idealize.ShloMosaic.StableHlo

def result (m : (ℓ : Loc nD τ sig) → Buf (Elt Ideal) ℓ) (c : Dev nD) :
    Buf (Elt Ideal) ((c.tc : Thread nD τ).loc main_v171) :=
  fun i => Cert.Spec.probs (fun n k => m ((c.tc : Thread nD τ).loc main_arg0) (ix2 n k)) (fun n d => m ((c.tc : Thread nD τ).loc main_arg1) (ix2 n d))
    (fun e d => m ((c.tc : Thread nD τ).loc main_arg2) (ix2 e d)) (fun l j k => m ((c.tc : Thread nD τ).loc main_arg3) (ix3 l j k))
    (fun l j => m ((c.tc : Thread nD τ).loc main_arg4) (ix2 l j)) (fun l j => m ((c.tc : Thread nD τ).loc main_arg5) (ix2 l j))
    (fun l j => m ((c.tc : Thread nD τ).loc main_arg6) (ix2 l j)) (fun l j k => m ((c.tc : Thread nD τ).loc main_arg7) (ix3 l j k))
    (fun l j => m ((c.tc : Thread nD τ).loc main_arg8) (ix2 l j)) (fun l j => m ((c.tc : Thread nD τ).loc main_arg9) (ix2 l j))
    (fun l j => m ((c.tc : Thread nD τ).loc main_arg10) (ix2 l j)) (fun z k => m ((c.tc : Thread nD τ).loc main_arg11) (ix2 z k))
    (fun z => m ((c.tc : Thread nD τ).loc main_arg12) (ix1 z)) (i 0)

theorem run_value (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v171) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.ReferenceIdeal.defs (F := Ideal)) _ _).mono
    (fun _ h c => ⟨(h c).1.trans ((after_ops_eq (F := Ideal) (launchContents m c)).trans
        (val_main_v171_spec _ _ _ _ _ _ _ _ _ _ _ _ _)), (h c).2⟩)
    (run (F := Ideal) m ρ)

end Cert.ReferenceIdeal.Hand

end
-- ==== Proof.lean ====
import proofs.«153954_g5892695130345_cont_sun_m_578_38_alg».proof.Defs
import proofs.«153954_g5892695130345_cont_sun_m_578_38_alg».proof.Proof.Gen.Kernel
import proofs.«153954_g5892695130345_cont_sun_m_578_38_alg».proof.Proof.Gen.KernelIdeal
import proofs.«153954_g5892695130345_cont_sun_m_578_38_alg».proof.Proof.Gen.ReferenceIdeal
import proofs.«153954_g5892695130345_cont_sun_m_578_38_alg».proof.Proof.Gen.Pre_finite_inputs
import proofs.«153954_g5892695130345_cont_sun_m_578_38_alg».proof.Proof.WK0Body
import proofs.«153954_g5892695130345_cont_sun_m_578_38_alg».proof.Proof.WK1Body
import proofs.«153954_g5892695130345_cont_sun_m_578_38_alg».proof.Proof.WKRun
import proofs.«153954_g5892695130345_cont_sun_m_578_38_alg».proof.Proof.K0Body
import proofs.«153954_g5892695130345_cont_sun_m_578_38_alg».proof.Proof.K1Body
import proofs.«153954_g5892695130345_cont_sun_m_578_38_alg».proof.Proof.KValue
import proofs.«153954_g5892695130345_cont_sun_m_578_38_alg».proof.Proof.RefResult

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => (θ_run Cert.Kernel.defs _ _).mono (fun _ h c => (h c).2)
    (Cert.Kernel.Hand.run_v41 (F := Bits) Cert.Kernel.Hand.body_obligation0 Cert.Kernel.Hand.body_obligation1 m ρ)

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2)
    (Cert.KernelIdeal.Hand.run_v41 (F := Ideal) Cert.KernelIdeal.Hand.body_obligation0 Cert.KernelIdeal.Hand.body_obligation1 m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run_value m ρ)

/-- Both runs end with the same function of their arguments in the result array, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c,
    (θ_run Cert.KernelIdeal.defs _ _).mono
      (fun _ h c => ⟨(h c).1.trans (Cert.KernelIdeal.Hand.W5_main_v41_eq m ρ c), (h c).2⟩)
      (Cert.KernelIdeal.Hand.run_v41 (F := Ideal) Cert.KernelIdeal.Hand.body_obligation0 Cert.KernelIdeal.Hand.body_obligation1 m ρ), ?_⟩
  refine (θ_run Cert.ReferenceIdeal.defs _ _).mono (fun _ h c => ⟨(h c).1.trans ?_, (h c).2⟩)
    (Cert.ReferenceIdeal.Hand.run_value m' ρ')
  unfold Cert.ReferenceIdeal.Hand.result Cert.KernelIdeal.Hand.result
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
